-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v309)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v309) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S160000 : Shape := ⟨1, ![160000]⟩
abbrev S128x64 : Shape := ⟨2, ![128, 64]⟩
abbrev S2x512x512 : Shape := ⟨3, ![2, 512, 512]⟩
abbrev S2x512 : Shape := ⟨2, ![2, 512]⟩
abbrev S2x512x2048 : Shape := ⟨3, ![2, 512, 2048]⟩
abbrev S2x2048 : Shape := ⟨2, ![2, 2048]⟩
abbrev S2x2048x512 : Shape := ⟨3, ![2, 2048, 512]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_
  bcast_S_S2x512x2048 : S_.BroadcastsInDim S2x512x2048 (![] : Fin 0 → Fin S2x512x2048.rank)
  reducesTo_S2x512x2048_S_d0_1_2 : S2x512x2048.ReducesTo [0, 1, 2] S_
  bcast_S_S2x2048 : S_.BroadcastsInDim S2x2048 (![] : Fin 0 → Fin S2x2048.rank)
  reducesTo_S2x2048_S_d0_1 : S2x2048.ReducesTo [0, 1] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn_part4 {F : FTy → Type} [FloatOps F] (main_arg17 : FVec F S2x512 .f32) (main_arg18 : FVec F S2x512 .f32) (main_v63 : IVec S_ 1) (main_v67 : IVec S_ 1) : IVec S_ 1 :=
  let main_v68 : IVec S_ 1 := andi main_v63 main_v67
  let main_v69 : FVec F S2x512 .f32 := Host.absf main_arg17
  let main_cst_26 : FVec F S_ .f32 := constant S_ .f32 0x7F800000#32
  let main_v70 : FVec F S2x512 .f32 := broadcastInDim S2x512 ![] bcast_S_S2x512 main_cst_26
  let main_v71 : IVec S2x512 1 := cmpf .olt main_v69 main_v70
  let main_c_27 : IVec S_ 1 := constantI S_ 1 1#1
  let main_v72 : IVec S_ 1 := (fun x v => Host.reduce IntOp.andi x v reducesTo_S2x512_S_d0_1 h_S_) main_v71 main_c_27
  let main_v73 : IVec S_ 1 := andi main_v68 main_v72
  let main_v74 : FVec F S2x512 .f32 := Host.absf main_arg18
  let main_cst_28 : FVec F S_ .f32 := constant S_ .f32 0x7F800000#32
  let main_v75 : FVec F S2x512 .f32 := broadcastInDim S2x512 ![] bcast_S_S2x512 main_cst_28
  let main_v76 : IVec S2x512 1 := cmpf .olt main_v74 main_v75
  let main_c_29 : IVec S_ 1 := constantI S_ 1 1#1
  let main_v77 : IVec S_ 1 := (fun x v => Host.reduce IntOp.andi x v reducesTo_S2x512_S_d0_1 h_S_) main_v76 main_c_29
  let main_v78 : IVec S_ 1 := andi main_v73 main_v77
  main_v78

def fn_part3 {F : FTy → Type} [FloatOps F] (main_arg14 : FVec F S2x2048 .f32) (main_arg15 : FVec F S2x2048x512 .f32) (main_arg16 : FVec F S2x512 .f32) (main_arg17 : FVec F S2x512 .f32) (main_arg18 : FVec F S2x512 .f32) (main_v48 : IVec S_ 1) (main_v49 : FVec F S2x512x2048 .f32) (main_v50 : FVec F S2x512x2048 .f32) : IVec S_ 1 :=
  let main_v51 : IVec S2x512x2048 1 := cmpf .olt main_v49 main_v50
  let main_c_19 : IVec S_ 1 := constantI S_ 1 1#1
  let main_v52 : IVec S_ 1 := (fun x v => Host.reduce IntOp.andi x v reducesTo_S2x512x2048_S_d0_1_2 h_S_) main_v51 main_c_19
  let main_v53 : IVec S_ 1 := andi main_v48 main_v52
  let main_v54 : FVec F S2x2048 .f32 := Host.absf main_arg14
  let main_cst_20 : FVec F S_ .f32 := constant S_ .f32 0x7F800000#32
  let main_v55 : FVec F S2x2048 .f32 := broadcastInDim S2x2048 ![] bcast_S_S2x2048 main_cst_20
  let main_v56 : IVec S2x2048 1 := cmpf .olt main_v54 main_v55
  let main_c_21 : IVec S_ 1 := constantI S_ 1 1#1
  let main_v57 : IVec S_ 1 := (fun x v => Host.reduce IntOp.andi x v reducesTo_S2x2048_S_d0_1 h_S_) main_v56 main_c_21
  let main_v58 : IVec S_ 1 := andi main_v53 main_v57
  let main_v59 : FVec F S2x2048x512 .f32 := Host.absf main_arg15
  let main_cst_22 : FVec F S_ .f32 := constant S_ .f32 0x7F800000#32
  let main_v60 : FVec F S2x2048x512 .f32 := broadcastInDim S2x2048x512 ![] bcast_S_S2x2048x512 main_cst_22
  let main_v61 : IVec S2x2048x512 1 := cmpf .olt main_v59 main_v60
  let main_c_23 : IVec S_ 1 := constantI S_ 1 1#1
  let main_v62 : IVec S_ 1 := (fun x v => Host.reduce IntOp.andi x v reducesTo_S2x2048x512_S_d0_1_2 h_S_) main_v61 main_c_23
  let main_v63 : IVec S_ 1 := andi main_v58 main_v62
  let main_v64 : FVec F S2x512 .f32 := Host.absf main_arg16
  let main_cst_24 : FVec F S_ .f32 := constant S_ .f32 0x7F800000#32
  let main_v65 : FVec F S2x512 .f32 := broadcastInDim S2x512 ![] bcast_S_S2x512 main_cst_24
  let main_v66 : IVec S2x512 1 := cmpf .olt main_v64 main_v65
  let main_c_25 : IVec S_ 1 := constantI S_ 1 1#1
  let main_v67 : IVec S_ 1 := (fun x v => Host.reduce IntOp.andi x v reducesTo_S2x512_S_d0_1 h_S_) main_v66 main_c_25
  fn_part4 (F := F) main_arg17 main_arg18 main_v63 main_v67

def fn_part2 {F : FTy → Type} [FloatOps F] (main_arg10 : FVec F S2x512 .f32) (main_arg11 : FVec F S2x512 .f32) (main_arg12 : FVec F S2x512 .f32) (main_arg13 : FVec F S2x512x2048 .f32) (main_arg14 : FVec F S2x2048 .f32) (main_arg15 : FVec F S2x2048x512 .f32) (main_arg16 : FVec F S2x512 .f32) (main_arg17 : FVec F S2x512 .f32) (main_arg18 : FVec F S2x512 .f32) (main_v33 : IVec S_ 1) : IVec S_ 1 :=
  let main_v34 : FVec F S2x512 .f32 := Host.absf main_arg10
  let main_cst_12 : FVec F S_ .f32 := constant S_ .f32 0x7F800000#32
  let main_v35 : FVec F S2x512 .f32 := broadcastInDim S2x512 ![] bcast_S_S2x512 main_cst_12
  let main_v36 : IVec S2x512 1 := cmpf .olt main_v34 main_v35
  let main_c_13 : IVec S_ 1 := constantI S_ 1 1#1
  let main_v37 : IVec S_ 1 := (fun x v => Host.reduce IntOp.andi x v reducesTo_S2x512_S_d0_1 h_S_) main_v36 main_c_13
  let main_v38 : IVec S_ 1 := andi main_v33 main_v37
  let main_v39 : FVec F S2x512 .f32 := Host.absf main_arg11
  let main_cst_14 : FVec F S_ .f32 := constant S_ .f32 0x7F800000#32
  let main_v40 : FVec F S2x512 .f32 := broadcastInDim S2x512 ![] bcast_S_S2x512 main_cst_14
  let main_v41 : IVec S2x512 1 := cmpf .olt main_v39 main_v40
  let main_c_15 : IVec S_ 1 := constantI S_ 1 1#1
  let main_v42 : IVec S_ 1 := (fun x v => Host.reduce IntOp.andi x v reducesTo_S2x512_S_d0_1 h_S_) main_v41 main_c_15
  let main_v43 : IVec S_ 1 := andi main_v38 main_v42
  let main_v44 : FVec F S2x512 .f32 := Host.absf main_arg12
  let main_cst_16 : FVec F S_ .f32 := constant S_ .f32 0x7F800000#32
  let main_v45 : FVec F S2x512 .f32 := broadcastInDim S2x512 ![] bcast_S_S2x512 main_cst_16
  let main_v46 : IVec S2x512 1 := cmpf .olt main_v44 main_v45
  let main_c_17 : IVec S_ 1 := constantI S_ 1 1#1
  let main_v47 : IVec S_ 1 := (fun x v => Host.reduce IntOp.andi x v reducesTo_S2x512_S_d0_1 h_S_) main_v46 main_c_17
  let main_v48 : IVec S_ 1 := andi main_v43 main_v47
  let main_v49 : FVec F S2x512x2048 .f32 := Host.absf main_arg13
  let main_cst_18 : FVec F S_ .f32 := constant S_ .f32 0x7F800000#32
  let main_v50 : FVec F S2x512x2048 .f32 := broadcastInDim S2x512x2048 ![] bcast_S_S2x512x2048 main_cst_18
  fn_part3 (F := F) main_arg14 main_arg15 main_arg16 main_arg17 main_arg18 main_v48 main_v49 main_v50

def fn_part1 {F : FTy → Type} [FloatOps F] (main_arg7 : FVec F S2x512x512 .f32) (main_arg8 : FVec F S2x512x512 .f32) (main_arg9 : FVec F S2x512x512 .f32) (main_arg10 : FVec F S2x512 .f32) (main_arg11 : FVec F S2x512 .f32) (main_arg12 : FVec F S2x512 .f32) (main_arg13 : FVec F S2x512x2048 .f32) (main_arg14 : FVec F S2x2048 .f32) (main_arg15 : FVec F S2x2048x512 .f32) (main_arg16 : FVec F S2x512 .f32) (main_arg17 : FVec F S2x512 .f32) (main_arg18 : FVec F S2x512 .f32) (main_v13 : IVec S_ 1) (main_v16 : IVec S2x512 1) : IVec S_ 1 :=
  let main_c_5 : IVec S_ 1 := constantI S_ 1 1#1
  let main_v17 : IVec S_ 1 := (fun x v => Host.reduce IntOp.andi x v reducesTo_S2x512_S_d0_1 h_S_) main_v16 main_c_5
  let main_v18 : IVec S_ 1 := andi main_v13 main_v17
  let main_v19 : FVec F S2x512x512 .f32 := Host.absf main_arg7
  let main_cst_6 : FVec F S_ .f32 := constant S_ .f32 0x7F800000#32
  let main_v20 : FVec F S2x512x512 .f32 := broadcastInDim S2x512x512 ![] bcast_S_S2x512x512 main_cst_6
  let main_v21 : IVec S2x512x512 1 := cmpf .olt main_v19 main_v20
  let main_c_7 : IVec S_ 1 := constantI S_ 1 1#1
  let main_v22 : IVec S_ 1 := (fun x v => Host.reduce IntOp.andi x v reducesTo_S2x512x512_S_d0_1_2 h_S_) main_v21 main_c_7
  let main_v23 : IVec S_ 1 := andi main_v18 main_v22
  let main_v24 : FVec F S2x512x512 .f32 := Host.absf main_arg8
  let main_cst_8 : FVec F S_ .f32 := constant S_ .f32 0x7F800000#32
  let main_v25 : FVec F S2x512x512 .f32 := broadcastInDim S2x512x512 ![] bcast_S_S2x512x512 main_cst_8
  let main_v26 : IVec S2x512x512 1 := cmpf .olt main_v24 main_v25
  let main_c_9 : IVec S_ 1 := constantI S_ 1 1#1
  let main_v27 : IVec S_ 1 := (fun x v => Host.reduce IntOp.andi x v reducesTo_S2x512x512_S_d0_1_2 h_S_) main_v26 main_c_9
  let main_v28 : IVec S_ 1 := andi main_v23 main_v27
  let main_v29 : FVec F S2x512x512 .f32 := Host.absf main_arg9
  let main_cst_10 : FVec F S_ .f32 := constant S_ .f32 0x7F800000#32
  let main_v30 : FVec F S2x512x512 .f32 := broadcastInDim S2x512x512 ![] bcast_S_S2x512x512 main_cst_10
  let main_v31 : IVec S2x512x512 1 := cmpf .olt main_v29 main_v30
  let main_c_11 : IVec S_ 1 := constantI S_ 1 1#1
  let main_v32 : IVec S_ 1 := (fun x v => Host.reduce IntOp.andi x v reducesTo_S2x512x512_S_d0_1_2 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S20000x512 .f32) (main_arg1 : IVec S160000 32) (main_arg2 : IVec S160000 32) (main_arg3 : IVec S160000 32) (main_arg4 : FVec F S128x64 .f32) (main_arg5 : FVec F S2x512x512 .f32) (main_arg6 : FVec F S2x512 .f32) (main_arg7 : FVec F S2x512x512 .f32) (main_arg8 : FVec F S2x512x512 .f32) (main_arg9 : FVec F S2x512x512 .f32) (main_arg10 : FVec F S2x512 .f32) (main_arg11 : FVec F S2x512 .f32) (main_arg12 : FVec F S2x512 .f32) (main_arg13 : FVec F S2x512x2048 .f32) (main_arg14 : FVec F S2x2048 .f32) (main_arg15 : FVec F S2x2048x512 .f32) (main_arg16 : FVec F S2x512 .f32) (main_arg17 : FVec F S2x512 .f32) (main_arg18 : FVec F S2x512 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S2x512x512 .f32 := Host.absf main_arg5
  let main_cst_2 : FVec F S_ .f32 := constant S_ .f32 0x7F800000#32
  let main_v10 : FVec F S2x512x512 .f32 := broadcastInDim S2x512x512 ![] bcast_S_S2x512x512 main_cst_2
  let main_v11 : IVec S2x512x512 1 := cmpf .olt main_v9 main_v10
  let main_c_3 : IVec S_ 1 := constantI S_ 1 1#1
  let main_v12 : IVec S_ 1 := (fun x v => Host.reduce IntOp.andi x v reducesTo_S2x512x512_S_d0_1_2 h_S_) main_v11 main_c_3
  let main_v13 : IVec S_ 1 := andi main_v8 main_v12
  let main_v14 : FVec F S2x512 .f32 := Host.absf main_arg6
  let main_cst_4 : FVec F S_ .f32 := constant S_ .f32 0x7F800000#32
  let main_v15 : FVec F S2x512 .f32 := broadcastInDim S2x512 ![] bcast_S_S2x512 main_cst_4
  let main_v16 : IVec S2x512 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S20000x512 : Shape := ⟨2, ![20000, 512]⟩
abbrev S160000 : Shape := ⟨1, ![160000]⟩
abbrev S128x64 : Shape := ⟨2, ![128, 64]⟩
abbrev S2x512x512 : Shape := ⟨3, ![2, 512, 512]⟩
abbrev S2x512 : Shape := ⟨2, ![2, 512]⟩
abbrev S2x512x2048 : Shape := ⟨3, ![2, 512, 2048]⟩
abbrev S2x2048 : Shape := ⟨2, ![2, 2048]⟩
abbrev S2x2048x512 : Shape := ⟨3, ![2, 2048, 512]⟩
abbrev S1x512x512 : Shape := ⟨3, ![1, 512, 512]⟩
abbrev S512x512 : Shape := ⟨2, ![512, 512]⟩
abbrev S512x1536 : Shape := ⟨2, ![512, 1536]⟩
abbrev S1x512 : Shape := ⟨2, ![1, 512]⟩
abbrev S512 : Shape := ⟨1, ![512]⟩
abbrev S_ : Shape := ⟨0, ![]⟩
abbrev S1536 : Shape := ⟨1, ![1536]⟩
abbrev S1x1536 : Shape := ⟨2, ![1, 1536]⟩
abbrev S20000x1536 : Shape := ⟨2, ![20000, 1536]⟩
abbrev S800x512 : Shape := ⟨2, ![800, 512]⟩
abbrev S800x1536 : Shape := ⟨2, ![800, 1536]⟩
abbrev S20000x8x64 : Shape := ⟨3, ![20000, 8, 64]⟩
abbrev S160000x1 : Shape := ⟨2, ![160000, 1]⟩
abbrev S160000x64 : Shape := ⟨2, ![160000, 64]⟩
abbrev S160000x1x64 : Shape := ⟨3, ![160000, 1, 64]⟩
abbrev S160000x8x64 : Shape := ⟨3, ![160000, 8, 64]⟩
abbrev S160000x8 : Shape := ⟨2, ![160000, 8]⟩
abbrev S160000x8x1 : Shape := ⟨3, ![160000, 8, 1]⟩
abbrev S20000x8 : Shape := ⟨2, ![20000, 8]⟩
abbrev S20000x8x1 : Shape := ⟨3, ![20000, 8, 1]⟩
abbrev S20000 : Shape := ⟨1, ![20000]⟩
abbrev S20000x1 : Shape := ⟨2, ![20000, 1]⟩
abbrev S1x512x2048 : Shape := ⟨3, ![1, 512, 2048]⟩
abbrev S512x2048 : Shape := ⟨2, ![512, 2048]⟩
abbrev S1x2048 : Shape := ⟨2, ![1, 2048]⟩
abbrev S2048 : Shape := ⟨1, ![2048]⟩
abbrev S20000x2048 : Shape := ⟨2, ![20000, 2048]⟩
abbrev S800x2048 : Shape := ⟨2, ![800, 2048]⟩
abbrev S1x2048x512 : Shape := ⟨3, ![1, 2048, 512]⟩
abbrev S2048x512 : Shape := ⟨2, ![2048, 512]⟩

abbrev nBuf : Space → Nat
  | .hbm => 391
  | .vmem => 48
  | .smem => 0
  | _ => 0

abbrev hbmTy0_0 (i : Nat) : BufTy := match i % 128 with
  | 0 => ⟨S20000x512, .f32⟩
  | 1 => ⟨S160000, .i32⟩
  | 2 => ⟨S160000, .i32⟩
  | 3 => ⟨S160000, .i32⟩
  | 4 => ⟨S128x64, .f32⟩
  | 5 => ⟨S2x512x512, .f32⟩
  | 6 => ⟨S2x512, .f32⟩
  | 7 => ⟨S2x512x512, .f32⟩
  | 8 => ⟨S2x512x512, .f32⟩
  | 9 => ⟨S2x512x512, .f32⟩
  | 10 => ⟨S2x512, .f32⟩
  | 11 => ⟨S2x512, .f32⟩
  | 12 => ⟨S2x512, .f32⟩
  | 13 => ⟨S2x512x2048, .f32⟩
  | 14 => ⟨S2x2048, .f32⟩
  | 15 => ⟨S2x2048x512, .f32⟩
  | 16 => ⟨S2x512, .f32⟩
  | 17 => ⟨S2x512, .f32⟩
  | 18 => ⟨S2x512, .f32⟩
  | 19 => ⟨S1x512x512, .f32⟩
  | 20 => ⟨S512x512, .f32⟩
  | 21 => ⟨S1x512x512, .f32⟩
  | 22 => ⟨S512x512, .f32⟩
  | 23 => ⟨S1x512x512, .f32⟩
  | 24 => ⟨S512x512, .f32⟩
  | 25 => ⟨S512x1536, .f32⟩
  | 26 => ⟨S512x1536, .bf16⟩
  | 27 => ⟨S1x512, .f32⟩
  | 28 => ⟨S512, .f32⟩
  | 29 => ⟨S_, .f32⟩
  | 30 => ⟨S512, .f32⟩
  | 31 => ⟨S_, .f32⟩
  | 32 => ⟨S512, .f32⟩
  | 33 => ⟨S1536, .f32⟩
  | 34 => ⟨S20000x512, .bf16⟩
  | 35 => ⟨S1x1536, .f32⟩
  | 36 => ⟨S20000x1536, .f32⟩
  | 37 => ⟨S20000x512, .f32⟩
  | 38 => ⟨S20000x8x64, .f32⟩
  | 39 => ⟨S20000x512, .f32⟩
  | 40 => ⟨S20000x8x64, .f32⟩
  | 41 => ⟨S20000x512, .f32⟩
  | 42 => ⟨S20000x8x64, .f32⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S160000x64, .f32⟩
  | 52 => ⟨S160000x1x64, .f32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S160000x1, .i32⟩
  | 61 => ⟨S160000x8x64, .f32⟩
  | 62 => ⟨S160000x8x64, .f32⟩
  | 63 => ⟨S160000x8x64, .f32⟩
  | 64 => ⟨S_, .i32⟩
  | 65 => ⟨S160000, .i32⟩
  | 66 => ⟨S160000, .i1⟩
  | 67 => ⟨S_, .i32⟩
  | 68 => ⟨S160000, .i32⟩
  | 69 => ⟨S160000, .i32⟩
  | 70 => ⟨S160000, .i32⟩
  | 71 => ⟨S160000x1, .i32⟩
  | 72 => ⟨S160000x8x64, .f32⟩
  | 73 => ⟨S160000x8x64, .f32⟩
  | 74 => ⟨S_, .f32⟩
  | 75 => ⟨S160000x8, .f32⟩
  | 76 => ⟨S_, .f32⟩
  | 77 => ⟨S160000x8, .f32⟩
  | 78 => ⟨S160000x8, .f32⟩
  | 79 => ⟨S_, .f32⟩
  | 80 => ⟨S_, .f32⟩
  | 81 => ⟨S_, .f32⟩
  | 82 => ⟨S160000x8, .f32⟩
  | 83 => ⟨S160000x8, .f32⟩
  | 84 => ⟨S_, .f32⟩
  | 85 => ⟨S160000x8, .f32⟩
  | 86 => ⟨S160000x8, .f32⟩
  | 87 => ⟨S160000x8, .f32⟩
  | 88 => ⟨S_, .i32⟩
  | 89 => ⟨S160000, .i32⟩
  | 90 => ⟨S160000, .i1⟩
  | 91 => ⟨S_, .i32⟩
  | 92 => ⟨S160000, .i32⟩
  | 93 => ⟨S160000, .i32⟩
  | 94 => ⟨S160000, .i32⟩
  | 95 => ⟨S160000x1, .i32⟩
  | 96 => ⟨S160000x8x64, .f32⟩
  | 97 => ⟨S160000x8x64, .f32⟩
  | 98 => ⟨S160000x8x64, .f32⟩
  | 99 => ⟨S160000x8x1, .f32⟩
  | 100 => ⟨S160000x8x64, .f32⟩
  | 101 => ⟨S160000x8x64, .f32⟩
  | 102 => ⟨S_, .f32⟩
  | 103 => ⟨S20000x8x64, .f32⟩
  | 104 => ⟨S160000x1, .i32⟩
  | 105 => ⟨S20000x8x64, .f32⟩
  | 106 => ⟨S_, .f32⟩
  | 107 => ⟨S20000x8, .f32⟩
  | 108 => ⟨S160000x1, .i32⟩
  | 109 => ⟨S20000x8, .f32⟩
  | 110 => ⟨S20000x8x1, .f32⟩
  | 111 => ⟨S20000x8x64, .f32⟩
  | 112 => ⟨S20000x8x64, .f32⟩
  | 113 => ⟨S20000x512, .f32⟩
  | 114 => ⟨S20000x512, .bf16⟩
  | 115 => ⟨S1x512x512, .f32⟩
  | 116 => ⟨S512x512, .f32⟩
  | 117 => ⟨S512x512, .bf16⟩
  | 118 => ⟨S1x512, .f32⟩
  | 119 => ⟨S512, .f32⟩
  | 120 => ⟨S1x512, .f32⟩
  | 121 => ⟨S20000x512, .f32⟩
  | 122 => ⟨S20000x512, .f32⟩
  | 123 => ⟨S1x512, .f32⟩
  | 124 => ⟨S512, .f32⟩
  | 125 => ⟨S1x512, .f32⟩
  | 126 => ⟨S512, .f32⟩
  | 127 => ⟨S_, .f32⟩
  | _ => ⟨S20000x512, .f32⟩

abbrev hbmTy0_1 (i : Nat) : BufTy := match i % 128 with
  | 0 => ⟨S20000, .f32⟩
  | 1 => ⟨S20000x1, .f32⟩
  | 2 => ⟨S_, .f32⟩
  | 3 => ⟨S20000x1, .f32⟩
  | 4 => ⟨S20000x1, .f32⟩
  | 5 => ⟨S20000x512, .f32⟩
  | 6 => ⟨S20000x512, .f32⟩
  | 7 => ⟨S20000x512, .f32⟩
  | 8 => ⟨S_, .f32⟩
  | 9 => ⟨S20000, .f32⟩
  | 10 => ⟨S20000x1, .f32⟩
  | 11 => ⟨S_, .f32⟩
  | 12 => ⟨S20000x1, .f32⟩
  | 13 => ⟨S20000x1, .f32⟩
  | 14 => ⟨S20000x512, .f32⟩
  | 15 => ⟨S20000x512, .f32⟩
  | 16 => ⟨S_, .f32⟩
  | 17 => ⟨S20000x1, .f32⟩
  | 18 => ⟨S20000x1, .f32⟩
  | 19 => ⟨S20000x1, .f32⟩
  | 20 => ⟨S20000x512, .f32⟩
  | 21 => ⟨S20000x512, .f32⟩
  | 22 => ⟨S1x512, .f32⟩
  | 23 => ⟨S20000x512, .f32⟩
  | 24 => ⟨S20000x512, .f32⟩
  | 25 => ⟨S1x512, .f32⟩
  | 26 => ⟨S20000x512, .f32⟩
  | 27 => ⟨S20000x512, .f32⟩
  | 28 => ⟨S20000x512, .bf16⟩
  | 29 => ⟨S1x512x2048, .f32⟩
  | 30 => ⟨S512x2048, .f32⟩
  | 31 => ⟨S512x2048, .bf16⟩
  | 32 => ⟨S1x2048, .f32⟩
  | 33 => ⟨S2048, .f32⟩
  | 34 => ⟨S1x2048, .f32⟩
  | 35 => ⟨S20000x2048, .bf16⟩
  | 36 => ⟨S1x2048x512, .f32⟩
  | 37 => ⟨S2048x512, .f32⟩
  | 38 => ⟨S2048x512, .bf16⟩
  | 39 => ⟨S1x512, .f32⟩
  | 40 => ⟨S512, .f32⟩
  | 41 => ⟨S1x512, .f32⟩
  | 42 => ⟨S20000x512, .f32⟩
  | 43 => ⟨S20000x512, .f32⟩
  | 44 => ⟨S1x512, .f32⟩
  | 45 => ⟨S512, .f32⟩
  | 46 => ⟨S1x512, .f32⟩
  | 47 => ⟨S512, .f32⟩
  | 48 => ⟨S_, .f32⟩
  | 49 => ⟨S20000, .f32⟩
  | 50 => ⟨S20000x1, .f32⟩
  | 51 => ⟨S_, .f32⟩
  | 52 => ⟨S20000x1, .f32⟩
  | 53 => ⟨S20000x1, .f32⟩
  | 54 => ⟨S20000x512, .f32⟩
  | 55 => ⟨S20000x512, .f32⟩
  | 56 => ⟨S20000x512, .f32⟩
  | 57 => ⟨S_, .f32⟩
  | 58 => ⟨S20000, .f32⟩
  | 59 => ⟨S20000x1, .f32⟩
  | 60 => ⟨S_, .f32⟩
  | 61 => ⟨S20000x1, .f32⟩
  | 62 => ⟨S20000x1, .f32⟩
  | 63 => ⟨S20000x512, .f32⟩
  | 64 => ⟨S20000x512, .f32⟩
  | 65 => ⟨S_, .f32⟩
  | 66 => ⟨S20000x1, .f32⟩
  | 67 => ⟨S20000x1, .f32⟩
  | 68 => ⟨S20000x1, .f32⟩
  | 69 => ⟨S20000x512, .f32⟩
  | 70 => ⟨S20000x512, .f32⟩
  | 71 => ⟨S1x512, .f32⟩
  | 72 => ⟨S20000x512, .f32⟩
  | 73 => ⟨S20000x512, .f32⟩
  | 74 => ⟨S1x512, .f32⟩
  | 75 => ⟨S20000x512, .f32⟩
  | 76 => ⟨S20000x512, .f32⟩
  | 77 => ⟨S1x512x512, .f32⟩
  | 78 => ⟨S512x512, .f32⟩
  | 79 => ⟨S1x512x512, .f32⟩
  | 80 => ⟨S512x512, .f32⟩
  | 81 => ⟨S1x512x512, .f32⟩
  | 82 => ⟨S512x512, .f32⟩
  | 83 => ⟨S512x1536, .f32⟩
  | 84 => ⟨S512x1536, .bf16⟩
  | 85 => ⟨S1x512, .f32⟩
  | 86 => ⟨S512, .f32⟩
  | 87 => ⟨S_, .f32⟩
  | 88 => ⟨S512, .f32⟩
  | 89 => ⟨S_, .f32⟩
  | 90 => ⟨S512, .f32⟩
  | 91 => ⟨S1536, .f32⟩
  | 92 => ⟨S20000x512, .bf16⟩
  | 93 => ⟨S1x1536, .f32⟩
  | 94 => ⟨S20000x1536, .f32⟩
  | 95 => ⟨S20000x512, .f32⟩
  | 96 => ⟨S20000x8x64, .f32⟩
  | 97 => ⟨S20000x512, .f32⟩
  | 98 => ⟨S20000x8x64, .f32⟩
  | 99 => ⟨S20000x512, .f32⟩
  | 100 => ⟨S20000x8x64, .f32⟩
  | 101 => ⟨S_, .i32⟩
  | 102 => ⟨S160000, .i32⟩
  | 103 => ⟨S160000, .i1⟩
  | 104 => ⟨S_, .i32⟩
  | 105 => ⟨S160000, .i32⟩
  | 106 => ⟨S160000, .i32⟩
  | 107 => ⟨S160000, .i32⟩
  | 108 => ⟨S160000x1, .i32⟩
  | 109 => ⟨S160000x64, .f32⟩
  | 110 => ⟨S160000x1x64, .f32⟩
  | 111 => ⟨S_, .i32⟩
  | 112 => ⟨S160000, .i32⟩
  | 113 => ⟨S160000, .i1⟩
  | 114 => ⟨S_, .i32⟩
  | 115 => ⟨S160000, .i32⟩
  | 116 => ⟨S160000, .i32⟩
  | 117 => ⟨S160000, .i32⟩
  | 118 => ⟨S160000x1, .i32⟩
  | 119 => ⟨S160000x8x64, .f32⟩
  | 120 => ⟨S160000x8x64, .f32⟩
  | 121 => ⟨S160000x8x64, .f32⟩
  | 122 => ⟨S_, .i32⟩
  | 123 => ⟨S160000, .i32⟩
  | 124 => ⟨S160000, .i1⟩
  | 125 => ⟨S_, .i32⟩
  | 126 => ⟨S160000, .i32⟩
  | 127 => ⟨S160000, .i32⟩
  | _ => ⟨S20000x512, .f32⟩

abbrev hbmTy0_2 (i : Nat) : BufTy := match i % 128 with
  | 0 => ⟨S160000, .i32⟩
  | 1 => ⟨S160000x1, .i32⟩
  | 2 => ⟨S160000x8x64, .f32⟩
  | 3 => ⟨S160000x8x64, .f32⟩
  | 4 => ⟨S_, .f32⟩
  | 5 => ⟨S160000x8, .f32⟩
  | 6 => ⟨S_, .f32⟩
  | 7 => ⟨S160000x8, .f32⟩
  | 8 => ⟨S160000x8, .f32⟩
  | 9 => ⟨S_, .f32⟩
  | 10 => ⟨S_, .f32⟩
  | 11 => ⟨S_, .f32⟩
  | 12 => ⟨S160000x8, .f32⟩
  | 13 => ⟨S160000x8, .f32⟩
  | 14 => ⟨S_, .f32⟩
  | 15 => ⟨S160000x8, .f32⟩
  | 16 => ⟨S160000x8, .f32⟩
  | 17 => ⟨S160000x8, .f32⟩
  | 18 => ⟨S_, .i32⟩
  | 19 => ⟨S160000, .i32⟩
  | 20 => ⟨S160000, .i1⟩
  | 21 => ⟨S_, .i32⟩
  | 22 => ⟨S160000, .i32⟩
  | 23 => ⟨S160000, .i32⟩
  | 24 => ⟨S160000, .i32⟩
  | 25 => ⟨S160000x1, .i32⟩
  | 26 => ⟨S160000x8x64, .f32⟩
  | 27 => ⟨S160000x8x64, .f32⟩
  | 28 => ⟨S160000x8x64, .f32⟩
  | 29 => ⟨S160000x8x1, .f32⟩
  | 30 => ⟨S160000x8x64, .f32⟩
  | 31 => ⟨S160000x8x64, .f32⟩
  | 32 => ⟨S_, .f32⟩
  | 33 => ⟨S20000x8x64, .f32⟩
  | 34 => ⟨S160000x1, .i32⟩
  | 35 => ⟨S20000x8x64, .f32⟩
  | 36 => ⟨S_, .f32⟩
  | 37 => ⟨S20000x8, .f32⟩
  | 38 => ⟨S160000x1, .i32⟩
  | 39 => ⟨S20000x8, .f32⟩
  | 40 => ⟨S20000x8x1, .f32⟩
  | 41 => ⟨S20000x8x64, .f32⟩
  | 42 => ⟨S20000x8x64, .f32⟩
  | 43 => ⟨S20000x512, .f32⟩
  | 44 => ⟨S20000x512, .bf16⟩
  | 45 => ⟨S1x512x512, .f32⟩
  | 46 => ⟨S512x512, .f32⟩
  | 47 => ⟨S512x512, .bf16⟩
  | 48 => ⟨S1x512, .f32⟩
  | 49 => ⟨S512, .f32⟩
  | 50 => ⟨S1x512, .f32⟩
  | 51 => ⟨S20000x512, .f32⟩
  | 52 => ⟨S20000x512, .f32⟩
  | 53 => ⟨S1x512, .f32⟩
  | 54 => ⟨S512, .f32⟩
  | 55 => ⟨S1x512, .f32⟩
  | 56 => ⟨S512, .f32⟩
  | 57 => ⟨S_, .f32⟩
  | 58 => ⟨S20000, .f32⟩
  | 59 => ⟨S20000x1, .f32⟩
  | 60 => ⟨S_, .f32⟩
  | 61 => ⟨S20000x1, .f32⟩
  | 62 => ⟨S20000x1, .f32⟩
  | 63 => ⟨S20000x512, .f32⟩
  | 64 => ⟨S20000x512, .f32⟩
  | 65 => ⟨S20000x512, .f32⟩
  | 66 => ⟨S_, .f32⟩
  | 67 => ⟨S20000, .f32⟩
  | 68 => ⟨S20000x1, .f32⟩
  | 69 => ⟨S_, .f32⟩
  | 70 => ⟨S20000x1, .f32⟩
  | 71 => ⟨S20000x1, .f32⟩
  | 72 => ⟨S20000x512, .f32⟩
  | 73 => ⟨S20000x512, .f32⟩
  | 74 => ⟨S_, .f32⟩
  | 75 => ⟨S20000x1, .f32⟩
  | 76 => ⟨S20000x1, .f32⟩
  | 77 => ⟨S20000x1, .f32⟩
  | 78 => ⟨S20000x512, .f32⟩
  | 79 => ⟨S20000x512, .f32⟩
  | 80 => ⟨S1x512, .f32⟩
  | 81 => ⟨S20000x512, .f32⟩
  | 82 => ⟨S20000x512, .f32⟩
  | 83 => ⟨S1x512, .f32⟩
  | 84 => ⟨S20000x512, .f32⟩
  | 85 => ⟨S20000x512, .f32⟩
  | 86 => ⟨S20000x512, .bf16⟩
  | 87 => ⟨S1x512x2048, .f32⟩
  | 88 => ⟨S512x2048, .f32⟩
  | 89 => ⟨S512x2048, .bf16⟩
  | 90 => ⟨S1x2048, .f32⟩
  | 91 => ⟨S2048, .f32⟩
  | 92 => ⟨S1x2048, .f32⟩
  | 93 => ⟨S20000x2048, .bf16⟩
  | 94 => ⟨S1x2048x512, .f32⟩
  | 95 => ⟨S2048x512, .f32⟩
  | 96 => ⟨S2048x512, .bf16⟩
  | 97 => ⟨S1x512, .f32⟩
  | 98 => ⟨S512, .f32⟩
  | 99 => ⟨S1x512, .f32⟩
  | 100 => ⟨S20000x512, .f32⟩
  | 101 => ⟨S20000x512, .f32⟩
  | 102 => ⟨S1x512, .f32⟩
  | 103 => ⟨S512, .f32⟩
  | 104 => ⟨S1x512, .f32⟩
  | 105 => ⟨S512, .f32⟩
  | 106 => ⟨S_, .f32⟩
  | 107 => ⟨S20000, .f32⟩
  | 108 => ⟨S20000x1, .f32⟩
  | 109 => ⟨S_, .f32⟩
  | 110 => ⟨S20000x1, .f32⟩
  | 111 => ⟨S20000x1, .f32⟩
  | 112 => ⟨S20000x512, .f32⟩
  | 113 => ⟨S20000x512, .f32⟩
  | 114 => ⟨S20000x512, .f32⟩
  | 115 => ⟨S_, .f32⟩
  | 116 => ⟨S20000, .f32⟩
  | 117 => ⟨S20000x1, .f32⟩
  | 118 => ⟨S_, .f32⟩
  | 119 => ⟨S20000x1, .f32⟩
  | 120 => ⟨S20000x1, .f32⟩
  | 121 => ⟨S20000x512, .f32⟩
  | 122 => ⟨S20000x512, .f32⟩
  | 123 => ⟨S_, .f32⟩
  | 124 => ⟨S20000x1, .f32⟩
  | 125 => ⟨S20000x1, .f32⟩
  | 126 => ⟨S20000x1, .f32⟩
  | 127 => ⟨S20000x512, .f32⟩
  | _ => ⟨S20000x512, .f32⟩

abbrev hbmTy0_3 (i : Nat) : BufTy := match i % 128 with
  | 0 => ⟨S20000x512, .f32⟩
  | 1 => ⟨S1x512, .f32⟩
  | 2 => ⟨S20000x512, .f32⟩
  | 3 => ⟨S20000x512, .f32⟩
  | 4 => ⟨S1x512, .f32⟩
  | 5 => ⟨S20000x512, .f32⟩
  | 6 => ⟨S20000x512, .f32⟩
  | _ => ⟨S20000x512, .f32⟩

abbrev hbmTy (i : Nat) : BufTy := match i / 128 with
  | 0 => hbmTy0_0 i
  | 1 => hbmTy0_1 i
  | 2 => hbmTy0_2 i
  | 3 => hbmTy0_3 i
  | _ => ⟨S20000x512, .f32⟩

abbrev bufTy : (tb : Table) → Fin (tcTables nBuf tb) → BufTy
  | .hbm, ⟨i, _⟩ => hbmTy i
  | .local _ .vmem, ⟨0, _⟩ => ⟨S800x512, .bf16⟩
  | .local _ .vmem, ⟨1, _⟩ => ⟨S800x512, .bf16⟩
  | .local _ .vmem, ⟨2, _⟩ => ⟨S512x1536, .bf16⟩
  | .local _ .vmem, ⟨3, _⟩ => ⟨S1x1536, .f32⟩
  | .local _ .vmem, ⟨4, _⟩ => ⟨S800x1536, .f32⟩
  | .local _ .vmem, ⟨5, _⟩ => ⟨S800x1536, .f32⟩
  | .local _ .vmem, ⟨6, _⟩ => ⟨S800x512, .bf16⟩
  | .local _ .vmem, ⟨7, _⟩ => ⟨S800x512, .bf16⟩
  | .local _ .vmem, ⟨8, _⟩ => ⟨S512x512, .bf16⟩
  | .local _ .vmem, ⟨9, _⟩ => ⟨S1x512, .f32⟩
  | .local _ .vmem, ⟨10, _⟩ => ⟨S800x512, .f32⟩
  | .local _ .vmem, ⟨11, _⟩ => ⟨S800x512, .f32⟩
  | .local _ .vmem, ⟨12, _⟩ => ⟨S800x512, .bf16⟩
  | .local _ .vmem, ⟨13, _⟩ => ⟨S800x512, .bf16⟩
  | .local _ .vmem, ⟨14, _⟩ => ⟨S512x2048, .bf16⟩
  | .local _ .vmem, ⟨15, _⟩ => ⟨S1x2048, .f32⟩
  | .local _ .vmem, ⟨16, _⟩ => ⟨S800x2048, .bf16⟩
  | .local _ .vmem, ⟨17, _⟩ => ⟨S800x2048, .bf16⟩
  | .local _ .vmem, ⟨18, _⟩ => ⟨S800x2048, .bf16⟩
  | .local _ .vmem, ⟨19, _⟩ => ⟨S800x2048, .bf16⟩
  | .local _ .vmem, ⟨20, _⟩ => ⟨S2048x512, .bf16⟩
  | .local _ .vmem, ⟨21, _⟩ => ⟨S1x512, .f32⟩
  | .local _ .vmem, ⟨22, _⟩ => ⟨S800x512, .f32⟩
  | .local _ .vmem, ⟨23, _⟩ => ⟨S800x512, .f32⟩
  | .local _ .vmem, ⟨24, _⟩ => ⟨S800x512, .bf16⟩
  | .local _ .vmem, ⟨25, _⟩ => ⟨S800x512, .bf16⟩
  | .local _ .vmem, ⟨26, _⟩ => ⟨S512x1536, .bf16⟩
  | .local _ .vmem, ⟨27, _⟩ => ⟨S1x1536, .f32⟩
  | .local _ .vmem, ⟨28, _⟩ => ⟨S800x1536, .f32⟩
  | .local _ .vmem, ⟨29, _⟩ => ⟨S800x1536, .f32⟩
  | .local _ .vmem, ⟨30, _⟩ => ⟨S800x512, .bf16⟩
  | .local _ .vmem, ⟨31, _⟩ => ⟨S800x512, .bf16⟩
  | .local _ .vmem, ⟨32, _⟩ => ⟨S512x512, .bf16⟩
  | .local _ .vmem, ⟨33, _⟩ => ⟨S1x512, .f32⟩
  | .local _ .vmem, ⟨34, _⟩ => ⟨S800x512, .f32⟩
  | .local _ .vmem, ⟨35, _⟩ => ⟨S800x512, .f32⟩
  | .local _ .vmem, ⟨36, _⟩ => ⟨S800x512, .bf16⟩
  | .local _ .vmem, ⟨37, _⟩ => ⟨S800x512, .bf16⟩
  | .local _ .vmem, ⟨38, _⟩ => ⟨S512x2048, .bf16⟩
  | .local _ .vmem, ⟨39, _⟩ => ⟨S1x2048, .f32⟩
  | .local _ .vmem, ⟨40, _⟩ => ⟨S800x2048, .bf16⟩
  | .local _ .vmem, ⟨41, _⟩ => ⟨S800x2048, .bf16⟩
  | .local _ .vmem, ⟨42, _⟩ => ⟨S800x2048, .bf16⟩
  | .local _ .vmem, ⟨43, _⟩ => ⟨S800x2048, .bf16⟩
  | .local _ .vmem, ⟨44, _⟩ => ⟨S2048x512, .bf16⟩
  | .local _ .vmem, ⟨45, _⟩ => ⟨S1x512, .f32⟩
  | .local _ .vmem, ⟨46, _⟩ => ⟨S800x512, .f32⟩
  | .local _ .vmem, ⟨47, _⟩ => ⟨S800x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_2 : Ref sig .tc := ⟨.hbm, 53, rfl⟩
abbrev main_v30 : Ref sig .tc := ⟨.hbm, 54, rfl⟩
abbrev main_v31 : Ref sig .tc := ⟨.hbm, 55, rfl⟩
abbrev main_c_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_4 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_cst_9 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_v50 : Ref sig .tc := ⟨.hbm, 86, rfl⟩
abbrev main_v51 : Ref sig .tc := ⟨.hbm, 87, rfl⟩
abbrev main_c_10 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_12 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_13 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_14 : Ref sig .tc := ⟨.hbm, 127, rfl⟩
abbrev main_v87 : Ref sig .tc := ⟨.hbm, 128, rfl⟩
abbrev main_v88 : Ref sig .tc := ⟨.hbm, 129, rfl⟩
abbrev main_cst_15 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_16 : Ref sig .tc := ⟨.hbm, 136, rfl⟩
abbrev main_v94 : Ref sig .tc := ⟨.hbm, 137, rfl⟩
abbrev main_v95 : Ref sig .tc := ⟨.hbm, 138, rfl⟩
abbrev main_cst_17 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_18 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_19 : Ref sig .tc := ⟨.hbm, 176, rfl⟩
abbrev main_v131 : Ref sig .tc := ⟨.hbm, 177, rfl⟩
abbrev main_v132 : Ref sig .tc := ⟨.hbm, 178, rfl⟩
abbrev main_cst_20 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_21 : Ref sig .tc := ⟨.hbm, 185, rfl⟩
abbrev main_v138 : Ref sig .tc := ⟨.hbm, 186, rfl⟩
abbrev main_v139 : Ref sig .tc := ⟨.hbm, 187, rfl⟩
abbrev main_cst_22 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_23 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_24 : Ref sig .tc := ⟨.hbm, 215, rfl⟩
abbrev main_v165 : Ref sig .tc := ⟨.hbm, 216, rfl⟩
abbrev main_cst_25 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_c_26 : Ref sig .tc := ⟨.hbm, 229, rfl⟩
abbrev main_v177 : Ref sig .tc := ⟨.hbm, 230, rfl⟩
abbrev main_v178 : Ref sig .tc := ⟨.hbm, 231, rfl⟩
abbrev main_c_27 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_c_28 : Ref sig .tc := ⟨.hbm, 239, rfl⟩
abbrev main_v185 : Ref sig .tc := ⟨.hbm, 240, rfl⟩
abbrev main_v186 : Ref sig .tc := ⟨.hbm, 241, rfl⟩
abbrev main_c_29 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_c_30 : Ref sig .tc := ⟨.hbm, 250, rfl⟩
abbrev main_v194 : Ref sig .tc := ⟨.hbm, 251, rfl⟩
abbrev main_v195 : Ref sig .tc := ⟨.hbm, 252, rfl⟩
abbrev main_c_31 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_cst_32 : Ref sig .tc := ⟨.hbm, 260, rfl⟩
abbrev main_v202 : Ref sig .tc := ⟨.hbm, 261, rfl⟩
abbrev main_cst_33 : Ref sig .tc := ⟨.hbm, 262, rfl⟩
abbrev main_v203 : Ref sig .tc := ⟨.hbm, 263, rfl⟩
abbrev main_v204 : Ref sig .tc := ⟨.hbm, 264, rfl⟩
abbrev main_cst_34 : Ref sig .tc := ⟨.hbm, 265, rfl⟩
abbrev main_cst_35 : Ref sig .tc := ⟨.hbm, 266, rfl⟩
abbrev main_call1_v0 : Ref sig .tc := ⟨.hbm, 267, rfl⟩
abbrev main_call1_v1 : Ref sig .tc := ⟨.hbm, 268, rfl⟩
abbrev main_call1_v2 : Ref sig .tc := ⟨.hbm, 269, rfl⟩
abbrev main_call1_v3 : Ref sig .tc := ⟨.hbm, 270, rfl⟩
abbrev main_call1_v4 : Ref sig .tc := ⟨.hbm, 271, rfl⟩
abbrev main_v205 : Ref sig .tc := ⟨.hbm, 272, rfl⟩
abbrev main_v206 : Ref sig .tc := ⟨.hbm, 273, rfl⟩
abbrev main_c_36 : Ref sig .tc := ⟨.hbm, 274, rfl⟩
abbrev main_v207 : Ref sig .tc := ⟨.hbm, 275, rfl⟩
abbrev main_v208 : Ref sig .tc := ⟨.hbm, 276, rfl⟩
abbrev main_c_37 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_cst_38 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_cst_39 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_cst_40 : Ref sig .tc := ⟨.hbm, 313, rfl⟩
abbrev main_v242 : Ref sig .tc := ⟨.hbm, 314, rfl⟩
abbrev main_v243 : Ref sig .tc := ⟨.hbm, 315, rfl⟩
abbrev main_cst_41 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_cst_42 : Ref sig .tc := ⟨.hbm, 322, rfl⟩
abbrev main_v249 : Ref sig .tc := ⟨.hbm, 323, rfl⟩
abbrev main_v250 : Ref sig .tc := ⟨.hbm, 324, rfl⟩
abbrev main_cst_43 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_cst_44 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_cst_45 : Ref sig .tc := ⟨.hbm, 362, rfl⟩
abbrev main_v286 : Ref sig .tc := ⟨.hbm, 363, rfl⟩
abbrev main_v287 : Ref sig .tc := ⟨.hbm, 364, rfl⟩
abbrev main_cst_46 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_cst_47 : Ref sig .tc := ⟨.hbm, 371, rfl⟩
abbrev main_v293 : Ref sig .tc := ⟨.hbm, 372, rfl⟩
abbrev main_v294 : Ref sig .tc := ⟨.hbm, 373, rfl⟩
abbrev main_cst_48 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_cst_49 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S800x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S800x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S800x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S800x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S800x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S800x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S800x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x1536 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1536 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S800x1536 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S800x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S800x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S800x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2048 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S800x2048 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S800x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2048x512 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S800x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x512x512_S1x512x512_0_0_0 : S2x512x512.Slices ![0, 0, 0] S1x512x512
  shapeCasts_S1x512x512_S512x512 : S1x512x512.ShapeCasts S512x512
  concatenates_S512x512_S512x512_S512x512_S512x1536_d1 : Shape.Concatenates [S512x512, S512x512, S512x512] S512x1536 1
  bitsLt_bf16_f32 : FTy.bits .bf16 < FTy.bits .f32
  slices_S2x512_S1x512_0_0 : S2x512.Slices ![0, 0] S1x512
  shapeCasts_S1x512_S512 : S1x512.ShapeCasts S512
  bcast_S_S512 : S_.BroadcastsInDim S512 (![] : Fin 0 → Fin S512.rank)
  concatenates_S512_S512_S512_S1536_d0 : Shape.Concatenates [S512, S512, S512] S1536 0
  shapeCasts_S1536_S1x1536 : S1536.ShapeCasts S1x1536
  inb_S800x512_S800x512_0_0 : ∀ a, (![0, 0] : Fin 2 → Nat) a + S800x512.size a ≤ S800x512.size a
  h_S800x512 : 0 < S800x512.numel
  shapeCasts_S800x512_S800x512 : S800x512.ShapeCasts S800x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S800x1536 : S1x1536.Broadcasts S800x1536
  inb_S800x1536_S800x1536_0_0 : ∀ a, (![0, 0] : Fin 2 → Nat) a + S800x1536.size a ≤ S800x1536.size a
  h_S800x1536 : 0 < S800x1536.numel
  slices_S20000x1536_S20000x512_0_0 : S20000x1536.Slices ![0, 0] S20000x512
  shapeCasts_S20000x512_S20000x8x64 : S20000x512.ShapeCasts S20000x8x64
  slices_S20000x1536_S20000x512_0_512 : S20000x1536.Slices ![0, 512] S20000x512
  slices_S20000x1536_S20000x512_0_1024 : S20000x1536.Slices ![0, 1024] S20000x512
  bcast_S_S160000 : S_.BroadcastsInDim S160000 (![] : Fin 0 → Fin S160000.rank)
  bcast_S160000_S160000x1_0 : S160000.BroadcastsInDim S160000x1 (![0] : Fin 1 → Fin S160000x1.rank)
  bcast_S160000x64_S160000x1x64_0_2 : S160000x64.BroadcastsInDim S160000x1x64 (![0, 2] : Fin 2 → Fin S160000x1x64.rank)
  bcast_S160000x1x64_S160000x8x64_0_1_2 : S160000x1x64.BroadcastsInDim S160000x8x64 (![0, 1, 2] : Fin 3 → Fin S160000x8x64.rank)
  reducesTo_S160000x8x64_S160000x8_d2 : S160000x8x64.ReducesTo [2] S160000x8
  h_S_ : 0 < S_.numel
  bcast_S_S160000x8 : S_.BroadcastsInDim S160000x8 (![] : Fin 0 → Fin S160000x8.rank)
  bcast_S160000x8_S160000x8x1_0_1 : S160000x8.BroadcastsInDim S160000x8x1 (![0, 1] : Fin 2 → Fin S160000x8x1.rank)
  bcast_S160000x8x1_S160000x8x64_0_1_2 : S160000x8x1.BroadcastsInDim S160000x8x64 (![0, 1, 2] : Fin 3 → Fin S160000x8x64.rank)
  bcast_S_S20000x8x64 : S_.BroadcastsInDim S20000x8x64 (![] : Fin 0 → Fin S20000x8x64.rank)
  bcast_S_S20000x8 : S_.BroadcastsInDim S20000x8 (![] : Fin 0 → Fin S20000x8.rank)
  bcast_S20000x8_S20000x8x1_0_1 : S20000x8.BroadcastsInDim S20000x8x1 (![0, 1] : Fin 2 → Fin S20000x8x1.rank)
  bcast_S20000x8x1_S20000x8x64_0_1_2 : S20000x8x1.BroadcastsInDim S20000x8x64 (![0, 1, 2] : Fin 3 → Fin S20000x8x64.rank)
  shapeCasts_S20000x8x64_S20000x512 : S20000x8x64.ShapeCasts S20000x512
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S800x512 : S1x512.Broadcasts S800x512
  reducesTo_S20000x512_S20000_d1 : S20000x512.ReducesTo [1] S20000
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x512_0_1 : S20000x1.BroadcastsInDim S20000x512 (![0, 1] : Fin 2 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  slices_S2x512x2048_S1x512x2048_0_0_0 : S2x512x2048.Slices ![0, 0, 0] S1x512x2048
  shapeCasts_S1x512x2048_S512x2048 : S1x512x2048.ShapeCasts S512x2048
  slices_S2x2048_S1x2048_0_0 : S2x2048.Slices ![0, 0] S1x2048
  shapeCasts_S1x2048_S2048 : S1x2048.ShapeCasts S2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S800x2048 : S1x2048.Broadcasts S800x2048
  inb_S800x2048_S800x2048_0_0 : ∀ a, (![0, 0] : Fin 2 → Nat) a + S800x2048.size a ≤ S800x2048.size a
  h_S800x2048 : 0 < S800x2048.numel
  packedbf16_S800x2048_S800x2048_0_0 : (Rect.unit (s := S800x2048) ![0, 0] S800x2048.size inb_S800x2048_S800x2048_0_0).PackedRows (EltTy.packing .bf16)
  slices_S2x2048x512_S1x2048x512_0_0_0 : S2x2048x512.Slices ![0, 0, 0] S1x2048x512
  shapeCasts_S1x2048x512_S2048x512 : S1x2048x512.ShapeCasts S2048x512
  shapeCasts_S800x2048_S800x2048 : S800x2048.ShapeCasts S800x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  slices_S2x512x512_S1x512x512_1_0_0 : S2x512x512.Slices ![1, 0, 0] S1x512x512
  slices_S2x512_S1x512_1_0 : S2x512.Slices ![1, 0] S1x512
  slices_S2x512x2048_S1x512x2048_1_0_0 : S2x512x2048.Slices ![1, 0, 0] S1x512x2048
  slices_S2x2048_S1x2048_1_0 : S2x2048.Slices ![1, 0] S1x2048
  slices_S2x2048x512_S1x2048x512_1_0_0 : S2x2048x512.Slices ![1, 0, 0] S1x2048x512
  dot_S800x512_S512x1536_S800x1536_1_0_0_1_n_n_wf : DotDims.WF S800x512 S512x1536 S800x1536 [1] [0] [0] [1] [] []
  gather_S128x64_S160000x1_S160000x64_1_0_n_n_0_1_164_wf : GatherDims.WF S128x64 S160000x1 S160000x64 [1] [0] [] [0] [] 1 ![1, 64]
  gather_S20000x8x64_S160000x1_S160000x8x64_12_0_n_n_0_1_1864_wf : GatherDims.WF S20000x8x64 S160000x1 S160000x8x64 [1, 2] [0] [] [0] [] 1 ![1, 8, 64]
  scatter_S20000x8x64_S160000x1_S160000x8x64_12_0_0_1_wf : ScatterDims.WF S20000x8x64 S160000x1 S160000x8x64 [1, 2] [0] [0] 1
  scatter_S20000x8_S160000x1_S160000x8_1_0_0_1_wf : ScatterDims.WF S20000x8 S160000x1 S160000x8 [1] [0] [0] 1
  dot_S800x512_S512x512_S800x512_1_0_0_1_n_n_wf : DotDims.WF S800x512 S512x512 S800x512 [1] [0] [0] [1] [] []
  dot_S800x512_S512x2048_S800x2048_1_0_0_1_n_n_wf : DotDims.WF S800x512 S512x2048 S800x2048 [1] [0] [0] [1] [] []
  dot_S800x2048_S2048x512_S800x512_1_0_0_1_n_n_wf : DotDims.WF S800x2048 S2048x512 S800x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x512.size a ≤ S20000x512.size a
  hwx0_0 : ∀ i : grid0.Coords, EltTy.bits .bf16 = 32 ∨ (Rect.block (s := S20000x512) S800x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S800x1536.size a ≤ S20000x1536.size a
  hwx0_3 : ∀ i : grid0.Coords, EltTy.bits .f32 = 32 ∨ (Rect.block (s := S20000x1536) S800x1536.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x512.size a ≤ S20000x512.size a
  hwx1_0 : ∀ i : grid1.Coords, EltTy.bits .bf16 = 32 ∨ (Rect.block (s := S20000x512) S800x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S800x512.size a ≤ S20000x512.size a
  hwx1_3 : ∀ i : grid1.Coords, EltTy.bits .f32 = 32 ∨ (Rect.block (s := S20000x512) S800x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S800x512.size a ≤ S20000x512.size a
  hwx2_0 : ∀ i : grid2.Coords, EltTy.bits .bf16 = 32 ∨ (Rect.block (s := S20000x512) S800x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S512x2048.size a
  hwx2_1 : ∀ i : grid2.Coords, EltTy.bits .bf16 = 32 ∨ (Rect.block (s := S512x2048) S512x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S800x2048.size a ≤ S20000x2048.size a
  hwx2_3 : ∀ i : grid2.Coords, EltTy.bits .bf16 = 32 ∨ (Rect.block (s := S20000x2048) S800x2048.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S800x2048.size a ≤ S20000x2048.size a
  hwx3_0 : ∀ i : grid3.Coords, EltTy.bits .bf16 = 32 ∨ (Rect.block (s := S20000x2048) S800x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S2048x512.size a
  hwx3_1 : ∀ i : grid3.Coords, EltTy.bits .bf16 = 32 ∨ (Rect.block (s := S2048x512) S2048x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S800x512.size a ≤ S20000x512.size a
  hwx3_3 : ∀ i : grid3.Coords, EltTy.bits .f32 = 32 ∨ (Rect.block (s := S20000x512) S800x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S800x512.size a ≤ S20000x512.size a
  hwx4_0 : ∀ i : grid4.Coords, EltTy.bits .bf16 = 32 ∨ (Rect.block (s := S20000x512) S800x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1536.size a ≤ S512x1536.size a
  hwx4_1 : ∀ i : grid4.Coords, EltTy.bits .bf16 = 32 ∨ (Rect.block (s := S512x1536) S512x1536.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1536.size a ≤ S1x1536.size a
  hwx4_2 : ∀ i : grid4.Coords, EltTy.bits .f32 = 32 ∨ (Rect.block (s := S1x1536) S1x1536.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S800x1536.size a ≤ S20000x1536.size a
  hwx4_3 : ∀ i : grid4.Coords, EltTy.bits .f32 = 32 ∨ (Rect.block (s := S20000x1536) S800x1536.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S800x512.size a ≤ S20000x512.size a
  hwx5_0 : ∀ i : grid5.Coords, EltTy.bits .bf16 = 32 ∨ (Rect.block (s := S20000x512) S800x512.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x512.size a ≤ S512x512.size a
  hwx5_1 : ∀ i : grid5.Coords, EltTy.bits .bf16 = 32 ∨ (Rect.block (s := S512x512) S512x512.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S800x512.size a ≤ S20000x512.size a
  hwx5_3 : ∀ i : grid5.Coords, EltTy.bits .f32 = 32 ∨ (Rect.block (s := S20000x512) S800x512.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S800x512.size a ≤ S20000x512.size a
  hwx6_0 : ∀ i : grid6.Coords, EltTy.bits .bf16 = 32 ∨ (Rect.block (s := S20000x512) S800x512.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x2048.size a ≤ S512x2048.size a
  hwx6_1 : ∀ i : grid6.Coords, EltTy.bits .bf16 = 32 ∨ (Rect.block (s := S512x2048) S512x2048.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2048.size a ≤ S1x2048.size a
  hwx6_2 : ∀ i : grid6.Coords, EltTy.bits .f32 = 32 ∨ (Rect.block (s := S1x2048) S1x2048.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S800x2048.size a ≤ S20000x2048.size a
  hwx6_3 : ∀ i : grid6.Coords, EltTy.bits .bf16 = 32 ∨ (Rect.block (s := S20000x2048) S800x2048.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S800x2048.size a ≤ S20000x2048.size a
  hwx7_0 : ∀ i : grid7.Coords, EltTy.bits .bf16 = 32 ∨ (Rect.block (s := S20000x2048) S800x2048.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2048x512.size a ≤ S2048x512.size a
  hwx7_1 : ∀ i : grid7.Coords, EltTy.bits .bf16 = 32 ∨ (Rect.block (s := S2048x512) S2048x512.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S800x512.size a ≤ S20000x512.size a
  hwx7_3 : ∀ i : grid7.Coords, EltTy.bits .f32 = 32 ∨ (Rect.block (s := S20000x512) S800x512.size (cc7_transform_3 i) (hinb7_3 i)).WholeWords (EltTy.packing .f32)

variable [Facts₀]

def dot_S800x512_S512x1536_S800x1536_1_0_0_1_n_n : DotDims S800x512 S512x1536 S800x1536 where
  lhsContracting := [1]
  rhsContracting := [0]
  lhsNonContracting := [0]
  rhsNonContracting := [1]
  lhsBatch := []
  rhsBatch := []
  wf := dot_S800x512_S512x1536_S800x1536_1_0_0_1_n_n_wf
def gather_S128x64_S160000x1_S160000x64_1_0_n_n_0_1_164 : GatherDims S128x64 S160000x1 S160000x64 where
  offsetDims := [1]
  collapsedSliceDims := [0]
  operandBatchingDims := []
  startIndicesBatchingDims := []
  startIndexMap := [0]
  indexVectorDim := 1
  sliceSizes := ![1, 64]
  wf := gather_S128x64_S160000x1_S160000x64_1_0_n_n_0_1_164_wf
def gather_S20000x8x64_S160000x1_S160000x8x64_12_0_n_n_0_1_1864 : GatherDims S20000x8x64 S160000x1 S160000x8x64 where
  offsetDims := [1, 2]
  collapsedSliceDims := [0]
  operandBatchingDims := []
  startIndicesBatchingDims := []
  startIndexMap := [0]
  indexVectorDim := 1
  sliceSizes := ![1, 8, 64]
  wf := gather_S20000x8x64_S160000x1_S160000x8x64_12_0_n_n_0_1_1864_wf
def scatter_S20000x8x64_S160000x1_S160000x8x64_12_0_0_1 : ScatterDims S20000x8x64 S160000x1 S160000x8x64 where
  updateWindowDims := [1, 2]
  insertedWindowDims := [0]
  scatterDimsToOperandDims := [0]
  indexVectorDim := 1
  wf := scatter_S20000x8x64_S160000x1_S160000x8x64_12_0_0_1_wf
def scatter_S20000x8_S160000x1_S160000x8_1_0_0_1 : ScatterDims S20000x8 S160000x1 S160000x8 where
  updateWindowDims := [1]
  insertedWindowDims := [0]
  scatterDimsToOperandDims := [0]
  indexVectorDim := 1
  wf := scatter_S20000x8_S160000x1_S160000x8_1_0_0_1_wf
def dot_S800x512_S512x512_S800x512_1_0_0_1_n_n : DotDims S800x512 S512x512 S800x512 where
  lhsContracting := [1]
  rhsContracting := [0]
  lhsNonContracting := [0]
  rhsNonContracting := [1]
  lhsBatch := []
  rhsBatch := []
  wf := dot_S800x512_S512x512_S800x512_1_0_0_1_n_n_wf
def dot_S800x512_S512x2048_S800x2048_1_0_0_1_n_n : DotDims S800x512 S512x2048 S800x2048 where
  lhsContracting := [1]
  rhsContracting := [0]
  lhsNonContracting := [0]
  rhsNonContracting := [1]
  lhsBatch := []
  rhsBatch := []
  wf := dot_S800x512_S512x2048_S800x2048_1_0_0_1_n_n_wf
def dot_S800x2048_S2048x512_S800x512_1_0_0_1_n_n : DotDims S800x2048 S2048x512 S800x512 where
  lhsContracting := [1]
  rhsContracting := [0]
  lhsNonContracting := [0]
  rhsNonContracting := [1]
  lhsBatch := []
  rhsBatch := []
  wf := dot_S800x2048_S2048x512_S800x512_1_0_0_1_n_n_wf

abbrev win0_0 : Pipeline.Window sig grid0 :=
  Pipeline.Window.ofSpec (Memref.whole main_v13) S800x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S800x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v74) S800x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v80) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v81) S800x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v111) S800x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v114) S512x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v117) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v118) S800x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v118) S800x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v121) S2048x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v124) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v125) S800x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v168) S800x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v162) S512x1536.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v169) S1x1536.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v170) S800x1536.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v229) S800x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v232) S512x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v235) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v236) S800x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v266) S800x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v269) S512x2048.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v272) S1x2048.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v273) S800x2048.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v273) S800x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v276) S2048x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v279) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v280) S800x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S20000x512 : Shape := ⟨2, ![20000, 512]⟩
abbrev S160000 : Shape := ⟨1, ![160000]⟩
abbrev S128x64 : Shape := ⟨2, ![128, 64]⟩
abbrev S2x512x512 : Shape := ⟨3, ![2, 512, 512]⟩
abbrev S2x512 : Shape := ⟨2, ![2, 512]⟩
abbrev S2x512x2048 : Shape := ⟨3, ![2, 512, 2048]⟩
abbrev S2x2048 : Shape := ⟨2, ![2, 2048]⟩
abbrev S2x2048x512 : Shape := ⟨3, ![2, 2048, 512]⟩
abbrev S_ : Shape := ⟨0, ![]⟩
abbrev S160000x1 : Shape := ⟨2, ![160000, 1]⟩
abbrev S160000x64 : Shape := ⟨2, ![160000, 64]⟩
abbrev S160000x1x64 : Shape := ⟨3, ![160000, 1, 64]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S20000x8x64 : Shape := ⟨3, ![20000, 8, 64]⟩
abbrev S160000x8x64 : Shape := ⟨3, ![160000, 8, 64]⟩
abbrev S160000x8 : Shape := ⟨2, ![160000, 8]⟩
abbrev S160000x8x1 : Shape := ⟨3, ![160000, 8, 1]⟩
abbrev S20000x8 : Shape := ⟨2, ![20000, 8]⟩
abbrev S20000x8x1 : Shape := ⟨3, ![20000, 8, 1]⟩
abbrev S20000 : Shape := ⟨1, ![20000]⟩
abbrev S20000x1 : Shape := ⟨2, ![20000, 1]⟩
abbrev S1x512x2048 : Shape := ⟨3, ![1, 512, 2048]⟩
abbrev S512x2048 : Shape := ⟨2, ![512, 2048]⟩
abbrev S20000x2048 : Shape := ⟨2, ![20000, 2048]⟩
abbrev S1x2048 : Shape := ⟨2, ![1, 2048]⟩
abbrev S2048 : Shape := ⟨1, ![2048]⟩
abbrev S1x2048x512 : Shape := ⟨3, ![1, 2048, 512]⟩
abbrev S2048x512 : Shape := ⟨2, ![2048, 512]⟩

abbrev nBuf : Space → Nat
  | .hbm => 375
  | .vmem => 0
  | .smem => 0
  | _ => 0

abbrev hbmTy0_0 (i : Nat) : BufTy := match i % 128 with
  | 0 => ⟨S20000x512, .f32⟩
  | 1 => ⟨S160000, .i32⟩
  | 2 => ⟨S160000, .i32⟩
  | 3 => ⟨S160000, .i32⟩
  | 4 => ⟨S128x64, .f32⟩
  | 5 => ⟨S2x512x512, .f32⟩
  | 6 => ⟨S2x512, .f32⟩
  | 7 => ⟨S2x512x512, .f32⟩
  | 8 => ⟨S2x512x512, .f32⟩
  | 9 => ⟨S2x512x512, .f32⟩
  | 10 => ⟨S2x512, .f32⟩
  | 11 => ⟨S2x512, .f32⟩
  | 12 => ⟨S2x512, .f32⟩
  | 13 => ⟨S2x512x2048, .f32⟩
  | 14 => ⟨S2x2048, .f32⟩
  | 15 => ⟨S2x2048x512, .f32⟩
  | 16 => ⟨S2x512, .f32⟩
  | 17 => ⟨S2x512, .f32⟩
  | 18 => ⟨S2x512, .f32⟩
  | 19 => ⟨S_, .i32⟩
  | 20 => ⟨S160000, .i32⟩
  | 21 => ⟨S160000, .i1⟩
  | 22 => ⟨S_, .i32⟩
  | 23 => ⟨S160000, .i32⟩
  | 24 => ⟨S160000, .i32⟩
  | 25 => ⟨S160000, .i32⟩
  | 26 => ⟨S160000x1, .i32⟩
  | 27 => ⟨S160000x64, .f32⟩
  | 28 => ⟨S160000x1x64, .f32⟩
  | 29 => ⟨S1x512x512, .f32⟩
  | 30 => ⟨S512x512, .f32⟩
  | 31 => ⟨S20000x512, .f32⟩
  | 32 => ⟨S1x512, .f32⟩
  | 33 => ⟨S512, .f32⟩
  | 34 => ⟨S1x512, .f32⟩
  | 35 => ⟨S20000x512, .f32⟩
  | 36 => ⟨S20000x512, .f32⟩
  | 37 => ⟨S20000x8x64, .f32⟩
  | 38 => ⟨S1x512x512, .f32⟩
  | 39 => ⟨S512x512, .f32⟩
  | 40 => ⟨S20000x512, .f32⟩
  | 41 => ⟨S20000x8x64, .f32⟩
  | 42 => ⟨S1x512x512, .f32⟩
  | 43 => ⟨S512x512, .f32⟩
  | 44 => ⟨S20000x512, .f32⟩
  | 45 => ⟨S20000x8x64, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x8x64, .f32⟩
  | 55 => ⟨S160000x8x64, .f32⟩
  | 56 => ⟨S160000x8x64, .f32⟩
  | 57 => ⟨S_, .i32⟩
  | 58 => ⟨S160000, .i32⟩
  | 59 => ⟨S160000, .i1⟩
  | 60 => ⟨S_, .i32⟩
  | 61 => ⟨S160000, .i32⟩
  | 62 => ⟨S160000, .i32⟩
  | 63 => ⟨S160000, .i32⟩
  | 64 => ⟨S160000x1, .i32⟩
  | 65 => ⟨S160000x8x64, .f32⟩
  | 66 => ⟨S160000x8x64, .f32⟩
  | 67 => ⟨S_, .f32⟩
  | 68 => ⟨S160000x8, .f32⟩
  | 69 => ⟨S_, .f32⟩
  | 70 => ⟨S160000x8, .f32⟩
  | 71 => ⟨S160000x8, .f32⟩
  | 72 => ⟨S_, .f32⟩
  | 73 => ⟨S_, .f32⟩
  | 74 => ⟨S_, .f32⟩
  | 75 => ⟨S160000x8, .f32⟩
  | 76 => ⟨S160000x8, .f32⟩
  | 77 => ⟨S_, .f32⟩
  | 78 => ⟨S160000x8, .f32⟩
  | 79 => ⟨S160000x8, .f32⟩
  | 80 => ⟨S160000x8, .f32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S160000x8x64, .f32⟩
  | 90 => ⟨S160000x8x64, .f32⟩
  | 91 => ⟨S160000x8x64, .f32⟩
  | 92 => ⟨S160000x8x1, .f32⟩
  | 93 => ⟨S160000x8x64, .f32⟩
  | 94 => ⟨S160000x8x64, .f32⟩
  | 95 => ⟨S_, .f32⟩
  | 96 => ⟨S20000x8x64, .f32⟩
  | 97 => ⟨S160000x1, .i32⟩
  | 98 => ⟨S20000x8x64, .f32⟩
  | 99 => ⟨S_, .f32⟩
  | 100 => ⟨S20000x8, .f32⟩
  | 101 => ⟨S160000x1, .i32⟩
  | 102 => ⟨S20000x8, .f32⟩
  | 103 => ⟨S20000x8x1, .f32⟩
  | 104 => ⟨S20000x8x64, .f32⟩
  | 105 => ⟨S20000x8x64, .f32⟩
  | 106 => ⟨S20000x512, .f32⟩
  | 107 => ⟨S1x512x512, .f32⟩
  | 108 => ⟨S512x512, .f32⟩
  | 109 => ⟨S20000x512, .f32⟩
  | 110 => ⟨S20000x512, .f32⟩
  | 111 => ⟨S1x512, .f32⟩
  | 112 => ⟨S512, .f32⟩
  | 113 => ⟨S1x512, .f32⟩
  | 114 => ⟨S20000x512, .f32⟩
  | 115 => ⟨S20000x512, .f32⟩
  | 116 => ⟨S1x512, .f32⟩
  | 117 => ⟨S512, .f32⟩
  | 118 => ⟨S1x512, .f32⟩
  | 119 => ⟨S512, .f32⟩
  | 120 => ⟨S_, .f32⟩
  | 121 => ⟨S20000, .f32⟩
  | 122 => ⟨S20000x1, .f32⟩
  | 123 => ⟨S_, .f32⟩
  | 124 => ⟨S20000x1, .f32⟩
  | 125 => ⟨S20000x1, .f32⟩
  | 126 => ⟨S20000x512, .f32⟩
  | 127 => ⟨S20000x512, .f32⟩
  | _ => ⟨S20000x512, .f32⟩

abbrev hbmTy0_1 (i : Nat) : BufTy := match i % 128 with
  | 0 => ⟨S20000x512, .f32⟩
  | 1 => ⟨S_, .f32⟩
  | 2 => ⟨S20000, .f32⟩
  | 3 => ⟨S20000x1, .f32⟩
  | 4 => ⟨S_, .f32⟩
  | 5 => ⟨S20000x1, .f32⟩
  | 6 => ⟨S20000x1, .f32⟩
  | 7 => ⟨S20000x512, .f32⟩
  | 8 => ⟨S20000x512, .f32⟩
  | 9 => ⟨S_, .f32⟩
  | 10 => ⟨S20000x1, .f32⟩
  | 11 => ⟨S20000x1, .f32⟩
  | 12 => ⟨S20000x1, .f32⟩
  | 13 => ⟨S20000x512, .f32⟩
  | 14 => ⟨S20000x512, .f32⟩
  | 15 => ⟨S1x512, .f32⟩
  | 16 => ⟨S20000x512, .f32⟩
  | 17 => ⟨S20000x512, .f32⟩
  | 18 => ⟨S1x512, .f32⟩
  | 19 => ⟨S20000x512, .f32⟩
  | 20 => ⟨S20000x512, .f32⟩
  | 21 => ⟨S1x512x2048, .f32⟩
  | 22 => ⟨S512x2048, .f32⟩
  | 23 => ⟨S20000x2048, .f32⟩
  | 24 => ⟨S1x2048, .f32⟩
  | 25 => ⟨S2048, .f32⟩
  | 26 => ⟨S1x2048, .f32⟩
  | 27 => ⟨S20000x2048, .f32⟩
  | 28 => ⟨S20000x2048, .f32⟩
  | 29 => ⟨S_, .f32⟩
  | 30 => ⟨S20000x2048, .f32⟩
  | 31 => ⟨S20000x2048, .f32⟩
  | 32 => ⟨S1x2048x512, .f32⟩
  | 33 => ⟨S2048x512, .f32⟩
  | 34 => ⟨S20000x512, .f32⟩
  | 35 => ⟨S20000x512, .f32⟩
  | 36 => ⟨S1x512, .f32⟩
  | 37 => ⟨S512, .f32⟩
  | 38 => ⟨S1x512, .f32⟩
  | 39 => ⟨S20000x512, .f32⟩
  | 40 => ⟨S20000x512, .f32⟩
  | 41 => ⟨S1x512, .f32⟩
  | 42 => ⟨S512, .f32⟩
  | 43 => ⟨S1x512, .f32⟩
  | 44 => ⟨S512, .f32⟩
  | 45 => ⟨S_, .f32⟩
  | 46 => ⟨S20000, .f32⟩
  | 47 => ⟨S20000x1, .f32⟩
  | 48 => ⟨S_, .f32⟩
  | 49 => ⟨S20000x1, .f32⟩
  | 50 => ⟨S20000x1, .f32⟩
  | 51 => ⟨S20000x512, .f32⟩
  | 52 => ⟨S20000x512, .f32⟩
  | 53 => ⟨S20000x512, .f32⟩
  | 54 => ⟨S_, .f32⟩
  | 55 => ⟨S20000, .f32⟩
  | 56 => ⟨S20000x1, .f32⟩
  | 57 => ⟨S_, .f32⟩
  | 58 => ⟨S20000x1, .f32⟩
  | 59 => ⟨S20000x1, .f32⟩
  | 60 => ⟨S20000x512, .f32⟩
  | 61 => ⟨S20000x512, .f32⟩
  | 62 => ⟨S_, .f32⟩
  | 63 => ⟨S20000x1, .f32⟩
  | 64 => ⟨S20000x1, .f32⟩
  | 65 => ⟨S20000x1, .f32⟩
  | 66 => ⟨S20000x512, .f32⟩
  | 67 => ⟨S20000x512, .f32⟩
  | 68 => ⟨S1x512, .f32⟩
  | 69 => ⟨S20000x512, .f32⟩
  | 70 => ⟨S20000x512, .f32⟩
  | 71 => ⟨S1x512, .f32⟩
  | 72 => ⟨S20000x512, .f32⟩
  | 73 => ⟨S20000x512, .f32⟩
  | 74 => ⟨S1x512x512, .f32⟩
  | 75 => ⟨S512x512, .f32⟩
  | 76 => ⟨S20000x512, .f32⟩
  | 77 => ⟨S1x512, .f32⟩
  | 78 => ⟨S512, .f32⟩
  | 79 => ⟨S1x512, .f32⟩
  | 80 => ⟨S20000x512, .f32⟩
  | 81 => ⟨S20000x512, .f32⟩
  | 82 => ⟨S20000x8x64, .f32⟩
  | 83 => ⟨S1x512x512, .f32⟩
  | 84 => ⟨S512x512, .f32⟩
  | 85 => ⟨S20000x512, .f32⟩
  | 86 => ⟨S20000x8x64, .f32⟩
  | 87 => ⟨S1x512x512, .f32⟩
  | 88 => ⟨S512x512, .f32⟩
  | 89 => ⟨S20000x512, .f32⟩
  | 90 => ⟨S20000x8x64, .f32⟩
  | 91 => ⟨S_, .i32⟩
  | 92 => ⟨S160000, .i32⟩
  | 93 => ⟨S160000, .i1⟩
  | 94 => ⟨S_, .i32⟩
  | 95 => ⟨S160000, .i32⟩
  | 96 => ⟨S160000, .i32⟩
  | 97 => ⟨S160000, .i32⟩
  | 98 => ⟨S160000x1, .i32⟩
  | 99 => ⟨S160000x8x64, .f32⟩
  | 100 => ⟨S160000x8x64, .f32⟩
  | 101 => ⟨S160000x8x64, .f32⟩
  | 102 => ⟨S_, .i32⟩
  | 103 => ⟨S160000, .i32⟩
  | 104 => ⟨S160000, .i1⟩
  | 105 => ⟨S_, .i32⟩
  | 106 => ⟨S160000, .i32⟩
  | 107 => ⟨S160000, .i32⟩
  | 108 => ⟨S160000, .i32⟩
  | 109 => ⟨S160000x1, .i32⟩
  | 110 => ⟨S160000x8x64, .f32⟩
  | 111 => ⟨S160000x8x64, .f32⟩
  | 112 => ⟨S_, .f32⟩
  | 113 => ⟨S160000x8, .f32⟩
  | 114 => ⟨S_, .f32⟩
  | 115 => ⟨S160000x8, .f32⟩
  | 116 => ⟨S160000x8, .f32⟩
  | 117 => ⟨S_, .f32⟩
  | 118 => ⟨S_, .f32⟩
  | 119 => ⟨S_, .f32⟩
  | 120 => ⟨S160000x8, .f32⟩
  | 121 => ⟨S160000x8, .f32⟩
  | 122 => ⟨S_, .f32⟩
  | 123 => ⟨S160000x8, .f32⟩
  | 124 => ⟨S160000x8, .f32⟩
  | 125 => ⟨S160000x8, .f32⟩
  | 126 => ⟨S_, .i32⟩
  | 127 => ⟨S160000, .i32⟩
  | _ => ⟨S20000x512, .f32⟩

abbrev hbmTy0_2 (i : Nat) : BufTy := match i % 128 with
  | 0 => ⟨S160000, .i1⟩
  | 1 => ⟨S_, .i32⟩
  | 2 => ⟨S160000, .i32⟩
  | 3 => ⟨S160000, .i32⟩
  | 4 => ⟨S160000, .i32⟩
  | 5 => ⟨S160000x1, .i32⟩
  | 6 => ⟨S160000x8x64, .f32⟩
  | 7 => ⟨S160000x8x64, .f32⟩
  | 8 => ⟨S160000x8x64, .f32⟩
  | 9 => ⟨S160000x8x1, .f32⟩
  | 10 => ⟨S160000x8x64, .f32⟩
  | 11 => ⟨S160000x8x64, .f32⟩
  | 12 => ⟨S_, .f32⟩
  | 13 => ⟨S20000x8x64, .f32⟩
  | 14 => ⟨S160000x1, .i32⟩
  | 15 => ⟨S20000x8x64, .f32⟩
  | 16 => ⟨S_, .f32⟩
  | 17 => ⟨S20000x8, .f32⟩
  | 18 => ⟨S160000x1, .i32⟩
  | 19 => ⟨S20000x8, .f32⟩
  | 20 => ⟨S20000x8x1, .f32⟩
  | 21 => ⟨S20000x8x64, .f32⟩
  | 22 => ⟨S20000x8x64, .f32⟩
  | 23 => ⟨S20000x512, .f32⟩
  | 24 => ⟨S1x512x512, .f32⟩
  | 25 => ⟨S512x512, .f32⟩
  | 26 => ⟨S20000x512, .f32⟩
  | 27 => ⟨S20000x512, .f32⟩
  | 28 => ⟨S1x512, .f32⟩
  | 29 => ⟨S512, .f32⟩
  | 30 => ⟨S1x512, .f32⟩
  | 31 => ⟨S20000x512, .f32⟩
  | 32 => ⟨S20000x512, .f32⟩
  | 33 => ⟨S1x512, .f32⟩
  | 34 => ⟨S512, .f32⟩
  | 35 => ⟨S1x512, .f32⟩
  | 36 => ⟨S512, .f32⟩
  | 37 => ⟨S_, .f32⟩
  | 38 => ⟨S20000, .f32⟩
  | 39 => ⟨S20000x1, .f32⟩
  | 40 => ⟨S_, .f32⟩
  | 41 => ⟨S20000x1, .f32⟩
  | 42 => ⟨S20000x1, .f32⟩
  | 43 => ⟨S20000x512, .f32⟩
  | 44 => ⟨S20000x512, .f32⟩
  | 45 => ⟨S20000x512, .f32⟩
  | 46 => ⟨S_, .f32⟩
  | 47 => ⟨S20000, .f32⟩
  | 48 => ⟨S20000x1, .f32⟩
  | 49 => ⟨S_, .f32⟩
  | 50 => ⟨S20000x1, .f32⟩
  | 51 => ⟨S20000x1, .f32⟩
  | 52 => ⟨S20000x512, .f32⟩
  | 53 => ⟨S20000x512, .f32⟩
  | 54 => ⟨S_, .f32⟩
  | 55 => ⟨S20000x1, .f32⟩
  | 56 => ⟨S20000x1, .f32⟩
  | 57 => ⟨S20000x1, .f32⟩
  | 58 => ⟨S20000x512, .f32⟩
  | 59 => ⟨S20000x512, .f32⟩
  | 60 => ⟨S1x512, .f32⟩
  | 61 => ⟨S20000x512, .f32⟩
  | 62 => ⟨S20000x512, .f32⟩
  | 63 => ⟨S1x512, .f32⟩
  | 64 => ⟨S20000x512, .f32⟩
  | 65 => ⟨S20000x512, .f32⟩
  | 66 => ⟨S1x512x2048, .f32⟩
  | 67 => ⟨S512x2048, .f32⟩
  | 68 => ⟨S20000x2048, .f32⟩
  | 69 => ⟨S1x2048, .f32⟩
  | 70 => ⟨S2048, .f32⟩
  | 71 => ⟨S1x2048, .f32⟩
  | 72 => ⟨S20000x2048, .f32⟩
  | 73 => ⟨S20000x2048, .f32⟩
  | 74 => ⟨S_, .f32⟩
  | 75 => ⟨S20000x2048, .f32⟩
  | 76 => ⟨S20000x2048, .f32⟩
  | 77 => ⟨S1x2048x512, .f32⟩
  | 78 => ⟨S2048x512, .f32⟩
  | 79 => ⟨S20000x512, .f32⟩
  | 80 => ⟨S20000x512, .f32⟩
  | 81 => ⟨S1x512, .f32⟩
  | 82 => ⟨S512, .f32⟩
  | 83 => ⟨S1x512, .f32⟩
  | 84 => ⟨S20000x512, .f32⟩
  | 85 => ⟨S20000x512, .f32⟩
  | 86 => ⟨S1x512, .f32⟩
  | 87 => ⟨S512, .f32⟩
  | 88 => ⟨S1x512, .f32⟩
  | 89 => ⟨S512, .f32⟩
  | 90 => ⟨S_, .f32⟩
  | 91 => ⟨S20000, .f32⟩
  | 92 => ⟨S20000x1, .f32⟩
  | 93 => ⟨S_, .f32⟩
  | 94 => ⟨S20000x1, .f32⟩
  | 95 => ⟨S20000x1, .f32⟩
  | 96 => ⟨S20000x512, .f32⟩
  | 97 => ⟨S20000x512, .f32⟩
  | 98 => ⟨S20000x512, .f32⟩
  | 99 => ⟨S_, .f32⟩
  | 100 => ⟨S20000, .f32⟩
  | 101 => ⟨S20000x1, .f32⟩
  | 102 => ⟨S_, .f32⟩
  | 103 => ⟨S20000x1, .f32⟩
  | 104 => ⟨S20000x1, .f32⟩
  | 105 => ⟨S20000x512, .f32⟩
  | 106 => ⟨S20000x512, .f32⟩
  | 107 => ⟨S_, .f32⟩
  | 108 => ⟨S20000x1, .f32⟩
  | 109 => ⟨S20000x1, .f32⟩
  | 110 => ⟨S20000x1, .f32⟩
  | 111 => ⟨S20000x512, .f32⟩
  | 112 => ⟨S20000x512, .f32⟩
  | 113 => ⟨S1x512, .f32⟩
  | 114 => ⟨S20000x512, .f32⟩
  | 115 => ⟨S20000x512, .f32⟩
  | 116 => ⟨S1x512, .f32⟩
  | 117 => ⟨S20000x512, .f32⟩
  | 118 => ⟨S20000x512, .f32⟩
  | _ => ⟨S20000x512, .f32⟩

abbrev hbmTy (i : Nat) : BufTy := match i / 128 with
  | 0 => hbmTy0_0 i
  | 1 => hbmTy0_1 i
  | 2 => hbmTy0_2 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_1 : Ref sig .tc := ⟨.hbm, 46, rfl⟩
abbrev main_v25 : Ref sig .tc := ⟨.hbm, 47, rfl⟩
abbrev main_v26 : Ref sig .tc := ⟨.hbm, 48, rfl⟩
abbrev main_c_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_3 : Ref sig .tc := ⟨.hbm, 57, rfl⟩
abbrev main_v34 : Ref sig .tc := ⟨.hbm, 58, rfl⟩
abbrev main_v35 : Ref sig .tc := ⟨.hbm, 59, rfl⟩
abbrev main_c_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_cst_7 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v45 : Ref sig .tc := ⟨.hbm, 79, rfl⟩
abbrev main_v46 : Ref sig .tc := ⟨.hbm, 80, rfl⟩
abbrev main_c_8 : Ref sig .tc := ⟨.hbm, 81, rfl⟩
abbrev main_v47 : Ref sig .tc := ⟨.hbm, 82, rfl⟩
abbrev main_v48 : Ref sig .tc := ⟨.hbm, 83, rfl⟩
abbrev main_c_9 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_10 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_11 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_12 : Ref sig .tc := ⟨.hbm, 120, rfl⟩
abbrev main_v82 : Ref sig .tc := ⟨.hbm, 121, rfl⟩
abbrev main_v83 : Ref sig .tc := ⟨.hbm, 122, rfl⟩
abbrev main_cst_13 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_14 : Ref sig .tc := ⟨.hbm, 129, rfl⟩
abbrev main_v89 : Ref sig .tc := ⟨.hbm, 130, rfl⟩
abbrev main_v90 : Ref sig .tc := ⟨.hbm, 131, rfl⟩
abbrev main_cst_15 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_16 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_call1_cst : Ref sig .tc := ⟨.hbm, 157, rfl⟩
abbrev main_call1_v0 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_17 : Ref sig .tc := ⟨.hbm, 173, rfl⟩
abbrev main_v128 : Ref sig .tc := ⟨.hbm, 174, rfl⟩
abbrev main_v129 : Ref sig .tc := ⟨.hbm, 175, rfl⟩
abbrev main_cst_18 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_19 : Ref sig .tc := ⟨.hbm, 182, rfl⟩
abbrev main_v135 : Ref sig .tc := ⟨.hbm, 183, rfl⟩
abbrev main_v136 : Ref sig .tc := ⟨.hbm, 184, rfl⟩
abbrev main_cst_20 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_21 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_c_22 : Ref sig .tc := ⟨.hbm, 219, rfl⟩
abbrev main_v169 : Ref sig .tc := ⟨.hbm, 220, rfl⟩
abbrev main_v170 : Ref sig .tc := ⟨.hbm, 221, rfl⟩
abbrev main_c_23 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_c_24 : Ref sig .tc := ⟨.hbm, 230, rfl⟩
abbrev main_v178 : Ref sig .tc := ⟨.hbm, 231, rfl⟩
abbrev main_v179 : Ref sig .tc := ⟨.hbm, 232, rfl⟩
abbrev main_c_25 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_cst_26 : Ref sig .tc := ⟨.hbm, 240, rfl⟩
abbrev main_v186 : Ref sig .tc := ⟨.hbm, 241, rfl⟩
abbrev main_cst_27 : Ref sig .tc := ⟨.hbm, 242, rfl⟩
abbrev main_v187 : Ref sig .tc := ⟨.hbm, 243, rfl⟩
abbrev main_v188 : Ref sig .tc := ⟨.hbm, 244, rfl⟩
abbrev main_cst_28 : Ref sig .tc := ⟨.hbm, 245, rfl⟩
abbrev main_cst_29 : Ref sig .tc := ⟨.hbm, 246, rfl⟩
abbrev main_call2_v0 : Ref sig .tc := ⟨.hbm, 247, rfl⟩
abbrev main_call2_v1 : Ref sig .tc := ⟨.hbm, 248, rfl⟩
abbrev main_call2_v2 : Ref sig .tc := ⟨.hbm, 249, rfl⟩
abbrev main_call2_v3 : Ref sig .tc := ⟨.hbm, 250, rfl⟩
abbrev main_call2_v4 : Ref sig .tc := ⟨.hbm, 251, rfl⟩
abbrev main_v189 : Ref sig .tc := ⟨.hbm, 252, rfl⟩
abbrev main_v190 : Ref sig .tc := ⟨.hbm, 253, rfl⟩
abbrev main_c_30 : Ref sig .tc := ⟨.hbm, 254, rfl⟩
abbrev main_v191 : Ref sig .tc := ⟨.hbm, 255, rfl⟩
abbrev main_v192 : Ref sig .tc := ⟨.hbm, 256, rfl⟩
abbrev main_c_31 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_cst_32 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_cst_33 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_cst_34 : Ref sig .tc := ⟨.hbm, 293, rfl⟩
abbrev main_v226 : Ref sig .tc := ⟨.hbm, 294, rfl⟩
abbrev main_v227 : Ref sig .tc := ⟨.hbm, 295, rfl⟩
abbrev main_cst_35 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_cst_36 : Ref sig .tc := ⟨.hbm, 302, rfl⟩
abbrev main_v233 : Ref sig .tc := ⟨.hbm, 303, rfl⟩
abbrev main_v234 : Ref sig .tc := ⟨.hbm, 304, rfl⟩
abbrev main_cst_37 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_cst_38 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_call3_cst : Ref sig .tc := ⟨.hbm, 330, rfl⟩
abbrev main_call3_v0 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_v264 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_v270 : Ref sig .tc := ⟨.hbm, 344, rfl⟩
abbrev main_v271 : Ref sig .tc := ⟨.hbm, 345, rfl⟩
abbrev main_cst_39 : Ref sig .tc := ⟨.hbm, 346, rfl⟩
abbrev main_v272 : Ref sig .tc := ⟨.hbm, 347, rfl⟩
abbrev main_v273 : Ref sig .tc := ⟨.hbm, 348, rfl⟩
abbrev main_cst_40 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_cst_41 : Ref sig .tc := ⟨.hbm, 355, rfl⟩
abbrev main_v279 : Ref sig .tc := ⟨.hbm, 356, rfl⟩
abbrev main_v280 : Ref sig .tc := ⟨.hbm, 357, rfl⟩
abbrev main_cst_42 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_cst_43 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S160000x64_S160000x1x64_0_2 : S160000x64.BroadcastsInDim S160000x1x64 (![0, 2] : Fin 2 → Fin S160000x1x64.rank)
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  shapeCasts_S20000x512_S20000x8x64 : S20000x512.ShapeCasts S20000x8x64
  bcast_S160000x1x64_S160000x8x64_0_1_2 : S160000x1x64.BroadcastsInDim S160000x8x64 (![0, 1, 2] : Fin 3 → Fin S160000x8x64.rank)
  reducesTo_S160000x8x64_S160000x8_d2 : S160000x8x64.ReducesTo [2] S160000x8
  h_S_ : 0 < S_.numel
  bcast_S_S160000x8 : S_.BroadcastsInDim S160000x8 (![] : Fin 0 → Fin S160000x8.rank)
  bcast_S160000x8_S160000x8x1_0_1 : S160000x8.BroadcastsInDim S160000x8x1 (![0, 1] : Fin 2 → Fin S160000x8x1.rank)
  bcast_S160000x8x1_S160000x8x64_0_1_2 : S160000x8x1.BroadcastsInDim S160000x8x64 (![0, 1, 2] : Fin 3 → Fin S160000x8x64.rank)
  bcast_S_S20000x8x64 : S_.BroadcastsInDim S20000x8x64 (![] : Fin 0 → Fin S20000x8x64.rank)
  bcast_S_S20000x8 : S_.BroadcastsInDim S20000x8 (![] : Fin 0 → Fin S20000x8.rank)
  bcast_S20000x8_S20000x8x1_0_1 : S20000x8.BroadcastsInDim S20000x8x1 (![0, 1] : Fin 2 → Fin S20000x8x1.rank)
  bcast_S20000x8x1_S20000x8x64_0_1_2 : S20000x8x1.BroadcastsInDim S20000x8x64 (![0, 1, 2] : Fin 3 → Fin S20000x8x64.rank)
  shapeCasts_S20000x8x64_S20000x512 : S20000x8x64.ShapeCasts S20000x512
  reducesTo_S20000x512_S20000_d1 : S20000x512.ReducesTo [1] S20000
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x512_0_1 : S20000x1.BroadcastsInDim S20000x512 (![0, 1] : Fin 2 → Fin S20000x512.rank)
  slices_S2x512x2048_S1x512x2048_0_0_0 : S2x512x2048.Slices ![0, 0, 0] S1x512x2048
  shapeCasts_S1x512x2048_S512x2048 : S1x512x2048.ShapeCasts S512x2048
  slices_S2x2048_S1x2048_0_0 : S2x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S20000x2048_0_1 : S1x2048.BroadcastsInDim S20000x2048 (![0, 1] : Fin 2 → Fin S20000x2048.rank)
  bcast_S_S20000x2048 : S_.BroadcastsInDim S20000x2048 (![] : Fin 0 → Fin S20000x2048.rank)
  slices_S2x2048x512_S1x2048x512_0_0_0 : S2x2048x512.Slices ![0, 0, 0] S1x2048x512
  shapeCasts_S1x2048x512_S2048x512 : S1x2048x512.ShapeCasts S2048x512
  slices_S2x512x512_S1x512x512_1_0_0 : S2x512x512.Slices ![1, 0, 0] S1x512x512
  slices_S2x512_S1x512_1_0 : S2x512.Slices ![1, 0] S1x512
  slices_S2x512x2048_S1x512x2048_1_0_0 : S2x512x2048.Slices ![1, 0, 0] S1x512x2048
  slices_S2x2048_S1x2048_1_0 : S2x2048.Slices ![1, 0] S1x2048
  slices_S2x2048x512_S1x2048x512_1_0_0 : S2x2048x512.Slices ![1, 0, 0] S1x2048x512
  gather_S128x64_S160000x1_S160000x64_1_0_n_n_0_1_164_wf : GatherDims.WF S128x64 S160000x1 S160000x64 [1] [0] [] [0] [] 1 ![1, 64]
  dot_S20000x512_S512x512_S20000x512_1_0_0_1_n_n_wf : DotDims.WF S20000x512 S512x512 S20000x512 [1] [0] [0] [1] [] []
  gather_S20000x8x64_S160000x1_S160000x8x64_12_0_n_n_0_1_1864_wf : GatherDims.WF S20000x8x64 S160000x1 S160000x8x64 [1, 2] [0] [] [0] [] 1 ![1, 8, 64]
  scatter_S20000x8x64_S160000x1_S160000x8x64_12_0_0_1_wf : ScatterDims.WF S20000x8x64 S160000x1 S160000x8x64 [1, 2] [0] [0] 1
  scatter_S20000x8_S160000x1_S160000x8_1_0_0_1_wf : ScatterDims.WF S20000x8 S160000x1 S160000x8 [1] [0] [0] 1
  dot_S20000x512_S512x2048_S20000x2048_1_0_0_1_n_n_wf : DotDims.WF S20000x512 S512x2048 S20000x2048 [1] [0] [0] [1] [] []
  dot_S20000x2048_S2048x512_S20000x512_1_0_0_1_n_n_wf : DotDims.WF S20000x2048 S2048x512 S20000x512 [1] [0] [0] [1] [] []

variable [Facts₀]

def gather_S128x64_S160000x1_S160000x64_1_0_n_n_0_1_164 : GatherDims S128x64 S160000x1 S160000x64 where
  offsetDims := [1]
  collapsedSliceDims := [0]
  operandBatchingDims := []
  startIndicesBatchingDims := []
  startIndexMap := [0]
  indexVectorDim := 1
  sliceSizes := ![1, 64]
  wf := gather_S128x64_S160000x1_S160000x64_1_0_n_n_0_1_164_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def gather_S20000x8x64_S160000x1_S160000x8x64_12_0_n_n_0_1_1864 : GatherDims S20000x8x64 S160000x1 S160000x8x64 where
  offsetDims := [1, 2]
  collapsedSliceDims := [0]
  operandBatchingDims := []
  startIndicesBatchingDims := []
  startIndexMap := [0]
  indexVectorDim := 1
  sliceSizes := ![1, 8, 64]
  wf := gather_S20000x8x64_S160000x1_S160000x8x64_12_0_n_n_0_1_1864_wf
def scatter_S20000x8x64_S160000x1_S160000x8x64_12_0_0_1 : ScatterDims S20000x8x64 S160000x1 S160000x8x64 where
  updateWindowDims := [1, 2]
  insertedWindowDims := [0]
  scatterDimsToOperandDims := [0]
  indexVectorDim := 1
  wf := scatter_S20000x8x64_S160000x1_S160000x8x64_12_0_0_1_wf
def scatter_S20000x8_S160000x1_S160000x8_1_0_0_1 : ScatterDims S20000x8 S160000x1 S160000x8 where
  updateWindowDims := [1]
  insertedWindowDims := [0]
  scatterDimsToOperandDims := [0]
  indexVectorDim := 1
  wf := scatter_S20000x8_S160000x1_S160000x8_1_0_0_1_wf
def dot_S20000x512_S512x2048_S20000x2048_1_0_0_1_n_n : DotDims S20000x512 S512x2048 S20000x2048 where
  lhsContracting := [1]
  rhsContracting := [0]
  lhsNonContracting := [0]
  rhsNonContracting := [1]
  lhsBatch := []
  rhsBatch := []
  wf := dot_S20000x512_S512x2048_S20000x2048_1_0_0_1_n_n_wf
def dot_S20000x2048_S2048x512_S20000x512_1_0_0_1_n_n : DotDims S20000x2048 S2048x512 S20000x512 where
  lhsContracting := [1]
  rhsContracting := [0]
  lhsNonContracting := [0]
  rhsNonContracting := [1]
  lhsBatch := []
  rhsBatch := []
  wf := dot_S20000x2048_S2048x512_S20000x512_1_0_0_1_n_n_wf

class Facts : Prop extends Facts₀ where

variable [Facts]
-- ==== Proof.K.RunCond.lean ====
import proofs.«130450_j89593017795077_1_alg».proof.Proof.Gen.Kernel.Regions

set_option maxRecDepth 2268

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c)) :
    θ_run defs (onTc (τ := τ) (main (F := F))) ⟨m, fun _ => 0, ρ⟩ (fun r => ∀ c : Dev nD, ∀ b ∈ Pipeline.ucRefs τ sig,
      r.2.mem ((c : Thread nD τ).1, b) = Gen.V21 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V21 m outs c))
    (hch := fun c => ⟨.rfl, hpre0 c, hpost0 c, .rfl, .rfl, hpre1 c, hpost1 c, hpre2 c, hpost2 c, hpre3 c, hpost3 c, hpre4 c, hpost4 c, .rfl, .rfl, hpre5 c, hpost5 c, hpre6 c, hpost6 c, hpre7 c, hpost7 c, sep_mono .rfl (hE8 c)⟩)
    (hinit := ?_) (QY := fun c s => ∀ b ∈ Pipeline.ucRefs τ sig, s.mem ((c : Thread nD τ).1, b) = Gen.V21 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => ((c : Thread nD τ).1, b)) (Gen.V21 m outs c) s')
    isplitl [Hh] <;> iassumption

end Cert.Kernel.Hand

end
-- ==== Proof.K.Reg0.lean ====
import proofs.«130450_j89593017795077_1_alg».proof.Proof.Gen.Kernel.Launch
import proofs.«130450_j89593017795077_1_alg».proof.Proof.Gen.Kernel.Skeleton
import proofs.«130450_j89593017795077_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S800x512 := Rect.unit (s := S800x512) ![0, 0] S800x512.size inb_S800x512_S800x512_0_0
abbrev r0_1 : Rect S512x1536 := Rect.unit (s := S512x1536) ![0, 0] S512x1536.size inb_S512x1536_S512x1536_0_0
abbrev r0_2 : Rect S1x1536 := Rect.unit (s := S1x1536) ![0, 0] S1x1536.size inb_S1x1536_S1x1536_0_0
abbrev r0_3 : Rect S800x1536 := Rect.unit (s := S800x1536) ![0, 0] S800x1536.size inb_S800x1536_S800x1536_0_0

def out0_3 (x0 : Vec F S800x512 .bf16) (x1 : Vec F S512x1536 .bf16) (x2 : Vec F S1x1536 .f32) : Vec F S800x1536 .f32 :=
  View.canon [⟨r0_3, k0_pay1 (View.ld x0 r0_0) (View.ld x1 r0_1) (View.ld x2 r0_2)⟩]

set_option maxHeartbeats 1000000 in
/-- The body reads its three inputs whole and stores once over the whole output, so it leaves `out0_3` of the inputs and touches nothing else. -/
theorem sound_kernel0 {D0 D1 D2 D3 : Type} (c : Dev nD) (i : grid0.Coords)
    (arg1 : Memref sig .tc .vmem S800x512 .bf16) (harg1 : arg1.IsWhole) (arg2 : Memref sig .tc .vmem S512x1536 .bf16) (harg2 : arg2.IsWhole)
    (arg3 : Memref sig .tc .vmem S1x1536 .f32) (harg3 : arg3.IsWhole) (arg4 : Memref sig .tc .vmem S800x1536 .f32) (harg4 : arg4.IsWhole)
    (x0 : Vec F S800x512 .bf16) (x1 : Vec F S512x1536 .bf16) (x2 : Vec F S1x1536 .f32) (g : D3 → Vec F S800x1536 .f32) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc0__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out0_3 x0 x1 x2)) := by
  simp only [cc0__lambda__eq_skeleton]; unfold cc0__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x1536.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => by unfold Dat.blockOf; rw [A_eq0]; rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun _ => by unfold Dat.blockOf; rw [A_eq0]; rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun _ => by unfold Dat.blockOf; rw [A_eq0]; rfl) t d).trans
    (by unfold Dat.fetched Dat.blockOf iblk0; rw [A_eq0]; try rfl)

theorem body_obligation0 (c : Dev nD) : BodyObligation (dat0 (F := F) V c) (defs₀ (F := F)) Variants.none () Set.univ := fun t => by
  rw [bigSep_W0, bigSep_W0]
  simp only [before0_0, before0_1, before0_2]
  rw [after0_0, after0_1, after0_2, after0_3, show (dat0 V c).Φ t.succ = (dat0 V c).Φ t.castSucc from rfl,
    show (dat0 V c).owesAt () t.succ = (dat0 V c).owesAt () t.castSucc from rfl]
  show _ ⊢ wp _ _ _ (bodyAt0 t) _
  exact sound_kernel0 c _ _ _ _ _ _ _ _ _ _ _ _ _ _ _

end Region0

end Cert.Kernel.Hand
-- ==== Proof.K.Reg1.lean ====
import proofs.«130450_j89593017795077_1_alg».proof.Proof.Gen.Kernel.Launch
import proofs.«130450_j89593017795077_1_alg».proof.Proof.Gen.Kernel.Skeleton
import proofs.«130450_j89593017795077_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S800x512 := Rect.unit (s := S800x512) ![0, 0] S800x512.size inb_S800x512_S800x512_0_0
abbrev r1_1 : Rect S512x512 := Rect.unit (s := S512x512) ![0, 0] S512x512.size inb_S512x512_S512x512_0_0
abbrev r1_2 : Rect S1x512 := Rect.unit (s := S1x512) ![0, 0] S1x512.size inb_S1x512_S1x512_0_0
abbrev r1_3 : Rect S800x512 := Rect.unit (s := S800x512) ![0, 0] S800x512.size inb_S800x512_S800x512_0_0

def out1_3 (x0 : Vec F S800x512 .bf16) (x1 : Vec F S512x512 .bf16) (x2 : Vec F S1x512 .f32) : Vec F S800x512 .f32 :=
  View.canon [⟨r1_3, k1_pay1 (View.ld x0 r1_0) (View.ld x1 r1_1) (View.ld x2 r1_2)⟩]

set_option maxHeartbeats 1000000 in
/-- The body reads its three inputs whole and stores once over the whole output, so it leaves `out1_3` of the inputs and touches nothing else. -/
theorem sound_kernel1 {D0 D1 D2 D3 : Type} (c : Dev nD) (i : grid1.Coords)
    (arg1 : Memref sig .tc .vmem S800x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S800x512 .f32) (harg4 : arg4.IsWhole)
    (x0 : Vec F S800x512 .bf16) (x1 : Vec F S512x512 .bf16) (x2 : Vec F S1x512 .f32) (g : D3 → Vec F S800x512 .f32) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc1__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out1_3 x0 x1 x2)) := by
  simp only [cc1__lambda__eq_skeleton]; unfold cc1__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x512.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => by unfold Dat.blockOf; rw [A_eq1]; rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun _ => by unfold Dat.blockOf; rw [A_eq1]; rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun _ => by unfold Dat.blockOf; rw [A_eq1]; rfl) t d).trans
    (by unfold Dat.fetched Dat.blockOf iblk1; rw [A_eq1]; try rfl)

theorem body_obligation1 (c : Dev nD) : BodyObligation (dat1 (F := F) V c) (defs₀ (F := F)) Variants.none () Set.univ := fun t => by
  rw [bigSep_W1, bigSep_W1]
  simp only [before1_0, before1_1, before1_2]
  rw [after1_0, after1_1, after1_2, after1_3, show (dat1 V c).Φ t.succ = (dat1 V c).Φ t.castSucc from rfl,
    show (dat1 V c).owesAt () t.succ = (dat1 V c).owesAt () t.castSucc from rfl]
  show _ ⊢ wp _ _ _ (bodyAt1 t) _
  exact sound_kernel1 c _ _ _ _ _ _ _ _ _ _ _ _ _ _ _

end Region1

end Cert.Kernel.Hand
-- ==== Proof.K.Reg2.lean ====
import proofs.«130450_j89593017795077_1_alg».proof.Proof.Gen.Kernel.Launch
import proofs.«130450_j89593017795077_1_alg».proof.Proof.Gen.Kernel.Skeleton
import proofs.«130450_j89593017795077_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S800x512 := Rect.unit (s := S800x512) ![0, 0] S800x512.size inb_S800x512_S800x512_0_0
abbrev r2_1 : Rect S512x2048 := Rect.unit (s := S512x2048) ![0, 0] S512x2048.size inb_S512x2048_S512x2048_0_0
abbrev r2_2 : Rect S1x2048 := Rect.unit (s := S1x2048) ![0, 0] S1x2048.size inb_S1x2048_S1x2048_0_0
abbrev r2_3 : Rect S800x2048 := Rect.unit (s := S800x2048) ![0, 0] S800x2048.size inb_S800x2048_S800x2048_0_0

def out2_3 (x0 : Vec F S800x512 .bf16) (x1 : Vec F S512x2048 .bf16) (x2 : Vec F S1x2048 .f32) : Vec F S800x2048 .bf16 :=
  View.canon [⟨r2_3, k2_pay1 (View.ld x0 r2_0) (View.ld x1 r2_1) (View.ld x2 r2_2)⟩]

set_option maxHeartbeats 1000000 in
/-- The body reads its three inputs whole and stores once over the whole output, so it leaves `out2_3` of the inputs and touches nothing else. -/
theorem sound_kernel2 {D0 D1 D2 D3 : Type} (c : Dev nD) (i : grid2.Coords)
    (arg1 : Memref sig .tc .vmem S800x512 .bf16) (harg1 : arg1.IsWhole) (arg2 : Memref sig .tc .vmem S512x2048 .bf16) (harg2 : arg2.IsWhole)
    (arg3 : Memref sig .tc .vmem S1x2048 .f32) (harg3 : arg3.IsWhole) (arg4 : Memref sig .tc .vmem S800x2048 .bf16) (harg4 : arg4.IsWhole)
    (x0 : Vec F S800x512 .bf16) (x1 : Vec F S512x2048 .bf16) (x2 : Vec F S1x2048 .f32) (g : D3 → Vec F S800x2048 .bf16) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc2__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out2_3 x0 x1 x2)) := by
  simp only [cc2__lambda__eq_skeleton]; unfold cc2__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x2048.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => by unfold Dat.blockOf; rw [A_eq2]; rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun _ => by unfold Dat.blockOf; rw [A_eq2]; rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun _ => by unfold Dat.blockOf; rw [A_eq2]; rfl) t d).trans
    (by unfold Dat.fetched Dat.blockOf iblk2; rw [A_eq2]; try rfl)

theorem body_obligation2 (c : Dev nD) : BodyObligation (dat2 (F := F) V c) (defs₀ (F := F)) Variants.none () Set.univ := fun t => by
  rw [bigSep_W2, bigSep_W2]
  simp only [before2_0, before2_1, before2_2]
  rw [after2_0, after2_1, after2_2, after2_3, show (dat2 V c).Φ t.succ = (dat2 V c).Φ t.castSucc from rfl,
    show (dat2 V c).owesAt () t.succ = (dat2 V c).owesAt () t.castSucc from rfl]
  show _ ⊢ wp _ _ _ (bodyAt2 t) _
  exact sound_kernel2 c _ _ _ _ _ _ _ _ _ _ _ _ _ _ _

end Region2

end Cert.Kernel.Hand
-- ==== Proof.K.Reg3.lean ====
import proofs.«130450_j89593017795077_1_alg».proof.Proof.Gen.Kernel.Launch
import proofs.«130450_j89593017795077_1_alg».proof.Proof.Gen.Kernel.Skeleton
import proofs.«130450_j89593017795077_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S800x2048 := Rect.unit (s := S800x2048) ![0, 0] S800x2048.size inb_S800x2048_S800x2048_0_0
abbrev r3_1 : Rect S2048x512 := Rect.unit (s := S2048x512) ![0, 0] S2048x512.size inb_S2048x512_S2048x512_0_0
abbrev r3_2 : Rect S1x512 := Rect.unit (s := S1x512) ![0, 0] S1x512.size inb_S1x512_S1x512_0_0
abbrev r3_3 : Rect S800x512 := Rect.unit (s := S800x512) ![0, 0] S800x512.size inb_S800x512_S800x512_0_0

def out3_3 (x0 : Vec F S800x2048 .bf16) (x1 : Vec F S2048x512 .bf16) (x2 : Vec F S1x512 .f32) : Vec F S800x512 .f32 :=
  View.canon [⟨r3_3, k3_pay1 (View.ld x0 r3_0) (View.ld x1 r3_1) (View.ld x2 r3_2)⟩]

set_option maxHeartbeats 1000000 in
/-- The body reads its three inputs whole and stores once over the whole output, so it leaves `out3_3` of the inputs and touches nothing else. -/
theorem sound_kernel3 {D0 D1 D2 D3 : Type} (c : Dev nD) (i : grid3.Coords)
    (arg1 : Memref sig .tc .vmem S800x2048 .bf16) (harg1 : arg1.IsWhole) (arg2 : Memref sig .tc .vmem S2048x512 .bf16) (harg2 : arg2.IsWhole)
    (arg3 : Memref sig .tc .vmem S1x512 .f32) (harg3 : arg3.IsWhole) (arg4 : Memref sig .tc .vmem S800x512 .f32) (harg4 : arg4.IsWhole)
    (x0 : Vec F S800x2048 .bf16) (x1 : Vec F S2048x512 .bf16) (x2 : Vec F S1x512 .f32) (g : D3 → Vec F S800x512 .f32) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc3__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out3_3 x0 x1 x2)) := by
  simp only [cc3__lambda__eq_skeleton]; unfold cc3__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x512.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => by unfold Dat.blockOf; rw [A_eq3]; rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun _ => by unfold Dat.blockOf; rw [A_eq3]; rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun _ => by unfold Dat.blockOf; rw [A_eq3]; rfl) t d).trans
    (by unfold Dat.fetched Dat.blockOf iblk3; rw [A_eq3]; try rfl)

theorem body_obligation3 (c : Dev nD) : BodyObligation (dat3 (F := F) V c) (defs₀ (F := F)) Variants.none () Set.univ := fun t => by
  rw [bigSep_W3, bigSep_W3]
  simp only [before3_0, before3_1, before3_2]
  rw [after3_0, after3_1, after3_2, after3_3, show (dat3 V c).Φ t.succ = (dat3 V c).Φ t.castSucc from rfl,
    show (dat3 V c).owesAt () t.succ = (dat3 V c).owesAt () t.castSucc from rfl]
  show _ ⊢ wp _ _ _ (bodyAt3 t) _
  exact sound_kernel3 c _ _ _ _ _ _ _ _ _ _ _ _ _ _ _

end Region3

end Cert.Kernel.Hand
-- ==== Proof.K.Reg4.lean ====
import proofs.«130450_j89593017795077_1_alg».proof.Proof.Gen.Kernel.Launch
import proofs.«130450_j89593017795077_1_alg».proof.Proof.Gen.Kernel.Skeleton
import proofs.«130450_j89593017795077_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S800x512 := Rect.unit (s := S800x512) ![0, 0] S800x512.size inb_S800x512_S800x512_0_0
abbrev r4_1 : Rect S512x1536 := Rect.unit (s := S512x1536) ![0, 0] S512x1536.size inb_S512x1536_S512x1536_0_0
abbrev r4_2 : Rect S1x1536 := Rect.unit (s := S1x1536) ![0, 0] S1x1536.size inb_S1x1536_S1x1536_0_0
abbrev r4_3 : Rect S800x1536 := Rect.unit (s := S800x1536) ![0, 0] S800x1536.size inb_S800x1536_S800x1536_0_0

def out4_3 (x0 : Vec F S800x512 .bf16) (x1 : Vec F S512x1536 .bf16) (x2 : Vec F S1x1536 .f32) : Vec F S800x1536 .f32 :=
  View.canon [⟨r4_3, k4_pay1 (View.ld x0 r4_0) (View.ld x1 r4_1) (View.ld x2 r4_2)⟩]

set_option maxHeartbeats 1000000 in
/-- The body reads its three inputs whole and stores once over the whole output, so it leaves `out4_3` of the inputs and touches nothing else. -/
theorem sound_kernel4 {D0 D1 D2 D3 : Type} (c : Dev nD) (i : grid4.Coords)
    (arg1 : Memref sig .tc .vmem S800x512 .bf16) (harg1 : arg1.IsWhole) (arg2 : Memref sig .tc .vmem S512x1536 .bf16) (harg2 : arg2.IsWhole)
    (arg3 : Memref sig .tc .vmem S1x1536 .f32) (harg3 : arg3.IsWhole) (arg4 : Memref sig .tc .vmem S800x1536 .f32) (harg4 : arg4.IsWhole)
    (x0 : Vec F S800x512 .bf16) (x1 : Vec F S512x1536 .bf16) (x2 : Vec F S1x1536 .f32) (g : D3 → Vec F S800x1536 .f32) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc4__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out4_3 x0 x1 x2)) := by
  simp only [cc4__lambda__eq_skeleton]; unfold cc4__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x1536.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => by unfold Dat.blockOf; rw [A_eq4]; rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun _ => by unfold Dat.blockOf; rw [A_eq4]; rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun _ => by unfold Dat.blockOf; rw [A_eq4]; rfl) t d).trans
    (by unfold Dat.fetched Dat.blockOf iblk4; rw [A_eq4]; try rfl)

theorem body_obligation4 (c : Dev nD) : BodyObligation (dat4 (F := F) V c) (defs₀ (F := F)) Variants.none () Set.univ := fun t => by
  rw [bigSep_W4, bigSep_W4]
  simp only [before4_0, before4_1, before4_2]
  rw [after4_0, after4_1, after4_2, after4_3, show (dat4 V c).Φ t.succ = (dat4 V c).Φ t.castSucc from rfl,
    show (dat4 V c).owesAt () t.succ = (dat4 V c).owesAt () t.castSucc from rfl]
  show _ ⊢ wp _ _ _ (bodyAt4 t) _
  exact sound_kernel4 c _ _ _ _ _ _ _ _ _ _ _ _ _ _ _

end Region4

end Cert.Kernel.Hand
-- ==== Proof.K.Reg5.lean ====
import proofs.«130450_j89593017795077_1_alg».proof.Proof.Gen.Kernel.Launch
import proofs.«130450_j89593017795077_1_alg».proof.Proof.Gen.Kernel.Skeleton
import proofs.«130450_j89593017795077_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S800x512 := Rect.unit (s := S800x512) ![0, 0] S800x512.size inb_S800x512_S800x512_0_0
abbrev r5_1 : Rect S512x512 := Rect.unit (s := S512x512) ![0, 0] S512x512.size inb_S512x512_S512x512_0_0
abbrev r5_2 : Rect S1x512 := Rect.unit (s := S1x512) ![0, 0] S1x512.size inb_S1x512_S1x512_0_0
abbrev r5_3 : Rect S800x512 := Rect.unit (s := S800x512) ![0, 0] S800x512.size inb_S800x512_S800x512_0_0

def out5_3 (x0 : Vec F S800x512 .bf16) (x1 : Vec F S512x512 .bf16) (x2 : Vec F S1x512 .f32) : Vec F S800x512 .f32 :=
  View.canon [⟨r5_3, k5_pay1 (View.ld x0 r5_0) (View.ld x1 r5_1) (View.ld x2 r5_2)⟩]

set_option maxHeartbeats 1000000 in
/-- The body reads its three inputs whole and stores once over the whole output, so it leaves `out5_3` of the inputs and touches nothing else. -/
theorem sound_kernel5 {D0 D1 D2 D3 : Type} (c : Dev nD) (i : grid5.Coords)
    (arg1 : Memref sig .tc .vmem S800x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S800x512 .f32) (harg4 : arg4.IsWhole)
    (x0 : Vec F S800x512 .bf16) (x1 : Vec F S512x512 .bf16) (x2 : Vec F S1x512 .f32) (g : D3 → Vec F S800x512 .f32) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc5__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out5_3 x0 x1 x2)) := by
  simp only [cc5__lambda__eq_skeleton]; unfold cc5__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x512.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => by unfold Dat.blockOf; rw [A_eq5]; rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun _ => by unfold Dat.blockOf; rw [A_eq5]; rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun _ => by unfold Dat.blockOf; rw [A_eq5]; rfl) t d).trans
    (by unfold Dat.fetched Dat.blockOf iblk5; rw [A_eq5]; try rfl)

theorem body_obligation5 (c : Dev nD) : BodyObligation (dat5 (F := F) V c) (defs₀ (F := F)) Variants.none () Set.univ := fun t => by
  rw [bigSep_W5, bigSep_W5]
  simp only [before5_0, before5_1, before5_2]
  rw [after5_0, after5_1, after5_2, after5_3, show (dat5 V c).Φ t.succ = (dat5 V c).Φ t.castSucc from rfl,
    show (dat5 V c).owesAt () t.succ = (dat5 V c).owesAt () t.castSucc from rfl]
  show _ ⊢ wp _ _ _ (bodyAt5 t) _
  exact sound_kernel5 c _ _ _ _ _ _ _ _ _ _ _ _ _ _ _

end Region5

end Cert.Kernel.Hand
-- ==== Proof.K.Reg6.lean ====
import proofs.«130450_j89593017795077_1_alg».proof.Proof.Gen.Kernel.Launch
import proofs.«130450_j89593017795077_1_alg».proof.Proof.Gen.Kernel.Skeleton
import proofs.«130450_j89593017795077_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S800x512 := Rect.unit (s := S800x512) ![0, 0] S800x512.size inb_S800x512_S800x512_0_0
abbrev r6_1 : Rect S512x2048 := Rect.unit (s := S512x2048) ![0, 0] S512x2048.size inb_S512x2048_S512x2048_0_0
abbrev r6_2 : Rect S1x2048 := Rect.unit (s := S1x2048) ![0, 0] S1x2048.size inb_S1x2048_S1x2048_0_0
abbrev r6_3 : Rect S800x2048 := Rect.unit (s := S800x2048) ![0, 0] S800x2048.size inb_S800x2048_S800x2048_0_0

def out6_3 (x0 : Vec F S800x512 .bf16) (x1 : Vec F S512x2048 .bf16) (x2 : Vec F S1x2048 .f32) : Vec F S800x2048 .bf16 :=
  View.canon [⟨r6_3, k6_pay1 (View.ld x0 r6_0) (View.ld x1 r6_1) (View.ld x2 r6_2)⟩]

set_option maxHeartbeats 1000000 in
/-- The body reads its three inputs whole and stores once over the whole output, so it leaves `out6_3` of the inputs and touches nothing else. -/
theorem sound_kernel6 {D0 D1 D2 D3 : Type} (c : Dev nD) (i : grid6.Coords)
    (arg1 : Memref sig .tc .vmem S800x512 .bf16) (harg1 : arg1.IsWhole) (arg2 : Memref sig .tc .vmem S512x2048 .bf16) (harg2 : arg2.IsWhole)
    (arg3 : Memref sig .tc .vmem S1x2048 .f32) (harg3 : arg3.IsWhole) (arg4 : Memref sig .tc .vmem S800x2048 .bf16) (harg4 : arg4.IsWhole)
    (x0 : Vec F S800x512 .bf16) (x1 : Vec F S512x2048 .bf16) (x2 : Vec F S1x2048 .f32) (g : D3 → Vec F S800x2048 .bf16) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc6__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out6_3 x0 x1 x2)) := by
  simp only [cc6__lambda__eq_skeleton]; unfold cc6__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x2048.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => by unfold Dat.blockOf; rw [A_eq6]; rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun _ => by unfold Dat.blockOf; rw [A_eq6]; rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun _ => by unfold Dat.blockOf; rw [A_eq6]; rfl) t d).trans
    (by unfold Dat.fetched Dat.blockOf iblk6; rw [A_eq6]; try rfl)

theorem body_obligation6 (c : Dev nD) : BodyObligation (dat6 (F := F) V c) (defs₀ (F := F)) Variants.none () Set.univ := fun t => by
  rw [bigSep_W6, bigSep_W6]
  simp only [before6_0, before6_1, before6_2]
  rw [after6_0, after6_1, after6_2, after6_3, show (dat6 V c).Φ t.succ = (dat6 V c).Φ t.castSucc from rfl,
    show (dat6 V c).owesAt () t.succ = (dat6 V c).owesAt () t.castSucc from rfl]
  show _ ⊢ wp _ _ _ (bodyAt6 t) _
  exact sound_kernel6 c _ _ _ _ _ _ _ _ _ _ _ _ _ _ _

end Region6

end Cert.Kernel.Hand
-- ==== Proof.K.Reg7.lean ====
import proofs.«130450_j89593017795077_1_alg».proof.Proof.Gen.Kernel.Launch
import proofs.«130450_j89593017795077_1_alg».proof.Proof.Gen.Kernel.Skeleton
import proofs.«130450_j89593017795077_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S800x2048 := Rect.unit (s := S800x2048) ![0, 0] S800x2048.size inb_S800x2048_S800x2048_0_0
abbrev r7_1 : Rect S2048x512 := Rect.unit (s := S2048x512) ![0, 0] S2048x512.size inb_S2048x512_S2048x512_0_0
abbrev r7_2 : Rect S1x512 := Rect.unit (s := S1x512) ![0, 0] S1x512.size inb_S1x512_S1x512_0_0
abbrev r7_3 : Rect S800x512 := Rect.unit (s := S800x512) ![0, 0] S800x512.size inb_S800x512_S800x512_0_0

def out7_3 (x0 : Vec F S800x2048 .bf16) (x1 : Vec F S2048x512 .bf16) (x2 : Vec F S1x512 .f32) : Vec F S800x512 .f32 :=
  View.canon [⟨r7_3, k7_pay1 (View.ld x0 r7_0) (View.ld x1 r7_1) (View.ld x2 r7_2)⟩]

set_option maxHeartbeats 1000000 in
/-- The body reads its three inputs whole and stores once over the whole output, so it leaves `out7_3` of the inputs and touches nothing else. -/
theorem sound_kernel7 {D0 D1 D2 D3 : Type} (c : Dev nD) (i : grid7.Coords)
    (arg1 : Memref sig .tc .vmem S800x2048 .bf16) (harg1 : arg1.IsWhole) (arg2 : Memref sig .tc .vmem S2048x512 .bf16) (harg2 : arg2.IsWhole)
    (arg3 : Memref sig .tc .vmem S1x512 .f32) (harg3 : arg3.IsWhole) (arg4 : Memref sig .tc .vmem S800x512 .f32) (harg4 : arg4.IsWhole)
    (x0 : Vec F S800x2048 .bf16) (x1 : Vec F S2048x512 .bf16) (x2 : Vec F S1x512 .f32) (g : D3 → Vec F S800x512 .f32) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc7__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out7_3 x0 x1 x2)) := by
  simp only [cc7__lambda__eq_skeleton]; unfold cc7__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x512.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => by unfold Dat.blockOf; rw [A_eq7]; rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun _ => by unfold Dat.blockOf; rw [A_eq7]; rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun _ => by unfold Dat.blockOf; rw [A_eq7]; rfl) t d).trans
    (by unfold Dat.fetched Dat.blockOf iblk7; rw [A_eq7]; try rfl)

theorem body_obligation7 (c : Dev nD) : BodyObligation (dat7 (F := F) V c) (defs₀ (F := F)) Variants.none () Set.univ := fun t => by
  rw [bigSep_W7, bigSep_W7]
  simp only [before7_0, before7_1, before7_2]
  rw [after7_0, after7_1, after7_2, after7_3, show (dat7 V c).Φ t.succ = (dat7 V c).Φ t.castSucc from rfl,
    show (dat7 V c).owesAt () t.succ = (dat7 V c).owesAt () t.castSucc from rfl]
  show _ ⊢ wp _ _ _ (bodyAt7 t) _
  exact sound_kernel7 c _ _ _ _ _ _ _ _ _ _ _ _ _ _ _

end Region7

end Cert.Kernel.Hand
-- ==== Proof.K.Run.lean ====
import proofs.«130450_j89593017795077_1_alg».proof.Proof.K.RunCond
import proofs.«130450_j89593017795077_1_alg».proof.Proof.K.Reg0
import proofs.«130450_j89593017795077_1_alg».proof.Proof.K.Reg1
import proofs.«130450_j89593017795077_1_alg».proof.Proof.K.Reg2
import proofs.«130450_j89593017795077_1_alg».proof.Proof.K.Reg3
import proofs.«130450_j89593017795077_1_alg».proof.Proof.K.Reg4
import proofs.«130450_j89593017795077_1_alg».proof.Proof.K.Reg5
import proofs.«130450_j89593017795077_1_alg».proof.Proof.K.Reg6
import proofs.«130450_j89593017795077_1_alg».proof.Proof.K.Reg7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def W1 (c : Dev nD) : Valuation τ sig (Elt F) := StableHlo.after hostOps0 (fun b => m (c, b))

def W2 (c : Dev nD) : Valuation τ sig (Elt F) :=
  Function.update (W1 m c) (Proc.devRef .tc main_v15) ((dat0 (fun c b => W1 m c b) c).arrAt 3 cfg0.N)

def W3 (c : Dev nD) : Valuation τ sig (Elt F) := StableHlo.after hostOps1 (W2 m c)

def W4 (c : Dev nD) : Valuation τ sig (Elt F) := StableHlo.after hostOps1_1 (W3 m c)

def W5 (c : Dev nD) : Valuation τ sig (Elt F) := StableHlo.after hostOps1_2 (W4 m c)

def W6 (c : Dev nD) : Valuation τ sig (Elt F) :=
  Function.update (W5 m c) (Proc.devRef .tc main_v81) ((dat1 (fun c b => W5 m c b) c).arrAt 3 cfg1.N)

def W7 (c : Dev nD) : Valuation τ sig (Elt F) := StableHlo.after hostOps2 (W6 m c)

def W8 (c : Dev nD) : Valuation τ sig (Elt F) :=
  Function.update (W7 m c) (Proc.devRef .tc main_v118) ((dat2 (fun c b => W7 m c b) c).arrAt 3 cfg2.N)

def W9 (c : Dev nD) : Valuation τ sig (Elt F) := StableHlo.after hostOps3 (W8 m c)

def W10 (c : Dev nD) : Valuation τ sig (Elt F) :=
  Function.update (W9 m c) (Proc.devRef .tc main_v125) ((dat3 (fun c b => W9 m c b) c).arrAt 3 cfg3.N)

def W11 (c : Dev nD) : Valuation τ sig (Elt F) := StableHlo.after hostOps4 (W10 m c)

def W12 (c : Dev nD) : Valuation τ sig (Elt F) :=
  Function.update (W11 m c) (Proc.devRef .tc main_v170) ((dat4 (fun c b => W11 m c b) c).arrAt 3 cfg4.N)

def W13 (c : Dev nD) : Valuation τ sig (Elt F) := StableHlo.after hostOps5 (W12 m c)

def W14 (c : Dev nD) : Valuation τ sig (Elt F) := StableHlo.after hostOps5_1 (W13 m c)

def W15 (c : Dev nD) : Valuation τ sig (Elt F) := StableHlo.after hostOps5_2 (W14 m c)

def W16 (c : Dev nD) : Valuation τ sig (Elt F) :=
  Function.update (W15 m c) (Proc.devRef .tc main_v236) ((dat5 (fun c b => W15 m c b) c).arrAt 3 cfg5.N)

def W17 (c : Dev nD) : Valuation τ sig (Elt F) := StableHlo.after hostOps6 (W16 m c)

def W18 (c : Dev nD) : Valuation τ sig (Elt F) :=
  Function.update (W17 m c) (Proc.devRef .tc main_v273) ((dat6 (fun c b => W17 m c b) c).arrAt 3 cfg6.N)

def W19 (c : Dev nD) : Valuation τ sig (Elt F) := StableHlo.after hostOps7 (W18 m c)

def W20 (c : Dev nD) : Valuation τ sig (Elt F) :=
  Function.update (W19 m c) (Proc.devRef .tc main_v280) ((dat7 (fun c b => W19 m c b) c).arrAt 3 cfg7.N)

def W21 (c : Dev nD) : Valuation τ sig (Elt F) := StableHlo.after hostOps8 (W20 m c)

def outs : Gen.Outs (F := F) := fun J r c => match J with
  | 2 => W2 m c (Proc.devRef .tc r)
  | 6 => W6 m c (Proc.devRef .tc r)
  | 8 => W8 m c (Proc.devRef .tc r)
  | 10 => W10 m c (Proc.devRef .tc r)
  | 12 => W12 m c (Proc.devRef .tc r)
  | 16 => W16 m c (Proc.devRef .tc r)
  | 18 => W18 m c (Proc.devRef .tc r)
  | 20 => W20 m c (Proc.devRef .tc r)
  | _ => W1 m c (Proc.devRef .tc r)

theorem update_update_self {α : Type} [DecidableEq α] {β : α → Type} (f : (a : α) → β a) (a : α) (x : β a) :
    Function.update f a (Function.update f a x a) = Function.update f a x := by rw [Function.update_self]

theorem V_eq1 (c : Dev nD) : Gen.V1 m c = W1 m c := rfl
theorem V_eq2 (c : Dev nD) : Gen.V2 m (outs m) c = W2 m c := by
  show Function.update (Gen.V1 m c) (Proc.devRef .tc main_v15) (W2 m c (Proc.devRef .tc main_v15)) = W2 m c
  rw [V_eq1 m c]; exact update_update_self _ _ _
theorem V_eq3 (c : Dev nD) : Gen.V3 m (outs m) c = W3 m c := congrArg (StableHlo.after hostOps1) (V_eq2 m c)
theorem V_eq4 (c : Dev nD) : Gen.V4 m (outs m) c = W4 m c := congrArg (StableHlo.after hostOps1_1) (V_eq3 m c)
theorem V_eq5 (c : Dev nD) : Gen.V5 m (outs m) c = W5 m c := congrArg (StableHlo.after hostOps1_2) (V_eq4 m c)
theorem V_eq6 (c : Dev nD) : Gen.V6 m (outs m) c = W6 m c := by
  show Function.update (Gen.V5 m (outs m) c) (Proc.devRef .tc main_v81) (W6 m c (Proc.devRef .tc main_v81)) = W6 m c
  rw [V_eq5 m c]; exact update_update_self _ _ _
theorem V_eq7 (c : Dev nD) : Gen.V7 m (outs m) c = W7 m c := congrArg (StableHlo.after hostOps2) (V_eq6 m c)
theorem V_eq8 (c : Dev nD) : Gen.V8 m (outs m) c = W8 m c := by
  show Function.update (Gen.V7 m (outs m) c) (Proc.devRef .tc main_v118) (W8 m c (Proc.devRef .tc main_v118)) = W8 m c
  rw [V_eq7 m c]; exact update_update_self _ _ _
theorem V_eq9 (c : Dev nD) : Gen.V9 m (outs m) c = W9 m c := congrArg (StableHlo.after hostOps3) (V_eq8 m c)
theorem V_eq10 (c : Dev nD) : Gen.V10 m (outs m) c = W10 m c := by
  show Function.update (Gen.V9 m (outs m) c) (Proc.devRef .tc main_v125) (W10 m c (Proc.devRef .tc main_v125)) = W10 m c
  rw [V_eq9 m c]; exact update_update_self _ _ _
theorem V_eq11 (c : Dev nD) : Gen.V11 m (outs m) c = W11 m c := congrArg (StableHlo.after hostOps4) (V_eq10 m c)
theorem V_eq12 (c : Dev nD) : Gen.V12 m (outs m) c = W12 m c := by
  show Function.update (Gen.V11 m (outs m) c) (Proc.devRef .tc main_v170) (W12 m c (Proc.devRef .tc main_v170)) = W12 m c
  rw [V_eq11 m c]; exact update_update_self _ _ _
theorem V_eq13 (c : Dev nD) : Gen.V13 m (outs m) c = W13 m c := congrArg (StableHlo.after hostOps5) (V_eq12 m c)
theorem V_eq14 (c : Dev nD) : Gen.V14 m (outs m) c = W14 m c := congrArg (StableHlo.after hostOps5_1) (V_eq13 m c)
theorem V_eq15 (c : Dev nD) : Gen.V15 m (outs m) c = W15 m c := congrArg (StableHlo.after hostOps5_2) (V_eq14 m c)
theorem V_eq16 (c : Dev nD) : Gen.V16 m (outs m) c = W16 m c := by
  show Function.update (Gen.V15 m (outs m) c) (Proc.devRef .tc main_v236) (W16 m c (Proc.devRef .tc main_v236)) = W16 m c
  rw [V_eq15 m c]; exact update_update_self _ _ _
theorem V_eq17 (c : Dev nD) : Gen.V17 m (outs m) c = W17 m c := congrArg (StableHlo.after hostOps6) (V_eq16 m c)
theorem V_eq18 (c : Dev nD) : Gen.V18 m (outs m) c = W18 m c := by
  show Function.update (Gen.V17 m (outs m) c) (Proc.devRef .tc main_v273) (W18 m c (Proc.devRef .tc main_v273)) = W18 m c
  rw [V_eq17 m c]; exact update_update_self _ _ _
theorem V_eq19 (c : Dev nD) : Gen.V19 m (outs m) c = W19 m c := congrArg (StableHlo.after hostOps7) (V_eq18 m c)
theorem V_eq20 (c : Dev nD) : Gen.V20 m (outs m) c = W20 m c := by
  show Function.update (Gen.V19 m (outs m) c) (Proc.devRef .tc main_v280) (W20 m c (Proc.devRef .tc main_v280)) = W20 m c
  rw [V_eq19 m c]; exact update_update_self _ _ _
theorem V_eq21 (c : Dev nD) : Gen.V21 m (outs m) c = W21 m c := congrArg (StableHlo.after hostOps8) (V_eq20 m c)

theorem outs_2 (c : Dev nD) : outs m 2 main_v15 c = (dat0 (fun c b => Gen.V1 m c b) c).arrAt 3 cfg0.N := by
  show W2 m c (Proc.devRef .tc main_v15) = _
  unfold W2
  exact Function.update_self _ _ _

theorem entry_eq1 : (fun (c : Dev nD) (b : Ref sig .tc) => Gen.V5 m (outs m) c (Proc.devRef .tc b))
    = fun (c : Dev nD) (b : Ref sig .tc) => W5 m c (Proc.devRef .tc b) :=
  funext fun c => funext fun b => congrFun (V_eq5 m c) (Proc.devRef .tc b)

theorem outs_6 (c : Dev nD) : outs m 6 main_v81 c = (dat1 (fun c b => Gen.V5 m (outs m) c b) c).arrAt 3 cfg1.N := by
  rw [entry_eq1 m]
  show W6 m c (Proc.devRef .tc main_v81) = _
  unfold W6
  exact Function.update_self _ _ _

theorem entry_eq2 : (fun (c : Dev nD) (b : Ref sig .tc) => Gen.V7 m (outs m) c (Proc.devRef .tc b))
    = fun (c : Dev nD) (b : Ref sig .tc) => W7 m c (Proc.devRef .tc b) :=
  funext fun c => funext fun b => congrFun (V_eq7 m c) (Proc.devRef .tc b)

theorem outs_8 (c : Dev nD) : outs m 8 main_v118 c = (dat2 (fun c b => Gen.V7 m (outs m) c b) c).arrAt 3 cfg2.N := by
  rw [entry_eq2 m]
  show W8 m c (Proc.devRef .tc main_v118) = _
  unfold W8
  exact Function.update_self _ _ _

theorem entry_eq3 : (fun (c : Dev nD) (b : Ref sig .tc) => Gen.V9 m (outs m) c (Proc.devRef .tc b))
    = fun (c : Dev nD) (b : Ref sig .tc) => W9 m c (Proc.devRef .tc b) :=
  funext fun c => funext fun b => congrFun (V_eq9 m c) (Proc.devRef .tc b)

theorem outs_10 (c : Dev nD) : outs m 10 main_v125 c = (dat3 (fun c b => Gen.V9 m (outs m) c b) c).arrAt 3 cfg3.N := by
  rw [entry_eq3 m]
  show W10 m c (Proc.devRef .tc main_v125) = _
  unfold W10
  exact Function.update_self _ _ _

theorem entry_eq4 : (fun (c : Dev nD) (b : Ref sig .tc) => Gen.V11 m (outs m) c (Proc.devRef .tc b))
    = fun (c : Dev nD) (b : Ref sig .tc) => W11 m c (Proc.devRef .tc b) :=
  funext fun c => funext fun b => congrFun (V_eq11 m c) (Proc.devRef .tc b)

theorem outs_12 (c : Dev nD) : outs m 12 main_v170 c = (dat4 (fun c b => Gen.V11 m (outs m) c b) c).arrAt 3 cfg4.N := by
  rw [entry_eq4 m]
  show W12 m c (Proc.devRef .tc main_v170) = _
  unfold W12
  exact Function.update_self _ _ _

theorem entry_eq5 : (fun (c : Dev nD) (b : Ref sig .tc) => Gen.V15 m (outs m) c (Proc.devRef .tc b))
    = fun (c : Dev nD) (b : Ref sig .tc) => W15 m c (Proc.devRef .tc b) :=
  funext fun c => funext fun b => congrFun (V_eq15 m c) (Proc.devRef .tc b)

theorem outs_16 (c : Dev nD) : outs m 16 main_v236 c = (dat5 (fun c b => Gen.V15 m (outs m) c b) c).arrAt 3 cfg5.N := by
  rw [entry_eq5 m]
  show W16 m c (Proc.devRef .tc main_v236) = _
  unfold W16
  exact Function.update_self _ _ _

theorem entry_eq6 : (fun (c : Dev nD) (b : Ref sig .tc) => Gen.V17 m (outs m) c (Proc.devRef .tc b))
    = fun (c : Dev nD) (b : Ref sig .tc) => W17 m c (Proc.devRef .tc b) :=
  funext fun c => funext fun b => congrFun (V_eq17 m c) (Proc.devRef .tc b)

theorem outs_18 (c : Dev nD) : outs m 18 main_v273 c = (dat6 (fun c b => Gen.V17 m (outs m) c b) c).arrAt 3 cfg6.N := by
  rw [entry_eq6 m]
  show W18 m c (Proc.devRef .tc main_v273) = _
  unfold W18
  exact Function.update_self _ _ _

theorem entry_eq7 : (fun (c : Dev nD) (b : Ref sig .tc) => Gen.V19 m (outs m) c (Proc.devRef .tc b))
    = fun (c : Dev nD) (b : Ref sig .tc) => W19 m c (Proc.devRef .tc b) :=
  funext fun c => funext fun b => congrFun (V_eq19 m c) (Proc.devRef .tc b)

theorem outs_20 (c : Dev nD) : outs m 20 main_v280 c = (dat7 (fun c b => Gen.V19 m (outs m) c b) c).arrAt 3 cfg7.N := by
  rw [entry_eq7 m]
  show W20 m c (Proc.devRef .tc main_v280) = _
  unfold W20
  exact Function.update_self _ _ _

def pdats : (p : Fin 8) → (c : Dev nD) → Dat τ (Elt F) Unit ℕ (UR sig nD τ) ℕ (Pipeline.pin (pcfgs (F := F)) Gen.adm p) c
  | ⟨0, _⟩ => fun c => dat0 (fun c b => Gen.V1 m c b) c
  | ⟨1, _⟩ => fun c => dat1 (fun c b => Gen.V5 m (outs m) c b) c
  | ⟨2, _⟩ => fun c => dat2 (fun c b => Gen.V7 m (outs m) c b) c
  | ⟨3, _⟩ => fun c => dat3 (fun c b => Gen.V9 m (outs m) c b) c
  | ⟨4, _⟩ => fun c => dat4 (fun c b => Gen.V11 m (outs m) c b) c
  | ⟨5, _⟩ => fun c => dat5 (fun c b => Gen.V15 m (outs m) c b) c
  | ⟨6, _⟩ => fun c => dat6 (fun c b => Gen.V17 m (outs m) c b) c
  | ⟨7, _⟩ => fun c => dat7 (fun c b => Gen.V19 m (outs m) c b) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) (w : Fin cfg0.W) : (dat0 (fun c b => Gen.V1 m c b) c).arrAt w cfg0.N = Gen.V2 m (outs m) c (Pipeline.arrRef spec0 w) := by
  by_cases hw : w = 3
  · subst hw; exact (outs_2 m c).symm.trans (Function.update_self (Proc.devRef .tc main_v15 : DevRef τ sig) (outs m 2 main_v15 c) (Gen.V1 m c)).symm
  · exact ((dat0 _ c).arrAt_in w ((by decide : ∀ w : Fin cfg0.W, w ≠ 3 → (cfg0.win w).isOut = false) w hw) _).trans
      ((A_eq0 _ c w).trans (Gen.V2_of m (outs m) c _ ((by decide : ∀ w : Fin cfg0.W, w ≠ 3 → Pipeline.arrRef spec0 w ∉ ([main_v15] : List (Ref sig .tc))) w hw)).symm)
theorem hrest0 (c : Dev nD) : ∀ b : Ref sig .tc, b ∉ Finset.univ.image (Pipeline.arrRef spec0) → Gen.V2 m (outs m) c b = Gen.V1 m c b :=
  fun b hb => Gen.V2_of m (outs m) c b fun h => hb (by
    rcases List.mem_singleton.mp h with rfl
    exact Finset.mem_image.mpr ⟨3, Finset.mem_univ _, rfl⟩)
theorem hF1 (c : Dev nD) (w : Fin cfg1.W) : (dat1 (fun c b => Gen.V5 m (outs m) c b) c).arrAt w cfg1.N = Gen.V6 m (outs m) c (Pipeline.arrRef spec1 w) := by
  by_cases hw : w = 3
  · subst hw; exact (outs_6 m c).symm.trans (Function.update_self (Proc.devRef .tc main_v81 : DevRef τ sig) (outs m 6 main_v81 c) (Gen.V5 m (outs m) c)).symm
  · exact ((dat1 _ c).arrAt_in w ((by decide : ∀ w : Fin cfg1.W, w ≠ 3 → (cfg1.win w).isOut = false) w hw) _).trans
      ((A_eq1 _ c w).trans (Gen.V6_of m (outs m) c _ ((by decide : ∀ w : Fin cfg1.W, w ≠ 3 → Pipeline.arrRef spec1 w ∉ ([main_v81] : List (Ref sig .tc))) w hw)).symm)
theorem hrest1 (c : Dev nD) : ∀ b : Ref sig .tc, b ∉ Finset.univ.image (Pipeline.arrRef spec1) → Gen.V6 m (outs m) c b = Gen.V5 m (outs m) c b :=
  fun b hb => Gen.V6_of m (outs m) c b fun h => hb (by
    rcases List.mem_singleton.mp h with rfl
    exact Finset.mem_image.mpr ⟨3, Finset.mem_univ _, rfl⟩)
theorem hF2 (c : Dev nD) (w : Fin cfg2.W) : (dat2 (fun c b => Gen.V7 m (outs m) c b) c).arrAt w cfg2.N = Gen.V8 m (outs m) c (Pipeline.arrRef spec2 w) := by
  by_cases hw : w = 3
  · subst hw; exact (outs_8 m c).symm.trans (Function.update_self (Proc.devRef .tc main_v118 : DevRef τ sig) (outs m 8 main_v118 c) (Gen.V7 m (outs m) c)).symm
  · exact ((dat2 _ c).arrAt_in w ((by decide : ∀ w : Fin cfg2.W, w ≠ 3 → (cfg2.win w).isOut = false) w hw) _).trans
      ((A_eq2 _ c w).trans (Gen.V8_of m (outs m) c _ ((by decide : ∀ w : Fin cfg2.W, w ≠ 3 → Pipeline.arrRef spec2 w ∉ ([main_v118] : List (Ref sig .tc))) w hw)).symm)
theorem hrest2 (c : Dev nD) : ∀ b : Ref sig .tc, b ∉ Finset.univ.image (Pipeline.arrRef spec2) → Gen.V8 m (outs m) c b = Gen.V7 m (outs m) c b :=
  fun b hb => Gen.V8_of m (outs m) c b fun h => hb (by
    rcases List.mem_singleton.mp h with rfl
    exact Finset.mem_image.mpr ⟨3, Finset.mem_univ _, rfl⟩)
theorem hF3 (c : Dev nD) (w : Fin cfg3.W) : (dat3 (fun c b => Gen.V9 m (outs m) c b) c).arrAt w cfg3.N = Gen.V10 m (outs m) c (Pipeline.arrRef spec3 w) := by
  by_cases hw : w = 3
  · subst hw; exact (outs_10 m c).symm.trans (Function.update_self (Proc.devRef .tc main_v125 : DevRef τ sig) (outs m 10 main_v125 c) (Gen.V9 m (outs m) c)).symm
  · exact ((dat3 _ c).arrAt_in w ((by decide : ∀ w : Fin cfg3.W, w ≠ 3 → (cfg3.win w).isOut = false) w hw) _).trans
      ((A_eq3 _ c w).trans (Gen.V10_of m (outs m) c _ ((by decide : ∀ w : Fin cfg3.W, w ≠ 3 → Pipeline.arrRef spec3 w ∉ ([main_v125] : List (Ref sig .tc))) w hw)).symm)
theorem hrest3 (c : Dev nD) : ∀ b : Ref sig .tc, b ∉ Finset.univ.image (Pipeline.arrRef spec3) → Gen.V10 m (outs m) c b = Gen.V9 m (outs m) c b :=
  fun b hb => Gen.V10_of m (outs m) c b fun h => hb (by
    rcases List.mem_singleton.mp h with rfl
    exact Finset.mem_image.mpr ⟨3, Finset.mem_univ _, rfl⟩)
theorem hF4 (c : Dev nD) (w : Fin cfg4.W) : (dat4 (fun c b => Gen.V11 m (outs m) c b) c).arrAt w cfg4.N = Gen.V12 m (outs m) c (Pipeline.arrRef spec4 w) := by
  by_cases hw : w = 3
  · subst hw; exact (outs_12 m c).symm.trans (Function.update_self (Proc.devRef .tc main_v170 : DevRef τ sig) (outs m 12 main_v170 c) (Gen.V11 m (outs m) c)).symm
  · exact ((dat4 _ c).arrAt_in w ((by decide : ∀ w : Fin cfg4.W, w ≠ 3 → (cfg4.win w).isOut = false) w hw) _).trans
      ((A_eq4 _ c w).trans (Gen.V12_of m (outs m) c _ ((by decide : ∀ w : Fin cfg4.W, w ≠ 3 → Pipeline.arrRef spec4 w ∉ ([main_v170] : List (Ref sig .tc))) w hw)).symm)
theorem hrest4 (c : Dev nD) : ∀ b : Ref sig .tc, b ∉ Finset.univ.image (Pipeline.arrRef spec4) → Gen.V12 m (outs m) c b = Gen.V11 m (outs m) c b :=
  fun b hb => Gen.V12_of m (outs m) c b fun h => hb (by
    rcases List.mem_singleton.mp h with rfl
    exact Finset.mem_image.mpr ⟨3, Finset.mem_univ _, rfl⟩)
theorem hF5 (c : Dev nD) (w : Fin cfg5.W) : (dat5 (fun c b => Gen.V15 m (outs m) c b) c).arrAt w cfg5.N = Gen.V16 m (outs m) c (Pipeline.arrRef spec5 w) := by
  by_cases hw : w = 3
  · subst hw; exact (outs_16 m c).symm.trans (Function.update_self (Proc.devRef .tc main_v236 : DevRef τ sig) (outs m 16 main_v236 c) (Gen.V15 m (outs m) c)).symm
  · exact ((dat5 _ c).arrAt_in w ((by decide : ∀ w : Fin cfg5.W, w ≠ 3 → (cfg5.win w).isOut = false) w hw) _).trans
      ((A_eq5 _ c w).trans (Gen.V16_of m (outs m) c _ ((by decide : ∀ w : Fin cfg5.W, w ≠ 3 → Pipeline.arrRef spec5 w ∉ ([main_v236] : List (Ref sig .tc))) w hw)).symm)
theorem hrest5 (c : Dev nD) : ∀ b : Ref sig .tc, b ∉ Finset.univ.image (Pipeline.arrRef spec5) → Gen.V16 m (outs m) c b = Gen.V15 m (outs m) c b :=
  fun b hb => Gen.V16_of m (outs m) c b fun h => hb (by
    rcases List.mem_singleton.mp h with rfl
    exact Finset.mem_image.mpr ⟨3, Finset.mem_univ _, rfl⟩)
theorem hF6 (c : Dev nD) (w : Fin cfg6.W) : (dat6 (fun c b => Gen.V17 m (outs m) c b) c).arrAt w cfg6.N = Gen.V18 m (outs m) c (Pipeline.arrRef spec6 w) := by
  by_cases hw : w = 3
  · subst hw; exact (outs_18 m c).symm.trans (Function.update_self (Proc.devRef .tc main_v273 : DevRef τ sig) (outs m 18 main_v273 c) (Gen.V17 m (outs m) c)).symm
  · exact ((dat6 _ c).arrAt_in w ((by decide : ∀ w : Fin cfg6.W, w ≠ 3 → (cfg6.win w).isOut = false) w hw) _).trans
      ((A_eq6 _ c w).trans (Gen.V18_of m (outs m) c _ ((by decide : ∀ w : Fin cfg6.W, w ≠ 3 → Pipeline.arrRef spec6 w ∉ ([main_v273] : List (Ref sig .tc))) w hw)).symm)
theorem hrest6 (c : Dev nD) : ∀ b : Ref sig .tc, b ∉ Finset.univ.image (Pipeline.arrRef spec6) → Gen.V18 m (outs m) c b = Gen.V17 m (outs m) c b :=
  fun b hb => Gen.V18_of m (outs m) c b fun h => hb (by
    rcases List.mem_singleton.mp h with rfl
    exact Finset.mem_image.mpr ⟨3, Finset.mem_univ _, rfl⟩)
theorem hF7 (c : Dev nD) (w : Fin cfg7.W) : (dat7 (fun c b => Gen.V19 m (outs m) c b) c).arrAt w cfg7.N = Gen.V20 m (outs m) c (Pipeline.arrRef spec7 w) := by
  by_cases hw : w = 3
  · subst hw; exact (outs_20 m c).symm.trans (Function.update_self (Proc.devRef .tc main_v280 : DevRef τ sig) (outs m 20 main_v280 c) (Gen.V19 m (outs m) c)).symm
  · exact ((dat7 _ c).arrAt_in w ((by decide : ∀ w : Fin cfg7.W, w ≠ 3 → (cfg7.win w).isOut = false) w hw) _).trans
      ((A_eq7 _ c w).trans (Gen.V20_of m (outs m) c _ ((by decide : ∀ w : Fin cfg7.W, w ≠ 3 → Pipeline.arrRef spec7 w ∉ ([main_v280] : List (Ref sig .tc))) w hw)).symm)
theorem hrest7 (c : Dev nD) : ∀ b : Ref sig .tc, b ∉ Finset.univ.image (Pipeline.arrRef spec7) → Gen.V20 m (outs m) c b = Gen.V19 m (outs m) c b :=
  fun b hb => Gen.V20_of m (outs m) c b fun h => hb (by
    rcases List.mem_singleton.mp h with rfl
    exact Finset.mem_image.mpr ⟨3, Finset.mem_univ _, rfl⟩)

theorem seg_entry {Bufs Arr Oth Reg Ow OwAt PH S Lev : sProp 𝕄} (hs : Bufs ⊢ iprop(Arr ∗ Oth)) (hp : (BI.emp : sProp 𝕄) ⊢ PH) (ho : Ow ⊢ OwAt) :
    iprop((Bufs ∗ Reg ∗ Ow) ∗ S ∗ Lev) ⊢ |={Set.univ}=> iprop(Arr ∗ PH ∗ OwAt ∗ Reg ∗ Oth) := by
  iintro ⟨⟨Hb, Hr, Ho⟩, -, -⟩
  ihave Hp := hs $$ Hb
  icases Hp with ⟨Ha, Hot⟩
  imodintro
  isplitl [Ha]; · iexact Ha
  isplitr; · iapply hp; iempintro
  isplitl [Ho]; · iapply ho; iexact Ho
  isplitl [Hr]; · iexact Hr
  iexact Hot

theorem seg_exit {Bufs Arr Oth Reg Ow OwAt : sProp 𝕄} (hj : iprop(Arr ∗ Oth) ⊢ Bufs) (ho : OwAt ⊢ Ow) :
    iprop(Arr ∗ OwAt ∗ Reg ∗ Oth) ⊢ |={Set.univ}=> iprop(Bufs ∗ Reg ∗ Ow) := by
  iintro ⟨Ha, Ho, Hr, Hot⟩
  imodintro
  isplitl [Ha Hot]
  · iapply hj; isplitl [Ha] <;> iassumption
  isplitl [Hr]; · iexact Hr
  iapply ho; iexact Ho

theorem seg_in {X PH Sc : sProp 𝕄} : iprop(X ∗ PH ∗ Sc) ⊢ iprop(Sc ∗ X) := by
  iintro ⟨Hx, -, Hs⟩
  isplitl [Hs]; · iexact Hs
  iexact Hx

theorem seg_out {Y Sc : sProp 𝕄} : iprop(Sc ∗ Y) ⊢ iprop(Y ∗ (BI.emp : sProp 𝕄) ∗ Sc) := by
  iintro ⟨Hs, Hy⟩
  isplitl [Hy]; · iexact Hy
  isplitr; · iempintro
  iexact Hs

theorem owes_in {c : Dev nD} {B : Set (SemLoc sig × Unit)} (hB : ∀ x, x ∈ B) :
    iprop(∃ W, owes (c : Thread nD τ) (0 : CellTallies nD τ sig Unit) W) ⊢ (Pipeline.owesWithin c 0 B : sProp 𝕄) := by
  iintro ⟨%W, H⟩
  iexists W
  isplitr; · ipureintro; exact fun x _ => hB x
  iexact H

theorem owes_out {c : Dev nD} {B : Set (SemLoc sig × Unit)} :
    (Pipeline.owesWithin c 0 B : sProp 𝕄) ⊢ iprop(∃ W, owes (c : Thread nD τ) (0 : CellTallies nD τ sig Unit) W) := by
  iintro ⟨%W, -, H⟩
  iexists W; iexact H

set_option backward.isDefEq.respectTransparency.types false in
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => Gen.V1 m c b) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    have hsplit := Pipeline.arrays_of_unscopedBufs (p := 0) (pcfgs (F := F)) Gen.adm (pdats m) launch0.win launch0.arr_whole c
      ((pdats m 0 c).share_full fun _ => rfl) (fun b => Gen.V1 m c b) (A_eq0 (fun c b => Gen.V1 m c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V1 m c b) (fun b => Gen.V2 m (outs m) c b) ((pdats m 0 c).arrAt · cfg0.N) (hF0 m c) (hrest0 m c)
    rw [Pipeline.unscopedBufs_held] at hjoin
    exact seg_exit hjoin owes_out

set_option backward.isDefEq.respectTransparency.types false in
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => Gen.V5 m (outs m) c b) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V5 m (outs m) c b)
  hentry c := by
    have hsplit := Pipeline.arrays_of_unscopedBufs (p := 1) (pcfgs (F := F)) Gen.adm (pdats m) launch1.win launch1.arr_whole c
      ((pdats m 1 c).share_full fun _ => rfl) (fun b => Gen.V5 m (outs m) c b) (A_eq1 (fun c b => Gen.V5 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V5 m (outs m) c b) (fun b => Gen.V6 m (outs m) c b) ((pdats m 1 c).arrAt · cfg1.N) (hF1 m c) (hrest1 m c)
    rw [Pipeline.unscopedBufs_held] at hjoin
    exact seg_exit hjoin owes_out

set_option backward.isDefEq.respectTransparency.types false in
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => Gen.V7 m (outs m) c b) c).loose
  hwaits := Pipeline.hwaits_of_owed_zero _ _ _ _ L lv 2 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V7 m (outs m) c b)
  hentry c := by
    have hsplit := Pipeline.arrays_of_unscopedBufs (p := 2) (pcfgs (F := F)) Gen.adm (pdats m) launch2.win launch2.arr_whole c
      ((pdats m 2 c).share_full fun _ => rfl) (fun b => Gen.V7 m (outs m) c b) (A_eq2 (fun c b => Gen.V7 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b => Gen.V7 m (outs m) c b) (fun b => Gen.V8 m (outs m) c b) ((pdats m 2 c).arrAt · cfg2.N) (hF2 m c) (hrest2 m c)
    rw [Pipeline.unscopedBufs_held] at hjoin
    exact seg_exit hjoin owes_out

set_option backward.isDefEq.respectTransparency.types false in
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => Gen.V9 m (outs m) c b) c).loose
  hwaits := Pipeline.hwaits_of_owed_zero _ _ _ _ L lv 3 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => Gen.V9 m (outs m) c b)
  hentry c := by
    have hsplit := Pipeline.arrays_of_unscopedBufs (p := 3) (pcfgs (F := F)) Gen.adm (pdats m) launch3.win launch3.arr_whole c
      ((pdats m 3 c).share_full fun _ => rfl) (fun b => Gen.V9 m (outs m) c b) (A_eq3 (fun c b => Gen.V9 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (fun b => Gen.V9 m (outs m) c b) (fun b => Gen.V10 m (outs m) c b) ((pdats m 3 c).arrAt · cfg3.N) (hF3 m c) (hrest3 m c)
    rw [Pipeline.unscopedBufs_held] at hjoin
    exact seg_exit hjoin owes_out

set_option backward.isDefEq.respectTransparency.types false in
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => Gen.V11 m (outs m) c b) c).loose
  hwaits := Pipeline.hwaits_of_owed_zero _ _ _ _ L lv 4 fun _ _ => rfl
  pre c := iprop(StableHlo.held (c : Thread nD τ) (Pipeline.ucRefs τ sig) (Gen.V11 m (outs m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => Gen.V11 m (outs m) c b)
  hentry c := by
    have hsplit := Pipeline.arrays_of_unscopedBufs (p := 4) (pcfgs (F := F)) Gen.adm (pdats m) launch4.win launch4.arr_whole c
      ((pdats m 4 c).share_full fun _ => rfl) (fun b => Gen.V11 m (outs m) c b) (A_eq4 (fun c b => Gen.V11 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (fun b => Gen.V11 m (outs m) c b) (fun b => Gen.V12 m (outs m) c b) ((pdats m 4 c).arrAt · cfg4.N) (hF4 m c) (hrest4 m c)
    rw [Pipeline.unscopedBufs_held] at hjoin
    exact seg_exit hjoin owes_out

set_option backward.isDefEq.respectTransparency.types false in
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun c b => Gen.V15 m (outs m) c b) c).loose
  hwaits := Pipeline.hwaits_of_owed_zero _ _ _ _ L lv 5 fun _ _ => rfl
  pre c := iprop(StableHlo.held (c : Thread nD τ) (Pipeline.ucRefs τ sig) (Gen.V15 m (outs m) c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => Gen.V15 m (outs m) c b)
  hentry c := by
    have hsplit := Pipeline.arrays_of_unscopedBufs (p := 5) (pcfgs (F := F)) Gen.adm (pdats m) launch5.win launch5.arr_whole c
      ((pdats m 5 c).share_full fun _ => rfl) (fun b => Gen.V15 m (outs m) c b) (A_eq5 (fun c b => Gen.V15 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (fun b => Gen.V15 m (outs m) c b) (fun b => Gen.V16 m (outs m) c b) ((pdats m 5 c).arrAt · cfg5.N) (hF5 m c) (hrest5 m c)
    rw [Pipeline.unscopedBufs_held] at hjoin
    exact seg_exit hjoin owes_out

set_option backward.isDefEq.respectTransparency.types false in
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (fun c b => Gen.V17 m (outs m) c b) c).loose
  hwaits := Pipeline.hwaits_of_owed_zero _ _ _ _ L lv 6 fun _ _ => rfl
  pre c := iprop(StableHlo.held (c : Thread nD τ) (Pipeline.ucRefs τ sig) (Gen.V17 m (outs m) c) ∗ R c)
  post c := iprop(StableHlo.held (c : Thread nD τ) (Pipeline.ucRefs τ sig) (Gen.V18 m (outs m) c) ∗ R c)
  X c := iprop(∃ r, prngReg c r)
  Y c := iprop(∃ r, prngReg c r)
  Z c := Pipeline.unscopedRest (Ix := Unit) (Name := ℕ) (U := UR sig nD τ) (Lvl := ℕ) spec6 c (fun b => Gen.V17 m (outs m) c b)
  hentry c := by
    have hsplit := Pipeline.arrays_of_unscopedBufs (p := 6) (pcfgs (F := F)) Gen.adm (pdats m) launch6.win launch6.arr_whole c
      ((pdats m 6 c).share_full fun _ => rfl) (fun b => Gen.V17 m (outs m) c b) (A_eq6 (fun c b => Gen.V17 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (fun b => Gen.V17 m (outs m) c b) (fun b => Gen.V18 m (outs m) c b) ((pdats m 6 c).arrAt · cfg6.N) (hF6 m c) (hrest6 m c)
    rw [Pipeline.unscopedBufs_held] at hjoin
    exact seg_exit hjoin owes_out

set_option backward.isDefEq.respectTransparency.types false in
def reg7 : Pipeline.RegionSeg (pcfgs (F := F)) Gen.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (fun c b => Gen.V19 m (outs m) c b) c).loose
  hwaits := Pipeline.hwaits_of_owed_zero _ _ _ _ L lv 7 fun _ _ => rfl
  pre c := iprop(StableHlo.held (c : Thread nD τ) (Pipeline.ucRefs τ sig) (Gen.V19 m (outs m) c) ∗ R c)
  post c := iprop(StableHlo.held (c : Thread nD τ) (Pipeline.ucRefs τ sig) (Gen.V20 m (outs m) c) ∗ R c)
  X c := iprop(∃ r, prngReg c r)
  Y c := iprop(∃ r, prngReg c r)
  Z c := Pipeline.unscopedRest (Ix := Unit) (Name := ℕ) (U := UR sig nD τ) (Lvl := ℕ) spec7 c (fun b => Gen.V19 m (outs m) c b)
  hentry c := by
    have hsplit := Pipeline.arrays_of_unscopedBufs (p := 7) (pcfgs (F := F)) Gen.adm (pdats m) launch7.win launch7.arr_whole c
      ((pdats m 7 c).share_full fun _ => rfl) (fun b => Gen.V19 m (outs m) c b) (A_eq7 (fun c b => Gen.V19 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (fun b => Gen.V19 m (outs m) c b) (fun b => Gen.V20 m (outs m) c b) ((pdats m 7 c).arrAt · cfg7.N) (hF7 m c) (hrest7 m c)
    rw [Pipeline.unscopedBufs_held] at hjoin
    exact seg_exit hjoin owes_out

theorem launch_elem : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  rw [BI.bigSep_emp_const]

  have hown : (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) := .rfl
  iintro Hown
  imodintro
  isplitl [Hown]
  · iapply hown; iexact Hown
  iempintro

theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) :=
  Pipeline.initEach L lv fun c => by
    iintro ⟨⟨-, Howes, -, Hreg, -⟩, -⟩
    imodintro
    isplitl [Hreg]
    · iexists (ρ c); iexact Hreg
    iexists ∅; iexact Howes

theorem rest_owes (c : Dev nD) : R (F := F) c ⊢ (iprop(∃ W, owes (c : Thread nD τ) (0 : CellTallies nD τ sig Unit) W) : sProp 𝕄) := by
  iintro ⟨-, Howes⟩
  iexact Howes

set_option backward.isDefEq.respectTransparency.types false in
theorem run (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V21 m (outs m) c b) :=
  run_cond m emb₁ () 𝒱₀ L lv (fun _ _ => rfl) ρ (outs m) (pdats m) 0 (fun _ => BI.emp) (initOf (Pipeline.cells cfgs cellOf_inj) (Pipeline.launchToks cfgs cellOf_inj)) launch_elem
    (fun _ c => R c) (launch_rest ρ) rest_owes
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18]

theorem run_kept (ρ : Dev nD → PrngReg) : θ_run defs (onTc (τ := τ) (main (F := F))) ⟨m, fun _ => 0, ρ⟩ (fun r => ∀ c : Dev nD,
      r.2.mem ((c.tc : Thread nD τ).loc main_v309) = Gen.V21 m (outs m) c main_v309
      ∧ ∀ b ∈ argRefs, r.2.mem ((c.tc : Thread nD τ).loc b) = m ((c.tc : Thread nD τ).loc b)) :=
  (θ_run defs (onTc (τ := τ) (main (F := F))) ⟨m, fun _ => 0, ρ⟩).mono (fun r h c =>
    ⟨h c (Proc.devRef .tc main_v309) (Finset.mem_filter.mpr ⟨StableHlo.devRef_mem_tcRefs main_v309, by decide⟩), fun b hb => by
      simp only [argRefs, List.mem_cons, List.mem_nil_iff, or_false] at hb
      rcases hb with rfl | rfl | rfl | rfl | rfl | rfl | rfl | rfl | rfl | rfl | rfl | rfl | rfl | rfl | rfl | rfl | rfl | rfl | rfl
      all_goals refine (h c (Proc.devRef .tc _) (Finset.mem_filter.mpr ⟨StableHlo.devRef_mem_tcRefs _, by decide⟩)).trans ?_
      exacts [Gen.V21_main_arg0 m (outs m) c, Gen.V21_main_arg1 m (outs m) c, Gen.V21_main_arg2 m (outs m) c, Gen.V21_main_arg3 m (outs m) c, Gen.V21_main_arg4 m (outs m) c, Gen.V21_main_arg5 m (outs m) c, Gen.V21_main_arg6 m (outs m) c, Gen.V21_main_arg7 m (outs m) c, Gen.V21_main_arg8 m (outs m) c, Gen.V21_main_arg9 m (outs m) c, Gen.V21_main_arg10 m (outs m) c, Gen.V21_main_arg11 m (outs m) c, Gen.V21_main_arg12 m (outs m) c, Gen.V21_main_arg13 m (outs m) c, Gen.V21_main_arg14 m (outs m) c, Gen.V21_main_arg15 m (outs m) c, Gen.V21_main_arg16 m (outs m) c, Gen.V21_main_arg17 m (outs m) c, Gen.V21_main_arg18 m (outs m) c]⟩) (run m ρ)

end Cert.Kernel.Hand

end
-- ==== Proof.KI.RunCond.lean ====
import proofs.«130450_j89593017795077_1_alg».proof.Proof.Gen.KernelIdeal.Regions

set_option maxRecDepth 2268

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c)) :
    θ_run defs (onTc (τ := τ) (main (F := F))) ⟨m, fun _ => 0, ρ⟩ (fun r => ∀ c : Dev nD, ∀ b ∈ Pipeline.ucRefs τ sig,
      r.2.mem ((c : Thread nD τ).1, b) = Gen.V21 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V21 m outs c))
    (hch := fun c => ⟨.rfl, hpre0 c, hpost0 c, .rfl, .rfl, hpre1 c, hpost1 c, hpre2 c, hpost2 c, hpre3 c, hpost3 c, hpre4 c, hpost4 c, .rfl, .rfl, hpre5 c, hpost5 c, hpre6 c, hpost6 c, hpre7 c, hpost7 c, sep_mono .rfl (hE8 c)⟩)
    (hinit := ?_) (QY := fun c s => ∀ b ∈ Pipeline.ucRefs τ sig, s.mem ((c : Thread nD τ).1, b) = Gen.V21 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => ((c : Thread nD τ).1, b)) (Gen.V21 m outs c) s')
    isplitl [Hh] <;> iassumption

end Cert.KernelIdeal.Hand

end
-- ==== Proof.KI.Reg0.lean ====
import proofs.«130450_j89593017795077_1_alg».proof.Proof.Gen.KernelIdeal.Launch
import proofs.«130450_j89593017795077_1_alg».proof.Proof.Gen.KernelIdeal.Skeleton
import proofs.«130450_j89593017795077_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S800x512 := Rect.unit (s := S800x512) ![0, 0] S800x512.size inb_S800x512_S800x512_0_0
abbrev r0_1 : Rect S512x1536 := Rect.unit (s := S512x1536) ![0, 0] S512x1536.size inb_S512x1536_S512x1536_0_0
abbrev r0_2 : Rect S1x1536 := Rect.unit (s := S1x1536) ![0, 0] S1x1536.size inb_S1x1536_S1x1536_0_0
abbrev r0_3 : Rect S800x1536 := Rect.unit (s := S800x1536) ![0, 0] S800x1536.size inb_S800x1536_S800x1536_0_0

def out0_3 (x0 : Vec F S800x512 .bf16) (x1 : Vec F S512x1536 .bf16) (x2 : Vec F S1x1536 .f32) : Vec F S800x1536 .f32 :=
  View.canon [⟨r0_3, k0_pay1 (View.ld x0 r0_0) (View.ld x1 r0_1) (View.ld x2 r0_2)⟩]

set_option maxHeartbeats 1000000 in
/-- The body reads its three inputs whole and stores once over the whole output, so it leaves `out0_3` of the inputs and touches nothing else. -/
theorem sound_kernel0 {D0 D1 D2 D3 : Type} (c : Dev nD) (i : grid0.Coords)
    (arg1 : Memref sig .tc .vmem S800x512 .bf16) (harg1 : arg1.IsWhole) (arg2 : Memref sig .tc .vmem S512x1536 .bf16) (harg2 : arg2.IsWhole)
    (arg3 : Memref sig .tc .vmem S1x1536 .f32) (harg3 : arg3.IsWhole) (arg4 : Memref sig .tc .vmem S800x1536 .f32) (harg4 : arg4.IsWhole)
    (x0 : Vec F S800x512 .bf16) (x1 : Vec F S512x1536 .bf16) (x2 : Vec F S1x1536 .f32) (g : D3 → Vec F S800x1536 .f32) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc0__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out0_3 x0 x1 x2)) := by
  simp only [cc0__lambda__eq_skeleton]; unfold cc0__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x1536.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => by unfold Dat.blockOf; rw [A_eq0]; rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun _ => by unfold Dat.blockOf; rw [A_eq0]; rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun _ => by unfold Dat.blockOf; rw [A_eq0]; rfl) t d).trans
    (by unfold Dat.fetched Dat.blockOf iblk0; rw [A_eq0]; try rfl)

theorem body_obligation0 (c : Dev nD) : BodyObligation (dat0 (F := F) V c) (defs₀ (F := F)) Variants.none () Set.univ := fun t => by
  rw [bigSep_W0, bigSep_W0]
  simp only [before0_0, before0_1, before0_2]
  rw [after0_0, after0_1, after0_2, after0_3, show (dat0 V c).Φ t.succ = (dat0 V c).Φ t.castSucc from rfl,
    show (dat0 V c).owesAt () t.succ = (dat0 V c).owesAt () t.castSucc from rfl]
  show _ ⊢ wp _ _ _ (bodyAt0 t) _
  exact sound_kernel0 c _ _ _ _ _ _ _ _ _ _ _ _ _ _ _

end Region0

end Cert.KernelIdeal.Hand
-- ==== Proof.KI.Reg1.lean ====
import proofs.«130450_j89593017795077_1_alg».proof.Proof.Gen.KernelIdeal.Launch
import proofs.«130450_j89593017795077_1_alg».proof.Proof.Gen.KernelIdeal.Skeleton
import proofs.«130450_j89593017795077_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S800x512 := Rect.unit (s := S800x512) ![0, 0] S800x512.size inb_S800x512_S800x512_0_0
abbrev r1_1 : Rect S512x512 := Rect.unit (s := S512x512) ![0, 0] S512x512.size inb_S512x512_S512x512_0_0
abbrev r1_2 : Rect S1x512 := Rect.unit (s := S1x512) ![0, 0] S1x512.size inb_S1x512_S1x512_0_0
abbrev r1_3 : Rect S800x512 := Rect.unit (s := S800x512) ![0, 0] S800x512.size inb_S800x512_S800x512_0_0

def out1_3 (x0 : Vec F S800x512 .bf16) (x1 : Vec F S512x512 .bf16) (x2 : Vec F S1x512 .f32) : Vec F S800x512 .f32 :=
  View.canon [⟨r1_3, k1_pay1 (View.ld x0 r1_0) (View.ld x1 r1_1) (View.ld x2 r1_2)⟩]

set_option maxHeartbeats 1000000 in
/-- The body reads its three inputs whole and stores once over the whole output, so it leaves `out1_3` of the inputs and touches nothing else. -/
theorem sound_kernel1 {D0 D1 D2 D3 : Type} (c : Dev nD) (i : grid1.Coords)
    (arg1 : Memref sig .tc .vmem S800x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S800x512 .f32) (harg4 : arg4.IsWhole)
    (x0 : Vec F S800x512 .bf16) (x1 : Vec F S512x512 .bf16) (x2 : Vec F S1x512 .f32) (g : D3 → Vec F S800x512 .f32) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc1__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out1_3 x0 x1 x2)) := by
  simp only [cc1__lambda__eq_skeleton]; unfold cc1__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x512.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => by unfold Dat.blockOf; rw [A_eq1]; rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun _ => by unfold Dat.blockOf; rw [A_eq1]; rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun _ => by unfold Dat.blockOf; rw [A_eq1]; rfl) t d).trans
    (by unfold Dat.fetched Dat.blockOf iblk1; rw [A_eq1]; try rfl)

theorem body_obligation1 (c : Dev nD) : BodyObligation (dat1 (F := F) V c) (defs₀ (F := F)) Variants.none () Set.univ := fun t => by
  rw [bigSep_W1, bigSep_W1]
  simp only [before1_0, before1_1, before1_2]
  rw [after1_0, after1_1, after1_2, after1_3, show (dat1 V c).Φ t.succ = (dat1 V c).Φ t.castSucc from rfl,
    show (dat1 V c).owesAt () t.succ = (dat1 V c).owesAt () t.castSucc from rfl]
  show _ ⊢ wp _ _ _ (bodyAt1 t) _
  exact sound_kernel1 c _ _ _ _ _ _ _ _ _ _ _ _ _ _ _

end Region1

end Cert.KernelIdeal.Hand
-- ==== Proof.KI.Reg2.lean ====
import proofs.«130450_j89593017795077_1_alg».proof.Proof.Gen.KernelIdeal.Launch
import proofs.«130450_j89593017795077_1_alg».proof.Proof.Gen.KernelIdeal.Skeleton
import proofs.«130450_j89593017795077_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S800x512 := Rect.unit (s := S800x512) ![0, 0] S800x512.size inb_S800x512_S800x512_0_0
abbrev r2_1 : Rect S512x2048 := Rect.unit (s := S512x2048) ![0, 0] S512x2048.size inb_S512x2048_S512x2048_0_0
abbrev r2_2 : Rect S1x2048 := Rect.unit (s := S1x2048) ![0, 0] S1x2048.size inb_S1x2048_S1x2048_0_0
abbrev r2_3 : Rect S800x2048 := Rect.unit (s := S800x2048) ![0, 0] S800x2048.size inb_S800x2048_S800x2048_0_0

def out2_3 (x0 : Vec F S800x512 .bf16) (x1 : Vec F S512x2048 .bf16) (x2 : Vec F S1x2048 .f32) : Vec F S800x2048 .bf16 :=
  View.canon [⟨r2_3, k2_pay1 (View.ld x0 r2_0) (View.ld x1 r2_1) (View.ld x2 r2_2)⟩]

set_option maxHeartbeats 1000000 in
/-- The body reads its three inputs whole and stores once over the whole output, so it leaves `out2_3` of the inputs and touches nothing else. -/
theorem sound_kernel2 {D0 D1 D2 D3 : Type} (c : Dev nD) (i : grid2.Coords)
    (arg1 : Memref sig .tc .vmem S800x512 .bf16) (harg1 : arg1.IsWhole) (arg2 : Memref sig .tc .vmem S512x2048 .bf16) (harg2 : arg2.IsWhole)
    (arg3 : Memref sig .tc .vmem S1x2048 .f32) (harg3 : arg3.IsWhole) (arg4 : Memref sig .tc .vmem S800x2048 .bf16) (harg4 : arg4.IsWhole)
    (x0 : Vec F S800x512 .bf16) (x1 : Vec F S512x2048 .bf16) (x2 : Vec F S1x2048 .f32) (g : D3 → Vec F S800x2048 .bf16) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc2__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out2_3 x0 x1 x2)) := by
  simp only [cc2__lambda__eq_skeleton]; unfold cc2__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x2048.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => by unfold Dat.blockOf; rw [A_eq2]; rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun _ => by unfold Dat.blockOf; rw [A_eq2]; rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun _ => by unfold Dat.blockOf; rw [A_eq2]; rfl) t d).trans
    (by unfold Dat.fetched Dat.blockOf iblk2; rw [A_eq2]; try rfl)

theorem body_obligation2 (c : Dev nD) : BodyObligation (dat2 (F := F) V c) (defs₀ (F := F)) Variants.none () Set.univ := fun t => by
  rw [bigSep_W2, bigSep_W2]
  simp only [before2_0, before2_1, before2_2]
  rw [after2_0, after2_1, after2_2, after2_3, show (dat2 V c).Φ t.succ = (dat2 V c).Φ t.castSucc from rfl,
    show (dat2 V c).owesAt () t.succ = (dat2 V c).owesAt () t.castSucc from rfl]
  show _ ⊢ wp _ _ _ (bodyAt2 t) _
  exact sound_kernel2 c _ _ _ _ _ _ _ _ _ _ _ _ _ _ _

end Region2

end Cert.KernelIdeal.Hand
-- ==== Proof.KI.Reg3.lean ====
import proofs.«130450_j89593017795077_1_alg».proof.Proof.Gen.KernelIdeal.Launch
import proofs.«130450_j89593017795077_1_alg».proof.Proof.Gen.KernelIdeal.Skeleton
import proofs.«130450_j89593017795077_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S800x2048 := Rect.unit (s := S800x2048) ![0, 0] S800x2048.size inb_S800x2048_S800x2048_0_0
abbrev r3_1 : Rect S2048x512 := Rect.unit (s := S2048x512) ![0, 0] S2048x512.size inb_S2048x512_S2048x512_0_0
abbrev r3_2 : Rect S1x512 := Rect.unit (s := S1x512) ![0, 0] S1x512.size inb_S1x512_S1x512_0_0
abbrev r3_3 : Rect S800x512 := Rect.unit (s := S800x512) ![0, 0] S800x512.size inb_S800x512_S800x512_0_0

def out3_3 (x0 : Vec F S800x2048 .bf16) (x1 : Vec F S2048x512 .bf16) (x2 : Vec F S1x512 .f32) : Vec F S800x512 .f32 :=
  View.canon [⟨r3_3, k3_pay1 (View.ld x0 r3_0) (View.ld x1 r3_1) (View.ld x2 r3_2)⟩]

set_option maxHeartbeats 1000000 in
/-- The body reads its three inputs whole and stores once over the whole output, so it leaves `out3_3` of the inputs and touches nothing else. -/
theorem sound_kernel3 {D0 D1 D2 D3 : Type} (c : Dev nD) (i : grid3.Coords)
    (arg1 : Memref sig .tc .vmem S800x2048 .bf16) (harg1 : arg1.IsWhole) (arg2 : Memref sig .tc .vmem S2048x512 .bf16) (harg2 : arg2.IsWhole)
    (arg3 : Memref sig .tc .vmem S1x512 .f32) (harg3 : arg3.IsWhole) (arg4 : Memref sig .tc .vmem S800x512 .f32) (harg4 : arg4.IsWhole)
    (x0 : Vec F S800x2048 .bf16) (x1 : Vec F S2048x512 .bf16) (x2 : Vec F S1x512 .f32) (g : D3 → Vec F S800x512 .f32) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc3__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out3_3 x0 x1 x2)) := by
  simp only [cc3__lambda__eq_skeleton]; unfold cc3__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x512.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => by unfold Dat.blockOf; rw [A_eq3]; rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun _ => by unfold Dat.blockOf; rw [A_eq3]; rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun _ => by unfold Dat.blockOf; rw [A_eq3]; rfl) t d).trans
    (by unfold Dat.fetched Dat.blockOf iblk3; rw [A_eq3]; try rfl)

theorem body_obligation3 (c : Dev nD) : BodyObligation (dat3 (F := F) V c) (defs₀ (F := F)) Variants.none () Set.univ := fun t => by
  rw [bigSep_W3, bigSep_W3]
  simp only [before3_0, before3_1, before3_2]
  rw [after3_0, after3_1, after3_2, after3_3, show (dat3 V c).Φ t.succ = (dat3 V c).Φ t.castSucc from rfl,
    show (dat3 V c).owesAt () t.succ = (dat3 V c).owesAt () t.castSucc from rfl]
  show _ ⊢ wp _ _ _ (bodyAt3 t) _
  exact sound_kernel3 c _ _ _ _ _ _ _ _ _ _ _ _ _ _ _

end Region3

end Cert.KernelIdeal.Hand
-- ==== Proof.KI.Reg4.lean ====
import proofs.«130450_j89593017795077_1_alg».proof.Proof.Gen.KernelIdeal.Launch
import proofs.«130450_j89593017795077_1_alg».proof.Proof.Gen.KernelIdeal.Skeleton
import proofs.«130450_j89593017795077_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S800x512 := Rect.unit (s := S800x512) ![0, 0] S800x512.size inb_S800x512_S800x512_0_0
abbrev r4_1 : Rect S512x1536 := Rect.unit (s := S512x1536) ![0, 0] S512x1536.size inb_S512x1536_S512x1536_0_0
abbrev r4_2 : Rect S1x1536 := Rect.unit (s := S1x1536) ![0, 0] S1x1536.size inb_S1x1536_S1x1536_0_0
abbrev r4_3 : Rect S800x1536 := Rect.unit (s := S800x1536) ![0, 0] S800x1536.size inb_S800x1536_S800x1536_0_0

def out4_3 (x0 : Vec F S800x512 .bf16) (x1 : Vec F S512x1536 .bf16) (x2 : Vec F S1x1536 .f32) : Vec F S800x1536 .f32 :=
  View.canon [⟨r4_3, k4_pay1 (View.ld x0 r4_0) (View.ld x1 r4_1) (View.ld x2 r4_2)⟩]

set_option maxHeartbeats 1000000 in
/-- The body reads its three inputs whole and stores once over the whole output, so it leaves `out4_3` of the inputs and touches nothing else. -/
theorem sound_kernel4 {D0 D1 D2 D3 : Type} (c : Dev nD) (i : grid4.Coords)
    (arg1 : Memref sig .tc .vmem S800x512 .bf16) (harg1 : arg1.IsWhole) (arg2 : Memref sig .tc .vmem S512x1536 .bf16) (harg2 : arg2.IsWhole)
    (arg3 : Memref sig .tc .vmem S1x1536 .f32) (harg3 : arg3.IsWhole) (arg4 : Memref sig .tc .vmem S800x1536 .f32) (harg4 : arg4.IsWhole)
    (x0 : Vec F S800x512 .bf16) (x1 : Vec F S512x1536 .bf16) (x2 : Vec F S1x1536 .f32) (g : D3 → Vec F S800x1536 .f32) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc4__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out4_3 x0 x1 x2)) := by
  simp only [cc4__lambda__eq_skeleton]; unfold cc4__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x1536.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => by unfold Dat.blockOf; rw [A_eq4]; rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun _ => by unfold Dat.blockOf; rw [A_eq4]; rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun _ => by unfold Dat.blockOf; rw [A_eq4]; rfl) t d).trans
    (by unfold Dat.fetched Dat.blockOf iblk4; rw [A_eq4]; try rfl)

theorem body_obligation4 (c : Dev nD) : BodyObligation (dat4 (F := F) V c) (defs₀ (F := F)) Variants.none () Set.univ := fun t => by
  rw [bigSep_W4, bigSep_W4]
  simp only [before4_0, before4_1, before4_2]
  rw [after4_0, after4_1, after4_2, after4_3, show (dat4 V c).Φ t.succ = (dat4 V c).Φ t.castSucc from rfl,
    show (dat4 V c).owesAt () t.succ = (dat4 V c).owesAt () t.castSucc from rfl]
  show _ ⊢ wp _ _ _ (bodyAt4 t) _
  exact sound_kernel4 c _ _ _ _ _ _ _ _ _ _ _ _ _ _ _

end Region4

end Cert.KernelIdeal.Hand
-- ==== Proof.KI.Reg5.lean ====
import proofs.«130450_j89593017795077_1_alg».proof.Proof.Gen.KernelIdeal.Launch
import proofs.«130450_j89593017795077_1_alg».proof.Proof.Gen.KernelIdeal.Skeleton
import proofs.«130450_j89593017795077_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S800x512 := Rect.unit (s := S800x512) ![0, 0] S800x512.size inb_S800x512_S800x512_0_0
abbrev r5_1 : Rect S512x512 := Rect.unit (s := S512x512) ![0, 0] S512x512.size inb_S512x512_S512x512_0_0
abbrev r5_2 : Rect S1x512 := Rect.unit (s := S1x512) ![0, 0] S1x512.size inb_S1x512_S1x512_0_0
abbrev r5_3 : Rect S800x512 := Rect.unit (s := S800x512) ![0, 0] S800x512.size inb_S800x512_S800x512_0_0

def out5_3 (x0 : Vec F S800x512 .bf16) (x1 : Vec F S512x512 .bf16) (x2 : Vec F S1x512 .f32) : Vec F S800x512 .f32 :=
  View.canon [⟨r5_3, k5_pay1 (View.ld x0 r5_0) (View.ld x1 r5_1) (View.ld x2 r5_2)⟩]

set_option maxHeartbeats 1000000 in
/-- The body reads its three inputs whole and stores once over the whole output, so it leaves `out5_3` of the inputs and touches nothing else. -/
theorem sound_kernel5 {D0 D1 D2 D3 : Type} (c : Dev nD) (i : grid5.Coords)
    (arg1 : Memref sig .tc .vmem S800x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S800x512 .f32) (harg4 : arg4.IsWhole)
    (x0 : Vec F S800x512 .bf16) (x1 : Vec F S512x512 .bf16) (x2 : Vec F S1x512 .f32) (g : D3 → Vec F S800x512 .f32) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc5__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out5_3 x0 x1 x2)) := by
  simp only [cc5__lambda__eq_skeleton]; unfold cc5__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x512.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => by unfold Dat.blockOf; rw [A_eq5]; rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun _ => by unfold Dat.blockOf; rw [A_eq5]; rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun _ => by unfold Dat.blockOf; rw [A_eq5]; rfl) t d).trans
    (by unfold Dat.fetched Dat.blockOf iblk5; rw [A_eq5]; try rfl)

theorem body_obligation5 (c : Dev nD) : BodyObligation (dat5 (F := F) V c) (defs₀ (F := F)) Variants.none () Set.univ := fun t => by
  rw [bigSep_W5, bigSep_W5]
  simp only [before5_0, before5_1, before5_2]
  rw [after5_0, after5_1, after5_2, after5_3, show (dat5 V c).Φ t.succ = (dat5 V c).Φ t.castSucc from rfl,
    show (dat5 V c).owesAt () t.succ = (dat5 V c).owesAt () t.castSucc from rfl]
  show _ ⊢ wp _ _ _ (bodyAt5 t) _
  exact sound_kernel5 c _ _ _ _ _ _ _ _ _ _ _ _ _ _ _

end Region5

end Cert.KernelIdeal.Hand
-- ==== Proof.KI.Reg6.lean ====
import proofs.«130450_j89593017795077_1_alg».proof.Proof.Gen.KernelIdeal.Launch
import proofs.«130450_j89593017795077_1_alg».proof.Proof.Gen.KernelIdeal.Skeleton
import proofs.«130450_j89593017795077_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S800x512 := Rect.unit (s := S800x512) ![0, 0] S800x512.size inb_S800x512_S800x512_0_0
abbrev r6_1 : Rect S512x2048 := Rect.unit (s := S512x2048) ![0, 0] S512x2048.size inb_S512x2048_S512x2048_0_0
abbrev r6_2 : Rect S1x2048 := Rect.unit (s := S1x2048) ![0, 0] S1x2048.size inb_S1x2048_S1x2048_0_0
abbrev r6_3 : Rect S800x2048 := Rect.unit (s := S800x2048) ![0, 0] S800x2048.size inb_S800x2048_S800x2048_0_0

def out6_3 (x0 : Vec F S800x512 .bf16) (x1 : Vec F S512x2048 .bf16) (x2 : Vec F S1x2048 .f32) : Vec F S800x2048 .bf16 :=
  View.canon [⟨r6_3, k6_pay1 (View.ld x0 r6_0) (View.ld x1 r6_1) (View.ld x2 r6_2)⟩]

set_option maxHeartbeats 1000000 in
/-- The body reads its three inputs whole and stores once over the whole output, so it leaves `out6_3` of the inputs and touches nothing else. -/
theorem sound_kernel6 {D0 D1 D2 D3 : Type} (c : Dev nD) (i : grid6.Coords)
    (arg1 : Memref sig .tc .vmem S800x512 .bf16) (harg1 : arg1.IsWhole) (arg2 : Memref sig .tc .vmem S512x2048 .bf16) (harg2 : arg2.IsWhole)
    (arg3 : Memref sig .tc .vmem S1x2048 .f32) (harg3 : arg3.IsWhole) (arg4 : Memref sig .tc .vmem S800x2048 .bf16) (harg4 : arg4.IsWhole)
    (x0 : Vec F S800x512 .bf16) (x1 : Vec F S512x2048 .bf16) (x2 : Vec F S1x2048 .f32) (g : D3 → Vec F S800x2048 .bf16) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc6__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out6_3 x0 x1 x2)) := by
  simp only [cc6__lambda__eq_skeleton]; unfold cc6__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x2048.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => by unfold Dat.blockOf; rw [A_eq6]; rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun _ => by unfold Dat.blockOf; rw [A_eq6]; rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun _ => by unfold Dat.blockOf; rw [A_eq6]; rfl) t d).trans
    (by unfold Dat.fetched Dat.blockOf iblk6; rw [A_eq6]; try rfl)

theorem body_obligation6 (c : Dev nD) : BodyObligation (dat6 (F := F) V c) (defs₀ (F := F)) Variants.none () Set.univ := fun t => by
  rw [bigSep_W6, bigSep_W6]
  simp only [before6_0, before6_1, before6_2]
  rw [after6_0, after6_1, after6_2, after6_3, show (dat6 V c).Φ t.succ = (dat6 V c).Φ t.castSucc from rfl,
    show (dat6 V c).owesAt () t.succ = (dat6 V c).owesAt () t.castSucc from rfl]
  show _ ⊢ wp _ _ _ (bodyAt6 t) _
  exact sound_kernel6 c _ _ _ _ _ _ _ _ _ _ _ _ _ _ _

end Region6

end Cert.KernelIdeal.Hand
-- ==== Proof.KI.Reg7.lean ====
import proofs.«130450_j89593017795077_1_alg».proof.Proof.Gen.KernelIdeal.Launch
import proofs.«130450_j89593017795077_1_alg».proof.Proof.Gen.KernelIdeal.Skeleton
import proofs.«130450_j89593017795077_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S800x2048 := Rect.unit (s := S800x2048) ![0, 0] S800x2048.size inb_S800x2048_S800x2048_0_0
abbrev r7_1 : Rect S2048x512 := Rect.unit (s := S2048x512) ![0, 0] S2048x512.size inb_S2048x512_S2048x512_0_0
abbrev r7_2 : Rect S1x512 := Rect.unit (s := S1x512) ![0, 0] S1x512.size inb_S1x512_S1x512_0_0
abbrev r7_3 : Rect S800x512 := Rect.unit (s := S800x512) ![0, 0] S800x512.size inb_S800x512_S800x512_0_0

def out7_3 (x0 : Vec F S800x2048 .bf16) (x1 : Vec F S2048x512 .bf16) (x2 : Vec F S1x512 .f32) : Vec F S800x512 .f32 :=
  View.canon [⟨r7_3, k7_pay1 (View.ld x0 r7_0) (View.ld x1 r7_1) (View.ld x2 r7_2)⟩]

set_option maxHeartbeats 1000000 in
/-- The body reads its three inputs whole and stores once over the whole output, so it leaves `out7_3` of the inputs and touches nothing else. -/
theorem sound_kernel7 {D0 D1 D2 D3 : Type} (c : Dev nD) (i : grid7.Coords)
    (arg1 : Memref sig .tc .vmem S800x2048 .bf16) (harg1 : arg1.IsWhole) (arg2 : Memref sig .tc .vmem S2048x512 .bf16) (harg2 : arg2.IsWhole)
    (arg3 : Memref sig .tc .vmem S1x512 .f32) (harg3 : arg3.IsWhole) (arg4 : Memref sig .tc .vmem S800x512 .f32) (harg4 : arg4.IsWhole)
    (x0 : Vec F S800x2048 .bf16) (x1 : Vec F S2048x512 .bf16) (x2 : Vec F S1x512 .f32) (g : D3 → Vec F S800x512 .f32) (P Q : sProp 𝕄) :
    iprop(P ∗ Q ∗ (∃ _ : D0, owns (c : Thread nD τ) arg1 fullShare x0) ∗ (∃ _ : D1, owns (c : Thread nD τ) arg2 fullShare x1)
        ∗ (∃ _ : D2, owns (c : Thread nD τ) arg3 fullShare x2) ∗ (∃ d : D3, owns (c : Thread nD τ) arg4 fullShare (g d)))
      ⊢ wp frame (wpE (defs₀ (F := F)) Variants.none c none) Set.univ (cc7__lambda_ i arg1 harg1 arg2 harg2 arg3 harg3 arg4 harg4)
        fun _ => iprop(P ∗ Q ∗ owns (c : Thread nD τ) arg1 fullShare x0 ∗ owns (c : Thread nD τ) arg2 fullShare x1
          ∗ owns (c : Thread nD τ) arg3 fullShare x2 ∗ owns (c : Thread nD τ) arg4 fullShare (out7_3 x0 x1 x2)) := by
  simp only [cc7__lambda__eq_skeleton]; unfold cc7__lambda__skel
  unfold owns
  iintro ⟨HP, HQ, ⟨%_, %f0, %hf0, H0⟩, ⟨%_, %f1, %hf1, H1⟩, ⟨%_, %f2, %hf2, H2⟩, ⟨%_, %f3, -, H3⟩⟩
  subst hf0; subst hf1; subst hf2
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S800x512.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => by unfold Dat.blockOf; rw [A_eq7]; rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun _ => by unfold Dat.blockOf; rw [A_eq7]; rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun _ => by unfold Dat.blockOf; rw [A_eq7]; rfl) t d).trans
    (by unfold Dat.fetched Dat.blockOf iblk7; rw [A_eq7]; try rfl)

theorem body_obligation7 (c : Dev nD) : BodyObligation (dat7 (F := F) V c) (defs₀ (F := F)) Variants.none () Set.univ := fun t => by
  rw [bigSep_W7, bigSep_W7]
  simp only [before7_0, before7_1, before7_2]
  rw [after7_0, after7_1, after7_2, after7_3, show (dat7 V c).Φ t.succ = (dat7 V c).Φ t.castSucc from rfl,
    show (dat7 V c).owesAt () t.succ = (dat7 V c).owesAt () t.castSucc from rfl]
  show _ ⊢ wp _ _ _ (bodyAt7 t) _
  exact sound_kernel7 c _ _ _ _ _ _ _ _ _ _ _ _ _ _ _

end Region7

end Cert.KernelIdeal.Hand
-- ==== Proof.KI.Run.lean ====
import proofs.«130450_j89593017795077_1_alg».proof.Proof.KI.RunCond
import proofs.«130450_j89593017795077_1_alg».proof.Proof.KI.Reg0
import proofs.«130450_j89593017795077_1_alg».proof.Proof.KI.Reg1
import proofs.«130450_j89593017795077_1_alg».proof.Proof.KI.Reg2
import proofs.«130450_j89593017795077_1_alg».proof.Proof.KI.Reg3
import proofs.«130450_j89593017795077_1_alg».proof.Proof.KI.Reg4
import proofs.«130450_j89593017795077_1_alg».proof.Proof.KI.Reg5
import proofs.«130450_j89593017795077_1_alg».proof.Proof.KI.Reg6
import proofs.«130450_j89593017795077_1_alg».proof.Proof.KI.Reg7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def W1 (c : Dev nD) : Valuation τ sig (Elt F) := StableHlo.after hostOps0 (fun b => m (c, b))

def W2 (c : Dev nD) : Valuation τ sig (Elt F) :=
  Function.update (W1 m c) (Proc.devRef .tc main_v15) ((dat0 (fun c b => W1 m c b) c).arrAt 3 cfg0.N)

def W3 (c : Dev nD) : Valuation τ sig (Elt F) := StableHlo.after hostOps1 (W2 m c)

def W4 (c : Dev nD) : Valuation τ sig (Elt F) := StableHlo.after hostOps1_1 (W3 m c)

def W5 (c : Dev nD) : Valuation τ sig (Elt F) := StableHlo.after hostOps1_2 (W4 m c)

def W6 (c : Dev nD) : Valuation τ sig (Elt F) :=
  Function.update (W5 m c) (Proc.devRef .tc main_v81) ((dat1 (fun c b => W5 m c b) c).arrAt 3 cfg1.N)

def W7 (c : Dev nD) : Valuation τ sig (Elt F) := StableHlo.after hostOps2 (W6 m c)

def W8 (c : Dev nD) : Valuation τ sig (Elt F) :=
  Function.update (W7 m c) (Proc.devRef .tc main_v118) ((dat2 (fun c b => W7 m c b) c).arrAt 3 cfg2.N)

def W9 (c : Dev nD) : Valuation τ sig (Elt F) := StableHlo.after hostOps3 (W8 m c)

def W10 (c : Dev nD) : Valuation τ sig (Elt F) :=
  Function.update (W9 m c) (Proc.devRef .tc main_v125) ((dat3 (fun c b => W9 m c b) c).arrAt 3 cfg3.N)

def W11 (c : Dev nD) : Valuation τ sig (Elt F) := StableHlo.after hostOps4 (W10 m c)

def W12 (c : Dev nD) : Valuation τ sig (Elt F) :=
  Function.update (W11 m c) (Proc.devRef .tc main_v170) ((dat4 (fun c b => W11 m c b) c).arrAt 3 cfg4.N)

def W13 (c : Dev nD) : Valuation τ sig (Elt F) := StableHlo.after hostOps5 (W12 m c)

def W14 (c : Dev nD) : Valuation τ sig (Elt F) := StableHlo.after hostOps5_1 (W13 m c)

def W15 (c : Dev nD) : Valuation τ sig (Elt F) := StableHlo.after hostOps5_2 (W14 m c)

def W16 (c : Dev nD) : Valuation τ sig (Elt F) :=
  Function.update (W15 m c) (Proc.devRef .tc main_v236) ((dat5 (fun c b => W15 m c b) c).arrAt 3 cfg5.N)

def W17 (c : Dev nD) : Valuation τ sig (Elt F) := StableHlo.after hostOps6 (W16 m c)

def W18 (c : Dev nD) : Valuation τ sig (Elt F) :=
  Function.update (W17 m c) (Proc.devRef .tc main_v273) ((dat6 (fun c b => W17 m c b) c).arrAt 3 cfg6.N)

def W19 (c : Dev nD) : Valuation τ sig (Elt F) := StableHlo.after hostOps7 (W18 m c)

def W20 (c : Dev nD) : Valuation τ sig (Elt F) :=
  Function.update (W19 m c) (Proc.devRef .tc main_v280) ((dat7 (fun c b => W19 m c b) c).arrAt 3 cfg7.N)

def W21 (c : Dev nD) : Valuation τ sig (Elt F) := StableHlo.after hostOps8 (W20 m c)

def outs : Gen.Outs (F := F) := fun J r c => match J with
  | 2 => W2 m c (Proc.devRef .tc r)
  | 6 => W6 m c (Proc.devRef .tc r)
  | 8 => W8 m c (Proc.devRef .tc r)
  | 10 => W10 m c (Proc.devRef .tc r)
  | 12 => W12 m c (Proc.devRef .tc r)
  | 16 => W16 m c (Proc.devRef .tc r)
  | 18 => W18 m c (Proc.devRef .tc r)
  | 20 => W20 m c (Proc.devRef .tc r)
  | _ => W1 m c (Proc.devRef .tc r)

theorem update_update_self {α : Type} [DecidableEq α] {β : α → Type} (f : (a : α) → β a) (a : α) (x : β a) :
    Function.update f a (Function.update f a x a) = Function.update f a x := by rw [Function.update_self]

theorem V_eq1 (c : Dev nD) : Gen.V1 m c = W1 m c := rfl
theorem V_eq2 (c : Dev nD) : Gen.V2 m (outs m) c = W2 m c := by
  show Function.update (Gen.V1 m c) (Proc.devRef .tc main_v15) (W2 m c (Proc.devRef .tc main_v15)) = W2 m c
  rw [V_eq1 m c]; exact update_update_self _ _ _
theorem V_eq3 (c : Dev nD) : Gen.V3 m (outs m) c = W3 m c := congrArg (StableHlo.after hostOps1) (V_eq2 m c)
theorem V_eq4 (c : Dev nD) : Gen.V4 m (outs m) c = W4 m c := congrArg (StableHlo.after hostOps1_1) (V_eq3 m c)
theorem V_eq5 (c : Dev nD) : Gen.V5 m (outs m) c = W5 m c := congrArg (StableHlo.after hostOps1_2) (V_eq4 m c)
theorem V_eq6 (c : Dev nD) : Gen.V6 m (outs m) c = W6 m c := by
  show Function.update (Gen.V5 m (outs m) c) (Proc.devRef .tc main_v81) (W6 m c (Proc.devRef .tc main_v81)) = W6 m c
  rw [V_eq5 m c]; exact update_update_self _ _ _
theorem V_eq7 (c : Dev nD) : Gen.V7 m (outs m) c = W7 m c := congrArg (StableHlo.after hostOps2) (V_eq6 m c)
theorem V_eq8 (c : Dev nD) : Gen.V8 m (outs m) c = W8 m c := by
  show Function.update (Gen.V7 m (outs m) c) (Proc.devRef .tc main_v118) (W8 m c (Proc.devRef .tc main_v118)) = W8 m c
  rw [V_eq7 m c]; exact update_update_self _ _ _
theorem V_eq9 (c : Dev nD) : Gen.V9 m (outs m) c = W9 m c := congrArg (StableHlo.after hostOps3) (V_eq8 m c)
theorem V_eq10 (c : Dev nD) : Gen.V10 m (outs m) c = W10 m c := by
  show Function.update (Gen.V9 m (outs m) c) (Proc.devRef .tc main_v125) (W10 m c (Proc.devRef .tc main_v125)) = W10 m c
  rw [V_eq9 m c]; exact update_update_self _ _ _
theorem V_eq11 (c : Dev nD) : Gen.V11 m (outs m) c = W11 m c := congrArg (StableHlo.after hostOps4) (V_eq10 m c)
theorem V_eq12 (c : Dev nD) : Gen.V12 m (outs m) c = W12 m c := by
  show Function.update (Gen.V11 m (outs m) c) (Proc.devRef .tc main_v170) (W12 m c (Proc.devRef .tc main_v170)) = W12 m c
  rw [V_eq11 m c]; exact update_update_self _ _ _
theorem V_eq13 (c : Dev nD) : Gen.V13 m (outs m) c = W13 m c := congrArg (StableHlo.after hostOps5) (V_eq12 m c)
theorem V_eq14 (c : Dev nD) : Gen.V14 m (outs m) c = W14 m c := congrArg (StableHlo.after hostOps5_1) (V_eq13 m c)
theorem V_eq15 (c : Dev nD) : Gen.V15 m (outs m) c = W15 m c := congrArg (StableHlo.after hostOps5_2) (V_eq14 m c)
theorem V_eq16 (c : Dev nD) : Gen.V16 m (outs m) c = W16 m c := by
  show Function.update (Gen.V15 m (outs m) c) (Proc.devRef .tc main_v236) (W16 m c (Proc.devRef .tc main_v236)) = W16 m c
  rw [V_eq15 m c]; exact update_update_self _ _ _
theorem V_eq17 (c : Dev nD) : Gen.V17 m (outs m) c = W17 m c := congrArg (StableHlo.after hostOps6) (V_eq16 m c)
theorem V_eq18 (c : Dev nD) : Gen.V18 m (outs m) c = W18 m c := by
  show Function.update (Gen.V17 m (outs m) c) (Proc.devRef .tc main_v273) (W18 m c (Proc.devRef .tc main_v273)) = W18 m c
  rw [V_eq17 m c]; exact update_update_self _ _ _
theorem V_eq19 (c : Dev nD) : Gen.V19 m (outs m) c = W19 m c := congrArg (StableHlo.after hostOps7) (V_eq18 m c)
theorem V_eq20 (c : Dev nD) : Gen.V20 m (outs m) c = W20 m c := by
  show Function.update (Gen.V19 m (outs m) c) (Proc.devRef .tc main_v280) (W20 m c (Proc.devRef .tc main_v280)) = W20 m c
  rw [V_eq19 m c]; exact update_update_self _ _ _
theorem V_eq21 (c : Dev nD) : Gen.V21 m (outs m) c = W21 m c := congrArg (StableHlo.after hostOps8) (V_eq20 m c)

theorem outs_2 (c : Dev nD) : outs m 2 main_v15 c = (dat0 (fun c b => Gen.V1 m c b) c).arrAt 3 cfg0.N := by
  show W2 m c (Proc.devRef .tc main_v15) = _
  unfold W2
  exact Function.update_self _ _ _

theorem entry_eq1 : (fun (c : Dev nD) (b : Ref sig .tc) => Gen.V5 m (outs m) c (Proc.devRef .tc b))
    = fun (c : Dev nD) (b : Ref sig .tc) => W5 m c (Proc.devRef .tc b) :=
  funext fun c => funext fun b => congrFun (V_eq5 m c) (Proc.devRef .tc b)

theorem outs_6 (c : Dev nD) : outs m 6 main_v81 c = (dat1 (fun c b => Gen.V5 m (outs m) c b) c).arrAt 3 cfg1.N := by
  rw [entry_eq1 m]
  show W6 m c (Proc.devRef .tc main_v81) = _
  unfold W6
  exact Function.update_self _ _ _

theorem entry_eq2 : (fun (c : Dev nD) (b : Ref sig .tc) => Gen.V7 m (outs m) c (Proc.devRef .tc b))
    = fun (c : Dev nD) (b : Ref sig .tc) => W7 m c (Proc.devRef .tc b) :=
  funext fun c => funext fun b => congrFun (V_eq7 m c) (Proc.devRef .tc b)

theorem outs_8 (c : Dev nD) : outs m 8 main_v118 c = (dat2 (fun c b => Gen.V7 m (outs m) c b) c).arrAt 3 cfg2.N := by
  rw [entry_eq2 m]
  show W8 m c (Proc.devRef .tc main_v118) = _
  unfold W8
  exact Function.update_self _ _ _

theorem entry_eq3 : (fun (c : Dev nD) (b : Ref sig .tc) => Gen.V9 m (outs m) c (Proc.devRef .tc b))
    = fun (c : Dev nD) (b : Ref sig .tc) => W9 m c (Proc.devRef .tc b) :=
  funext fun c => funext fun b => congrFun (V_eq9 m c) (Proc.devRef .tc b)

theorem outs_10 (c : Dev nD) : outs m 10 main_v125 c = (dat3 (fun c b => Gen.V9 m (outs m) c b) c).arrAt 3 cfg3.N := by
  rw [entry_eq3 m]
  show W10 m c (Proc.devRef .tc main_v125) = _
  unfold W10
  exact Function.update_self _ _ _

theorem entry_eq4 : (fun (c : Dev nD) (b : Ref sig .tc) => Gen.V11 m (outs m) c (Proc.devRef .tc b))
    = fun (c : Dev nD) (b : Ref sig .tc) => W11 m c (Proc.devRef .tc b) :=
  funext fun c => funext fun b => congrFun (V_eq11 m c) (Proc.devRef .tc b)

theorem outs_12 (c : Dev nD) : outs m 12 main_v170 c = (dat4 (fun c b => Gen.V11 m (outs m) c b) c).arrAt 3 cfg4.N := by
  rw [entry_eq4 m]
  show W12 m c (Proc.devRef .tc main_v170) = _
  unfold W12
  exact Function.update_self _ _ _

theorem entry_eq5 : (fun (c : Dev nD) (b : Ref sig .tc) => Gen.V15 m (outs m) c (Proc.devRef .tc b))
    = fun (c : Dev nD) (b : Ref sig .tc) => W15 m c (Proc.devRef .tc b) :=
  funext fun c => funext fun b => congrFun (V_eq15 m c) (Proc.devRef .tc b)

theorem outs_16 (c : Dev nD) : outs m 16 main_v236 c = (dat5 (fun c b => Gen.V15 m (outs m) c b) c).arrAt 3 cfg5.N := by
  rw [entry_eq5 m]
  show W16 m c (Proc.devRef .tc main_v236) = _
  unfold W16
  exact Function.update_self _ _ _

theorem entry_eq6 : (fun (c : Dev nD) (b : Ref sig .tc) => Gen.V17 m (outs m) c (Proc.devRef .tc b))
    = fun (c : Dev nD) (b : Ref sig .tc) => W17 m c (Proc.devRef .tc b) :=
  funext fun c => funext fun b => congrFun (V_eq17 m c) (Proc.devRef .tc b)

theorem outs_18 (c : Dev nD) : outs m 18 main_v273 c = (dat6 (fun c b => Gen.V17 m (outs m) c b) c).arrAt 3 cfg6.N := by
  rw [entry_eq6 m]
  show W18 m c (Proc.devRef .tc main_v273) = _
  unfold W18
  exact Function.update_self _ _ _

theorem entry_eq7 : (fun (c : Dev nD) (b : Ref sig .tc) => Gen.V19 m (outs m) c (Proc.devRef .tc b))
    = fun (c : Dev nD) (b : Ref sig .tc) => W19 m c (Proc.devRef .tc b) :=
  funext fun c => funext fun b => congrFun (V_eq19 m c) (Proc.devRef .tc b)

theorem outs_20 (c : Dev nD) : outs m 20 main_v280 c = (dat7 (fun c b => Gen.V19 m (outs m) c b) c).arrAt 3 cfg7.N := by
  rw [entry_eq7 m]
  show W20 m c (Proc.devRef .tc main_v280) = _
  unfold W20
  exact Function.update_self _ _ _

def pdats : (p : Fin 8) → (c : Dev nD) → Dat τ (Elt F) Unit ℕ (UR sig nD τ) ℕ (Pipeline.pin (pcfgs (F := F)) Gen.adm p) c
  | ⟨0, _⟩ => fun c => dat0 (fun c b => Gen.V1 m c b) c
  | ⟨1, _⟩ => fun c => dat1 (fun c b => Gen.V5 m (outs m) c b) c
  | ⟨2, _⟩ => fun c => dat2 (fun c b => Gen.V7 m (outs m) c b) c
  | ⟨3, _⟩ => fun c => dat3 (fun c b => Gen.V9 m (outs m) c b) c
  | ⟨4, _⟩ => fun c => dat4 (fun c b => Gen.V11 m (outs m) c b) c
  | ⟨5, _⟩ => fun c => dat5 (fun c b => Gen.V15 m (outs m) c b) c
  | ⟨6, _⟩ => fun c => dat6 (fun c b => Gen.V17 m (outs m) c b) c
  | ⟨7, _⟩ => fun c => dat7 (fun c b => Gen.V19 m (outs m) c b) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) (w : Fin cfg0.W) : (dat0 (fun c b => Gen.V1 m c b) c).arrAt w cfg0.N = Gen.V2 m (outs m) c (Pipeline.arrRef spec0 w) := by
  by_cases hw : w = 3
  · subst hw; exact (outs_2 m c).symm.trans (Function.update_self (Proc.devRef .tc main_v15 : DevRef τ sig) (outs m 2 main_v15 c) (Gen.V1 m c)).symm
  · exact ((dat0 _ c).arrAt_in w ((by decide : ∀ w : Fin cfg0.W, w ≠ 3 → (cfg0.win w).isOut = false) w hw) _).trans
      ((A_eq0 _ c w).trans (Gen.V2_of m (outs m) c _ ((by decide : ∀ w : Fin cfg0.W, w ≠ 3 → Pipeline.arrRef spec0 w ∉ ([main_v15] : List (Ref sig .tc))) w hw)).symm)
theorem hrest0 (c : Dev nD) : ∀ b : Ref sig .tc, b ∉ Finset.univ.image (Pipeline.arrRef spec0) → Gen.V2 m (outs m) c b = Gen.V1 m c b :=
  fun b hb => Gen.V2_of m (outs m) c b fun h => hb (by
    rcases List.mem_singleton.mp h with rfl
    exact Finset.mem_image.mpr ⟨3, Finset.mem_univ _, rfl⟩)
theorem hF1 (c : Dev nD) (w : Fin cfg1.W) : (dat1 (fun c b => Gen.V5 m (outs m) c b) c).arrAt w cfg1.N = Gen.V6 m (outs m) c (Pipeline.arrRef spec1 w) := by
  by_cases hw : w = 3
  · subst hw; exact (outs_6 m c).symm.trans (Function.update_self (Proc.devRef .tc main_v81 : DevRef τ sig) (outs m 6 main_v81 c) (Gen.V5 m (outs m) c)).symm
  · exact ((dat1 _ c).arrAt_in w ((by decide : ∀ w : Fin cfg1.W, w ≠ 3 → (cfg1.win w).isOut = false) w hw) _).trans
      ((A_eq1 _ c w).trans (Gen.V6_of m (outs m) c _ ((by decide : ∀ w : Fin cfg1.W, w ≠ 3 → Pipeline.arrRef spec1 w ∉ ([main_v81] : List (Ref sig .tc))) w hw)).symm)
theorem hrest1 (c : Dev nD) : ∀ b : Ref sig .tc, b ∉ Finset.univ.image (Pipeline.arrRef spec1) → Gen.V6 m (outs m) c b = Gen.V5 m (outs m) c b :=
  fun b hb => Gen.V6_of m (outs m) c b fun h => hb (by
    rcases List.mem_singleton.mp h with rfl
    exact Finset.mem_image.mpr ⟨3, Finset.mem_univ _, rfl⟩)
theorem hF2 (c : Dev nD) (w : Fin cfg2.W) : (dat2 (fun c b => Gen.V7 m (outs m) c b) c).arrAt w cfg2.N = Gen.V8 m (outs m) c (Pipeline.arrRef spec2 w) := by
  by_cases hw : w = 3
  · subst hw; exact (outs_8 m c).symm.trans (Function.update_self (Proc.devRef .tc main_v118 : DevRef τ sig) (outs m 8 main_v118 c) (Gen.V7 m (outs m) c)).symm
  · exact ((dat2 _ c).arrAt_in w ((by decide : ∀ w : Fin cfg2.W, w ≠ 3 → (cfg2.win w).isOut = false) w hw) _).trans
      ((A_eq2 _ c w).trans (Gen.V8_of m (outs m) c _ ((by decide : ∀ w : Fin cfg2.W, w ≠ 3 → Pipeline.arrRef spec2 w ∉ ([main_v118] : List (Ref sig .tc))) w hw)).symm)
theorem hrest2 (c : Dev nD) : ∀ b : Ref sig .tc, b ∉ Finset.univ.image (Pipeline.arrRef spec2) → Gen.V8 m (outs m) c b = Gen.V7 m (outs m) c b :=
  fun b hb => Gen.V8_of m (outs m) c b fun h => hb (by
    rcases List.mem_singleton.mp h with rfl
    exact Finset.mem_image.mpr ⟨3, Finset.mem_univ _, rfl⟩)
theorem hF3 (c : Dev nD) (w : Fin cfg3.W) : (dat3 (fun c b => Gen.V9 m (outs m) c b) c).arrAt w cfg3.N = Gen.V10 m (outs m) c (Pipeline.arrRef spec3 w) := by
  by_cases hw : w = 3
  · subst hw; exact (outs_10 m c).symm.trans (Function.update_self (Proc.devRef .tc main_v125 : DevRef τ sig) (outs m 10 main_v125 c) (Gen.V9 m (outs m) c)).symm
  · exact ((dat3 _ c).arrAt_in w ((by decide : ∀ w : Fin cfg3.W, w ≠ 3 → (cfg3.win w).isOut = false) w hw) _).trans
      ((A_eq3 _ c w).trans (Gen.V10_of m (outs m) c _ ((by decide : ∀ w : Fin cfg3.W, w ≠ 3 → Pipeline.arrRef spec3 w ∉ ([main_v125] : List (Ref sig .tc))) w hw)).symm)
theorem hrest3 (c : Dev nD) : ∀ b : Ref sig .tc, b ∉ Finset.univ.image (Pipeline.arrRef spec3) → Gen.V10 m (outs m) c b = Gen.V9 m (outs m) c b :=
  fun b hb => Gen.V10_of m (outs m) c b fun h => hb (by
    rcases List.mem_singleton.mp h with rfl
    exact Finset.mem_image.mpr ⟨3, Finset.mem_univ _, rfl⟩)
theorem hF4 (c : Dev nD) (w : Fin cfg4.W) : (dat4 (fun c b => Gen.V11 m (outs m) c b) c).arrAt w cfg4.N = Gen.V12 m (outs m) c (Pipeline.arrRef spec4 w) := by
  by_cases hw : w = 3
  · subst hw; exact (outs_12 m c).symm.trans (Function.update_self (Proc.devRef .tc main_v170 : DevRef τ sig) (outs m 12 main_v170 c) (Gen.V11 m (outs m) c)).symm
  · exact ((dat4 _ c).arrAt_in w ((by decide : ∀ w : Fin cfg4.W, w ≠ 3 → (cfg4.win w).isOut = false) w hw) _).trans
      ((A_eq4 _ c w).trans (Gen.V12_of m (outs m) c _ ((by decide : ∀ w : Fin cfg4.W, w ≠ 3 → Pipeline.arrRef spec4 w ∉ ([main_v170] : List (Ref sig .tc))) w hw)).symm)
theorem hrest4 (c : Dev nD) : ∀ b : Ref sig .tc, b ∉ Finset.univ.image (Pipeline.arrRef spec4) → Gen.V12 m (outs m) c b = Gen.V11 m (outs m) c b :=
  fun b hb => Gen.V12_of m (outs m) c b fun h => hb (by
    rcases List.mem_singleton.mp h with rfl
    exact Finset.mem_image.mpr ⟨3, Finset.mem_univ _, rfl⟩)
theorem hF5 (c : Dev nD) (w : Fin cfg5.W) : (dat5 (fun c b => Gen.V15 m (outs m) c b) c).arrAt w cfg5.N = Gen.V16 m (outs m) c (Pipeline.arrRef spec5 w) := by
  by_cases hw : w = 3
  · subst hw; exact (outs_16 m c).symm.trans (Function.update_self (Proc.devRef .tc main_v236 : DevRef τ sig) (outs m 16 main_v236 c) (Gen.V15 m (outs m) c)).symm
  · exact ((dat5 _ c).arrAt_in w ((by decide : ∀ w : Fin cfg5.W, w ≠ 3 → (cfg5.win w).isOut = false) w hw) _).trans
      ((A_eq5 _ c w).trans (Gen.V16_of m (outs m) c _ ((by decide : ∀ w : Fin cfg5.W, w ≠ 3 → Pipeline.arrRef spec5 w ∉ ([main_v236] : List (Ref sig .tc))) w hw)).symm)
theorem hrest5 (c : Dev nD) : ∀ b : Ref sig .tc, b ∉ Finset.univ.image (Pipeline.arrRef spec5) → Gen.V16 m (outs m) c b = Gen.V15 m (outs m) c b :=
  fun b hb => Gen.V16_of m (outs m) c b fun h => hb (by
    rcases List.mem_singleton.mp h with rfl
    exact Finset.mem_image.mpr ⟨3, Finset.mem_univ _, rfl⟩)
theorem hF6 (c : Dev nD) (w : Fin cfg6.W) : (dat6 (fun c b => Gen.V17 m (outs m) c b) c).arrAt w cfg6.N = Gen.V18 m (outs m) c (Pipeline.arrRef spec6 w) := by
  by_cases hw : w = 3
  · subst hw; exact (outs_18 m c).symm.trans (Function.update_self (Proc.devRef .tc main_v273 : DevRef τ sig) (outs m 18 main_v273 c) (Gen.V17 m (outs m) c)).symm
  · exact ((dat6 _ c).arrAt_in w ((by decide : ∀ w : Fin cfg6.W, w ≠ 3 → (cfg6.win w).isOut = false) w hw) _).trans
      ((A_eq6 _ c w).trans (Gen.V18_of m (outs m) c _ ((by decide : ∀ w : Fin cfg6.W, w ≠ 3 → Pipeline.arrRef spec6 w ∉ ([main_v273] : List (Ref sig .tc))) w hw)).symm)
theorem hrest6 (c : Dev nD) : ∀ b : Ref sig .tc, b ∉ Finset.univ.image (Pipeline.arrRef spec6) → Gen.V18 m (outs m) c b = Gen.V17 m (outs m) c b :=
  fun b hb => Gen.V18_of m (outs m) c b fun h => hb (by
    rcases List.mem_singleton.mp h with rfl
    exact Finset.mem_image.mpr ⟨3, Finset.mem_univ _, rfl⟩)
theorem hF7 (c : Dev nD) (w : Fin cfg7.W) : (dat7 (fun c b => Gen.V19 m (outs m) c b) c).arrAt w cfg7.N = Gen.V20 m (outs m) c (Pipeline.arrRef spec7 w) := by
  by_cases hw : w = 3
  · subst hw; exact (outs_20 m c).symm.trans (Function.update_self (Proc.devRef .tc main_v280 : DevRef τ sig) (outs m 20 main_v280 c) (Gen.V19 m (outs m) c)).symm
  · exact ((dat7 _ c).arrAt_in w ((by decide : ∀ w : Fin cfg7.W, w ≠ 3 → (cfg7.win w).isOut = false) w hw) _).trans
      ((A_eq7 _ c w).trans (Gen.V20_of m (outs m) c _ ((by decide : ∀ w : Fin cfg7.W, w ≠ 3 → Pipeline.arrRef spec7 w ∉ ([main_v280] : List (Ref sig .tc))) w hw)).symm)
theorem hrest7 (c : Dev nD) : ∀ b : Ref sig .tc, b ∉ Finset.univ.image (Pipeline.arrRef spec7) → Gen.V20 m (outs m) c b = Gen.V19 m (outs m) c b :=
  fun b hb => Gen.V20_of m (outs m) c b fun h => hb (by
    rcases List.mem_singleton.mp h with rfl
    exact Finset.mem_image.mpr ⟨3, Finset.mem_univ _, rfl⟩)

theorem seg_entry {Bufs Arr Oth Reg Ow OwAt PH S Lev : sProp 𝕄} (hs : Bufs ⊢ iprop(Arr ∗ Oth)) (hp : (BI.emp : sProp 𝕄) ⊢ PH) (ho : Ow ⊢ OwAt) :
    iprop((Bufs ∗ Reg ∗ Ow) ∗ S ∗ Lev) ⊢ |={Set.univ}=> iprop(Arr ∗ PH ∗ OwAt ∗ Reg ∗ Oth) := by
  iintro ⟨⟨Hb, Hr, Ho⟩, -, -⟩
  ihave Hp := hs $$ Hb
  icases Hp with ⟨Ha, Hot⟩
  imodintro
  isplitl [Ha]; · iexact Ha
  isplitr; · iapply hp; iempintro
  isplitl [Ho]; · iapply ho; iexact Ho
  isplitl [Hr]; · iexact Hr
  iexact Hot

theorem seg_exit {Bufs Arr Oth Reg Ow OwAt : sProp 𝕄} (hj : iprop(Arr ∗ Oth) ⊢ Bufs) (ho : OwAt ⊢ Ow) :
    iprop(Arr ∗ OwAt ∗ Reg ∗ Oth) ⊢ |={Set.univ}=> iprop(Bufs ∗ Reg ∗ Ow) := by
  iintro ⟨Ha, Ho, Hr, Hot⟩
  imodintro
  isplitl [Ha Hot]
  · iapply hj; isplitl [Ha] <;> iassumption
  isplitl [Hr]; · iexact Hr
  iapply ho; iexact Ho

theorem seg_in {X PH Sc : sProp 𝕄} : iprop(X ∗ PH ∗ Sc) ⊢ iprop(Sc ∗ X) := by
  iintro ⟨Hx, -, Hs⟩
  isplitl [Hs]; · iexact Hs
  iexact Hx

theorem seg_out {Y Sc : sProp 𝕄} : iprop(Sc ∗ Y) ⊢ iprop(Y ∗ (BI.emp : sProp 𝕄) ∗ Sc) := by
  iintro ⟨Hs, Hy⟩
  isplitl [Hy]; · iexact Hy
  isplitr; · iempintro
  iexact Hs

theorem owes_in {c : Dev nD} {B : Set (SemLoc sig × Unit)} (hB : ∀ x, x ∈ B) :
    iprop(∃ W, owes (c : Thread nD τ) (0 : CellTallies nD τ sig Unit) W) ⊢ (Pipeline.owesWithin c 0 B : sProp 𝕄) := by
  iintro ⟨%W, H⟩
  iexists W
  isplitr; · ipureintro; exact fun x _ => hB x
  iexact H

theorem owes_out {c : Dev nD} {B : Set (SemLoc sig × Unit)} :
    (Pipeline.owesWithin c 0 B : sProp 𝕄) ⊢ iprop(∃ W, owes (c : Thread nD τ) (0 : CellTallies nD τ sig Unit) W) := by
  iintro ⟨%W, -, H⟩
  iexists W; iexact H

set_option backward.isDefEq.respectTransparency.types false in
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => Gen.V1 m c b) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    have hsplit := Pipeline.arrays_of_unscopedBufs (p := 0) (pcfgs (F := F)) Gen.adm (pdats m) launch0.win launch0.arr_whole c
      ((pdats m 0 c).share_full fun _ => rfl) (fun b => Gen.V1 m c b) (A_eq0 (fun c b => Gen.V1 m c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V1 m c b) (fun b => Gen.V2 m (outs m) c b) ((pdats m 0 c).arrAt · cfg0.N) (hF0 m c) (hrest0 m c)
    rw [Pipeline.unscopedBufs_held] at hjoin
    exact seg_exit hjoin owes_out

set_option backward.isDefEq.respectTransparency.types false in
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => Gen.V5 m (outs m) c b) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V5 m (outs m) c b)
  hentry c := by
    have hsplit := Pipeline.arrays_of_unscopedBufs (p := 1) (pcfgs (F := F)) Gen.adm (pdats m) launch1.win launch1.arr_whole c
      ((pdats m 1 c).share_full fun _ => rfl) (fun b => Gen.V5 m (outs m) c b) (A_eq1 (fun c b => Gen.V5 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V5 m (outs m) c b) (fun b => Gen.V6 m (outs m) c b) ((pdats m 1 c).arrAt · cfg1.N) (hF1 m c) (hrest1 m c)
    rw [Pipeline.unscopedBufs_held] at hjoin
    exact seg_exit hjoin owes_out

set_option backward.isDefEq.respectTransparency.types false in
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => Gen.V7 m (outs m) c b) c).loose
  hwaits := Pipeline.hwaits_of_owed_zero _ _ _ _ L lv 2 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V7 m (outs m) c b)
  hentry c := by
    have hsplit := Pipeline.arrays_of_unscopedBufs (p := 2) (pcfgs (F := F)) Gen.adm (pdats m) launch2.win launch2.arr_whole c
      ((pdats m 2 c).share_full fun _ => rfl) (fun b => Gen.V7 m (outs m) c b) (A_eq2 (fun c b => Gen.V7 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b => Gen.V7 m (outs m) c b) (fun b => Gen.V8 m (outs m) c b) ((pdats m 2 c).arrAt · cfg2.N) (hF2 m c) (hrest2 m c)
    rw [Pipeline.unscopedBufs_held] at hjoin
    exact seg_exit hjoin owes_out

set_option backward.isDefEq.respectTransparency.types false in
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => Gen.V9 m (outs m) c b) c).loose
  hwaits := Pipeline.hwaits_of_owed_zero _ _ _ _ L lv 3 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => Gen.V9 m (outs m) c b)
  hentry c := by
    have hsplit := Pipeline.arrays_of_unscopedBufs (p := 3) (pcfgs (F := F)) Gen.adm (pdats m) launch3.win launch3.arr_whole c
      ((pdats m 3 c).share_full fun _ => rfl) (fun b => Gen.V9 m (outs m) c b) (A_eq3 (fun c b => Gen.V9 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (fun b => Gen.V9 m (outs m) c b) (fun b => Gen.V10 m (outs m) c b) ((pdats m 3 c).arrAt · cfg3.N) (hF3 m c) (hrest3 m c)
    rw [Pipeline.unscopedBufs_held] at hjoin
    exact seg_exit hjoin owes_out

set_option backward.isDefEq.respectTransparency.types false in
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => Gen.V11 m (outs m) c b) c).loose
  hwaits := Pipeline.hwaits_of_owed_zero _ _ _ _ L lv 4 fun _ _ => rfl
  pre c := iprop(StableHlo.held (c : Thread nD τ) (Pipeline.ucRefs τ sig) (Gen.V11 m (outs m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => Gen.V11 m (outs m) c b)
  hentry c := by
    have hsplit := Pipeline.arrays_of_unscopedBufs (p := 4) (pcfgs (F := F)) Gen.adm (pdats m) launch4.win launch4.arr_whole c
      ((pdats m 4 c).share_full fun _ => rfl) (fun b => Gen.V11 m (outs m) c b) (A_eq4 (fun c b => Gen.V11 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (fun b => Gen.V11 m (outs m) c b) (fun b => Gen.V12 m (outs m) c b) ((pdats m 4 c).arrAt · cfg4.N) (hF4 m c) (hrest4 m c)
    rw [Pipeline.unscopedBufs_held] at hjoin
    exact seg_exit hjoin owes_out

set_option backward.isDefEq.respectTransparency.types false in
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun c b => Gen.V15 m (outs m) c b) c).loose
  hwaits := Pipeline.hwaits_of_owed_zero _ _ _ _ L lv 5 fun _ _ => rfl
  pre c := iprop(StableHlo.held (c : Thread nD τ) (Pipeline.ucRefs τ sig) (Gen.V15 m (outs m) c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => Gen.V15 m (outs m) c b)
  hentry c := by
    have hsplit := Pipeline.arrays_of_unscopedBufs (p := 5) (pcfgs (F := F)) Gen.adm (pdats m) launch5.win launch5.arr_whole c
      ((pdats m 5 c).share_full fun _ => rfl) (fun b => Gen.V15 m (outs m) c b) (A_eq5 (fun c b => Gen.V15 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (fun b => Gen.V15 m (outs m) c b) (fun b => Gen.V16 m (outs m) c b) ((pdats m 5 c).arrAt · cfg5.N) (hF5 m c) (hrest5 m c)
    rw [Pipeline.unscopedBufs_held] at hjoin
    exact seg_exit hjoin owes_out

set_option backward.isDefEq.respectTransparency.types false in
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (fun c b => Gen.V17 m (outs m) c b) c).loose
  hwaits := Pipeline.hwaits_of_owed_zero _ _ _ _ L lv 6 fun _ _ => rfl
  pre c := iprop(StableHlo.held (c : Thread nD τ) (Pipeline.ucRefs τ sig) (Gen.V17 m (outs m) c) ∗ R c)
  post c := iprop(StableHlo.held (c : Thread nD τ) (Pipeline.ucRefs τ sig) (Gen.V18 m (outs m) c) ∗ R c)
  X c := iprop(∃ r, prngReg c r)
  Y c := iprop(∃ r, prngReg c r)
  Z c := Pipeline.unscopedRest (Ix := Unit) (Name := ℕ) (U := UR sig nD τ) (Lvl := ℕ) spec6 c (fun b => Gen.V17 m (outs m) c b)
  hentry c := by
    have hsplit := Pipeline.arrays_of_unscopedBufs (p := 6) (pcfgs (F := F)) Gen.adm (pdats m) launch6.win launch6.arr_whole c
      ((pdats m 6 c).share_full fun _ => rfl) (fun b => Gen.V17 m (outs m) c b) (A_eq6 (fun c b => Gen.V17 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (fun b => Gen.V17 m (outs m) c b) (fun b => Gen.V18 m (outs m) c b) ((pdats m 6 c).arrAt · cfg6.N) (hF6 m c) (hrest6 m c)
    rw [Pipeline.unscopedBufs_held] at hjoin
    exact seg_exit hjoin owes_out

set_option backward.isDefEq.respectTransparency.types false in
def reg7 : Pipeline.RegionSeg (pcfgs (F := F)) Gen.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (fun c b => Gen.V19 m (outs m) c b) c).loose
  hwaits := Pipeline.hwaits_of_owed_zero _ _ _ _ L lv 7 fun _ _ => rfl
  pre c := iprop(StableHlo.held (c : Thread nD τ) (Pipeline.ucRefs τ sig) (Gen.V19 m (outs m) c) ∗ R c)
  post c := iprop(StableHlo.held (c : Thread nD τ) (Pipeline.ucRefs τ sig) (Gen.V20 m (outs m) c) ∗ R c)
  X c := iprop(∃ r, prngReg c r)
  Y c := iprop(∃ r, prngReg c r)
  Z c := Pipeline.unscopedRest (Ix := Unit) (Name := ℕ) (U := UR sig nD τ) (Lvl := ℕ) spec7 c (fun b => Gen.V19 m (outs m) c b)
  hentry c := by
    have hsplit := Pipeline.arrays_of_unscopedBufs (p := 7) (pcfgs (F := F)) Gen.adm (pdats m) launch7.win launch7.arr_whole c
      ((pdats m 7 c).share_full fun _ => rfl) (fun b => Gen.V19 m (outs m) c b) (A_eq7 (fun c b => Gen.V19 m (outs m) c b) c)
    rw [Pipeline.unscopedBufs_held] at hsplit
    refine seg_entry hsplit ?_ (owes_in fun _ => Or.inl trivial)
    unfold Pipeline.prefHeld
    rw [show (Finset.univ : Finset (Fin 0)) = ∅ from rfl, BI.bigSep_empty]
  hin c := seg_in
  hout c := by rw [Pipeline.ownSems0_none]; exact seg_out
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (fun b => Gen.V19 m (outs m) c b) (fun b => Gen.V20 m (outs m) c b) ((pdats m 7 c).arrAt · cfg7.N) (hF7 m c) (hrest7 m c)
    rw [Pipeline.unscopedBufs_held] at hjoin
    exact seg_exit hjoin owes_out

theorem launch_elem : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  rw [BI.bigSep_emp_const]

  have hown : (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) := .rfl
  iintro Hown
  imodintro
  isplitl [Hown]
  · iapply hown; iexact Hown
  iempintro

theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) :=
  Pipeline.initEach L lv fun c => by
    iintro ⟨⟨-, Howes, -, Hreg, -⟩, -⟩
    imodintro
    isplitl [Hreg]
    · iexists (ρ c); iexact Hreg
    iexists ∅; iexact Howes

theorem rest_owes (c : Dev nD) : R (F := F) c ⊢ (iprop(∃ W, owes (c : Thread nD τ) (0 : CellTallies nD τ sig Unit) W) : sProp 𝕄) := by
  iintro ⟨-, Howes⟩
  iexact Howes

set_option backward.isDefEq.respectTransparency.types false in
theorem run (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V21 m (outs m) c b) :=
  run_cond m emb₁ () 𝒱₀ L lv (fun _ _ => rfl) ρ (outs m) (pdats m) 0 (fun _ => BI.emp) (initOf (Pipeline.cells cfgs cellOf_inj) (Pipeline.launchToks cfgs cellOf_inj)) launch_elem
    (fun _ c => R c) (launch_rest ρ) rest_owes
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18]

theorem run_kept (ρ : Dev nD → PrngReg) : θ_run defs (onTc (τ := τ) (main (F := F))) ⟨m, fun _ => 0, ρ⟩ (fun r => ∀ c : Dev nD,
      r.2.mem ((c.tc : Thread nD τ).loc main_v309) = Gen.V21 m (outs m) c main_v309
      ∧ ∀ b ∈ argRefs, r.2.mem ((c.tc : Thread nD τ).loc b) = m ((c.tc : Thread nD τ).loc b)) :=
  (θ_run defs (onTc (τ := τ) (main (F := F))) ⟨m, fun _ => 0, ρ⟩).mono (fun r h c =>
    ⟨h c (Proc.devRef .tc main_v309) (Finset.mem_filter.mpr ⟨StableHlo.devRef_mem_tcRefs main_v309, by decide⟩), fun b hb => by
      simp only [argRefs, List.mem_cons, List.mem_nil_iff, or_false] at hb
      rcases hb with rfl | rfl | rfl | rfl | rfl | rfl | rfl | rfl | rfl | rfl | rfl | rfl | rfl | rfl | rfl | rfl | rfl | rfl | rfl
      all_goals refine (h c (Proc.devRef .tc _) (Finset.mem_filter.mpr ⟨StableHlo.devRef_mem_tcRefs _, by decide⟩)).trans ?_
      exacts [Gen.V21_main_arg0 m (outs m) c, Gen.V21_main_arg1 m (outs m) c, Gen.V21_main_arg2 m (outs m) c, Gen.V21_main_arg3 m (outs m) c, Gen.V21_main_arg4 m (outs m) c, Gen.V21_main_arg5 m (outs m) c, Gen.V21_main_arg6 m (outs m) c, Gen.V21_main_arg7 m (outs m) c, Gen.V21_main_arg8 m (outs m) c, Gen.V21_main_arg9 m (outs m) c, Gen.V21_main_arg10 m (outs m) c, Gen.V21_main_arg11 m (outs m) c, Gen.V21_main_arg12 m (outs m) c, Gen.V21_main_arg13 m (outs m) c, Gen.V21_main_arg14 m (outs m) c, Gen.V21_main_arg15 m (outs m) c, Gen.V21_main_arg16 m (outs m) c, Gen.V21_main_arg17 m (outs m) c, Gen.V21_main_arg18 m (outs m) c]⟩) (run m ρ)

end Cert.KernelIdeal.Hand

end
-- ==== Proof.R.Args.lean ====
import proofs.«130450_j89593017795077_1_alg».proof.Proof.R.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18]

set_option hygiene false in

macro "arg_kept" : tactic =>
  `(tactic| (simp only [argRefs, List.mem_cons, List.mem_nil_iff, or_false] at hb
             rcases hb with rfl | rfl | rfl | rfl | rfl | rfl | rfl | rfl | rfl | rfl | rfl | rfl | rfl | rfl | rfl | rfl | rfl | rfl | rfl <;> after_results_simp))

set_option maxHeartbeats 4000000 in
theorem ops0_arg (V : Valuation τ sig (Elt F)) (b : Ref sig .tc) (hb : b ∈ argRefs) :
    StableHlo.after ops0 V (Proc.devRef .tc b) = V (Proc.devRef .tc b) := by arg_kept
set_option maxHeartbeats 4000000 in
theorem ops1_arg (V : Valuation τ sig (Elt F)) (b : Ref sig .tc) (hb : b ∈ argRefs) :
    StableHlo.after ops1 V (Proc.devRef .tc b) = V (Proc.devRef .tc b) := by arg_kept
set_option maxHeartbeats 4000000 in
theorem ops2_arg (V : Valuation τ sig (Elt F)) (b : Ref sig .tc) (hb : b ∈ argRefs) :
    StableHlo.after ops2 V (Proc.devRef .tc b) = V (Proc.devRef .tc b) := by arg_kept
set_option maxHeartbeats 4000000 in
theorem ops3_arg (V : Valuation τ sig (Elt F)) (b : Ref sig .tc) (hb : b ∈ argRefs) :
    StableHlo.after ops3 V (Proc.devRef .tc b) = V (Proc.devRef .tc b) := by arg_kept
set_option maxHeartbeats 4000000 in
theorem ops4_arg (V : Valuation τ sig (Elt F)) (b : Ref sig .tc) (hb : b ∈ argRefs) :
    StableHlo.after ops4 V (Proc.devRef .tc b) = V (Proc.devRef .tc b) := by arg_kept
set_option maxHeartbeats 4000000 in
theorem ops5_arg (V : Valuation τ sig (Elt F)) (b : Ref sig .tc) (hb : b ∈ argRefs) :
    StableHlo.after ops5 V (Proc.devRef .tc b) = V (Proc.devRef .tc b) := by arg_kept
set_option maxHeartbeats 4000000 in
theorem ops6_arg (V : Valuation τ sig (Elt F)) (b : Ref sig .tc) (hb : b ∈ argRefs) :
    StableHlo.after ops6 V (Proc.devRef .tc b) = V (Proc.devRef .tc b) := by arg_kept
set_option maxHeartbeats 4000000 in
theorem ops7_arg (V : Valuation τ sig (Elt F)) (b : Ref sig .tc) (hb : b ∈ argRefs) :
    StableHlo.after ops7 V (Proc.devRef .tc b) = V (Proc.devRef .tc b) := by arg_kept
set_option maxHeartbeats 4000000 in
theorem ops8_arg (V : Valuation τ sig (Elt F)) (b : Ref sig .tc) (hb : b ∈ argRefs) :
    StableHlo.after ops8 V (Proc.devRef .tc b) = V (Proc.devRef .tc b) := by arg_kept
set_option maxHeartbeats 4000000 in
theorem ops9_arg (V : Valuation τ sig (Elt F)) (b : Ref sig .tc) (hb : b ∈ argRefs) :
    StableHlo.after ops9 V (Proc.devRef .tc b) = V (Proc.devRef .tc b) := by arg_kept
set_option maxHeartbeats 4000000 in
theorem ops10_arg (V : Valuation τ sig (Elt F)) (b : Ref sig .tc) (hb : b ∈ argRefs) :
    StableHlo.after ops10 V (Proc.devRef .tc b) = V (Proc.devRef .tc b) := by arg_kept
set_option maxHeartbeats 4000000 in
theorem ops11_arg (V : Valuation τ sig (Elt F)) (b : Ref sig .tc) (hb : b ∈ argRefs) :
    StableHlo.after ops11 V (Proc.devRef .tc b) = V (Proc.devRef .tc b) := by arg_kept
set_option maxHeartbeats 4000000 in
theorem ops12_arg (V : Valuation τ sig (Elt F)) (b : Ref sig .tc) (hb : b ∈ argRefs) :
    StableHlo.after ops12 V (Proc.devRef .tc b) = V (Proc.devRef .tc b) := by arg_kept
set_option maxHeartbeats 4000000 in
theorem ops13_arg (V : Valuation τ sig (Elt F)) (b : Ref sig .tc) (hb : b ∈ argRefs) :
    StableHlo.after ops13 V (Proc.devRef .tc b) = V (Proc.devRef .tc b) := by arg_kept
set_option maxHeartbeats 4000000 in
theorem ops14_arg (V : Valuation τ sig (Elt F)) (b : Ref sig .tc) (hb : b ∈ argRefs) :
    StableHlo.after ops14 V (Proc.devRef .tc b) = V (Proc.devRef .tc b) := by arg_kept

section Stages

variable (m : (ℓ : Loc nD τ sig) → Buf (Elt F) ℓ) (c : Dev nD) (b : Ref sig .tc)

theorem RV0_arg (_hb : b ∈ argRefs) : RV0 m c (Proc.devRef .tc b) = m ((c.tc : Thread nD τ).loc b) := rfl
theorem RV1_arg (hb : b ∈ argRefs) : RV1 m c (Proc.devRef .tc b) = m ((c.tc : Thread nD τ).loc b) :=
  (ops0_arg (RV0 m c) b hb).trans (RV0_arg m c b hb)
theorem RV2_arg (hb : b ∈ argRefs) : RV2 m c (Proc.devRef .tc b) = m ((c.tc : Thread nD τ).loc b) :=
  (ops1_arg (RV1 m c) b hb).trans (RV1_arg m c b hb)
theorem RV3_arg (hb : b ∈ argRefs) : RV3 m c (Proc.devRef .tc b) = m ((c.tc : Thread nD τ).loc b) :=
  (ops2_arg (RV2 m c) b hb).trans (RV2_arg m c b hb)
theorem RV4_arg (hb : b ∈ argRefs) : RV4 m c (Proc.devRef .tc b) = m ((c.tc : Thread nD τ).loc b) :=
  (ops3_arg (RV3 m c) b hb).trans (RV3_arg m c b hb)
theorem RV5_arg (hb : b ∈ argRefs) : RV5 m c (Proc.devRef .tc b) = m ((c.tc : Thread nD τ).loc b) :=
  (ops4_arg (RV4 m c) b hb).trans (RV4_arg m c b hb)
theorem RV6_arg (hb : b ∈ argRefs) : RV6 m c (Proc.devRef .tc b) = m ((c.tc : Thread nD τ).loc b) :=
  (ops5_arg (RV5 m c) b hb).trans (RV5_arg m c b hb)
theorem RV7_arg (hb : b ∈ argRefs) : RV7 m c (Proc.devRef .tc b) = m ((c.tc : Thread nD τ).loc b) :=
  (ops6_arg (RV6 m c) b hb).trans (RV6_arg m c b hb)
theorem RV8_arg (hb : b ∈ argRefs) : RV8 m c (Proc.devRef .tc b) = m ((c.tc : Thread nD τ).loc b) :=
  (ops7_arg (RV7 m c) b hb).trans (RV7_arg m c b hb)
theorem RV9_arg (hb : b ∈ argRefs) : RV9 m c (Proc.devRef .tc b) = m ((c.tc : Thread nD τ).loc b) :=
  (ops8_arg (RV8 m c) b hb).trans (RV8_arg m c b hb)
theorem RV10_arg (hb : b ∈ argRefs) : RV10 m c (Proc.devRef .tc b) = m ((c.tc : Thread nD τ).loc b) :=
  (ops9_arg (RV9 m c) b hb).trans (RV9_arg m c b hb)
theorem RV11_arg (hb : b ∈ argRefs) : RV11 m c (Proc.devRef .tc b) = m ((c.tc : Thread nD τ).loc b) :=
  (ops10_arg (RV10 m c) b hb).trans (RV10_arg m c b hb)
theorem RV12_arg (hb : b ∈ argRefs) : RV12 m c (Proc.devRef .tc b) = m ((c.tc : Thread nD τ).loc b) :=
  (ops11_arg (RV11 m c) b hb).trans (RV11_arg m c b hb)
theorem RV13_arg (hb : b ∈ argRefs) : RV13 m c (Proc.devRef .tc b) = m ((c.tc : Thread nD τ).loc b) :=
  (ops12_arg (RV12 m c) b hb).trans (RV12_arg m c b hb)
theorem RV14_arg (hb : b ∈ argRefs) : RV14 m c (Proc.devRef .tc b) = m ((c.tc : Thread nD τ).loc b) :=
  (ops13_arg (RV13 m c) b hb).trans (RV13_arg m c b hb)
theorem RV15_arg (hb : b ∈ argRefs) : RV15 m c (Proc.devRef .tc b) = m ((c.tc : Thread nD τ).loc b) :=
  (ops14_arg (RV14 m c) b hb).trans (RV14_arg m c b hb)

end Stages

end Cert.ReferenceIdeal.Hand

end
-- ==== Proof.KI.LibVal.lean ====
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

namespace Cert.KernelIdeal.Hand

open Idealize.ShloMosaic Idealize.ShloMosaic.ValueIdx

theorem zero_off : (![0, 0] : Fin 2 → Nat) = fun _ => 0 := funext fun a => by fin_cases a <;> rfl

variable {M m k n : Nat}

/-- The dense layer `f (x · w + b)` at an index: a row of `x` against a column of `w`, plus the bias at that column. -/
def dense (f : EReal → EReal) (x : (⟨2, ![M, k]⟩ : Shape).Idx → EReal) (w : (⟨2, ![k, n]⟩ : Shape).Idx → EReal)
    (b : (⟨2, ![1, n]⟩ : Shape).Idx → EReal) : (⟨2, ![M, n]⟩ : Shape).Idx → EReal :=
  fun i => f ((∑ c : Fin k, x (ix2 (i 0) c) * w (ix2 c (i 1))) + b (ix2 (0 : Fin 1) (i 1)))

/-- Products summed onto zero are the plain sum of products, and a one-row bias laid over every row reads its one row. -/
theorem matmul_bias_apply {φ₁ φ₂ : FTy} (x : FVec Ideal ⟨2, ![m, k]⟩ φ₁) (w : FVec Ideal ⟨2, ![k, n]⟩ φ₂)
    (b : FVec Ideal ⟨2, ![1, n]⟩ .f32) (hb : (⟨2, ![1, n]⟩ : Shape).Broadcasts ⟨2, ![m, n]⟩) (y : (⟨2, ![m, n]⟩ : Shape).Idx) :
    addf (matmul (DotDims.plain m k n) none x w (constant ⟨2, ![m, n]⟩ .f32 0x00000000#32)) (broadcastTo ⟨2, ![m, n]⟩ b hb) y
      = dense (M := m) (fun s => s) x w b y := by
  obtain ⟨p, q, rfl⟩ : ∃ (p : Fin m) (q : Fin n), y = ix2 p q := ⟨y 0, y 1, eq_ix2 y⟩
  rw [addf_apply, broadcastTo_1b_ab_apply, matmul_zero_eq_dotGeneral, StackMember.dotGeneral_plain_apply]
  rfl

/-- `dense` of row block `r` of `X` with all of `W` and `B` is row block `r` of `dense X W B`; `hj` says where `ej` puts an element. -/
theorem dense_block (f : EReal → EReal) (X : (⟨2, ![M, k]⟩ : Shape).Idx → EReal) (W : (⟨2, ![k, n]⟩ : Shape).Idx → EReal)
    (B : (⟨2, ![1, n]⟩ : Shape).Idx → EReal)
    (e0 : (⟨2, ![m, k]⟩ : Shape).Idx → (⟨2, ![M, k]⟩ : Shape).Idx) (e1 : (⟨2, ![k, n]⟩ : Shape).Idx → (⟨2, ![k, n]⟩ : Shape).Idx)
    (e2 : (⟨2, ![1, n]⟩ : Shape).Idx → (⟨2, ![1, n]⟩ : Shape).Idx) (e3 : (⟨2, ![m, n]⟩ : Shape).Idx → (⟨2, ![M, n]⟩ : Shape).Idx)
    (i0 i1 i2 i3 : Fin 2 → Nat) (r : Nat) (hi : i0 = ![r, 0] ∧ i1 = ![0, 0] ∧ i2 = ![0, 0] ∧ i3 = ![r, 0])
    (h0 : ∀ y a, ((e0 y a : Fin _) : Nat) = i0 a * (![m, k] : Fin 2 → Nat) a + y a)
    (h1 : ∀ y a, ((e1 y a : Fin _) : Nat) = i1 a * (![k, n] : Fin 2 → Nat) a + y a)
    (h2 : ∀ y a, ((e2 y a : Fin _) : Nat) = i2 a * (![1, n] : Fin 2 → Nat) a + y a)
    (h3 : ∀ y a, ((e3 y a : Fin _) : Nat) = i3 a * (![m, n] : Fin 2 → Nat) a + y a)
    (y : (⟨2, ![m, n]⟩ : Shape).Idx) :
    dense (M := m) f (fun j => X (e0 j)) (fun j => W (e1 j)) (fun j => B (e2 j)) y = dense f X W B (e3 y) := by
  obtain ⟨rfl, rfl, rfl, rfl⟩ := hi
  have a0 : ∀ c, e0 (ix2 (y 0) c) = ix2 (e3 y 0) c := fun c =>
    Shape.idx_ext₂ ((h0 _ 0).trans (h3 y 0).symm) ((h0 _ 1).trans (by show 0 * k + c.val = c.val; omega))
  have a1 : ∀ c, e1 (ix2 c (y 1)) = ix2 c (e3 y 1) := fun c =>
    Shape.idx_ext₂ ((h1 _ 0).trans (by show 0 * k + c.val = c.val; omega)) ((h1 _ 1).trans (h3 y 1).symm)
  have a2 : e2 (ix2 (0 : Fin 1) (y 1)) = ix2 (0 : Fin 1) (e3 y 1) :=
    Shape.idx_ext₂ ((h2 _ 0).trans (by show 0 * 1 + 0 = 0; omega)) ((h2 _ 1).trans (h3 y 1).symm)
  unfold dense
  simp only [a0, a1, a2]
  rfl

/-- Row `r` lies in row block number `r / m` when the blocks have `m` rows and all the columns. -/
theorem mem_rowBlock (hm : 0 < m) (i : (⟨2, ![M, n]⟩ : Shape).Idx) (idx size : Fin 2 → Nat)
    (hidx : idx = ![(i 0).val / m, 0]) (hsize : size = ![m, n]) (inb) :
    i ∈ (Rect.unit (s := ⟨2, ![M, n]⟩) (fun a => idx a * (![m, n] : Fin 2 → Nat) a) size inb).set := by
  subst hidx hsize
  rw [Rect.mem_set_unit]
  intro a
  match a with
  | ⟨0, _⟩ => exact ⟨Nat.div_mul_le_self _ _, Nat.lt_div_mul_add hm⟩
  | ⟨1, _⟩ => exact ⟨by show 0 * n ≤ _; omega, by show (i 1).val < 0 * n + n; have := idx2_lt1 i; omega⟩

end Cert.KernelIdeal.Hand

end
-- ==== Proof.KI.Val0.lean ====
import proofs.«130450_j89593017795077_1_alg».proof.Proof.KI.Reg0
import proofs.«130450_j89593017795077_1_alg».proof.Proof.KI.LibVal

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev X0 (c : Dev nD) : Vec Ideal S20000x512 .bf16 := V c (Pipeline.arrRef spec0 0)
abbrev Wt0 (c : Dev nD) : Vec Ideal S512x1536 .bf16 := V c (Pipeline.arrRef spec0 1)
abbrev B0 (c : Dev nD) : Vec Ideal S1x1536 .f32 := V c (Pipeline.arrRef spec0 2)

theorem idx_facts0 : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- By `dense_block`: the layer on row block `t` of the rows is row block `t` of the layer on all the rows. -/
theorem flushed0_eq (c : Dev nD) (t : Fin cfg0.N) :
    (dat0 V c).flushed 3 t
      = ((cfg0.win 3).blk t).view.read (Elt Ideal) (dense (fun s => s) (X0 V c) (Wt0 V c) (B0 V c)) := by
  show (cfg0.win 3).cut (grid0.coords t) ((dat0 V c).after 3 t) = _
  rw [after0_3]
  unfold out0_3 k0_pay1
  rw [View.canon_unit_zero zero_off]
  simp only [View.ld_unit_zero (S := S800x512) zero_off, View.ld_unit_zero (S := S512x1536) zero_off,
    View.ld_unit_zero (S := S1x1536) zero_off, shapeCast_self]
  funext y
  exact (matmul_bias_apply _ _ _ _ y).trans (dense_block (fun s => s) (X0 V c) (Wt0 V c) (B0 V c)
    ((cfg0.win 0).blk t).view.emb ((cfg0.win 1).blk t).view.emb ((cfg0.win 2).blk t).view.emb ((cfg0.win 3).blk t).view.emb
    _ _ _ _ t.val (idx_facts0 t) (win0_0.rect_emb_val t) (win0_1.rect_emb_val t) (win0_2.rect_emb_val t)
    (win0_3.rect_emb_val t) y)

theorem cover0 (i : S20000x1536.Idx) :
    ∃ t : Fin cfg0.N, (cfg0.win 3).flush t = true ∧ i ∈ ((cfg0.win 3).blk t).view.set := by
  have ht : (i 0).val / 800 < cfg0.N := by have := idx2_lt0 i; show _ < 25; omega
  refine ⟨⟨_, ht⟩, flush0_3 _, ?_⟩
  show i ∈ ((View.whole main_v15).slice (win0_3.rect ⟨_, ht⟩)).set
  rw [View.set_slice_whole]
  exact mem_rowBlock (by decide) i _ _ (idx_facts0 _).2.2.2 rfl _

theorem reg0_value_apply (c : Dev nD) : ∀ (n : Fin 20000) (j : Fin 1536),
    ((dat0 V c).arrAt 3 cfg0.N : Vec Ideal S20000x1536 .f32) (ix2 n j)
      = (∑ k : Fin 512, X0 V c (ix2 n k) * Wt0 V c (ix2 k j)) + B0 V c (ix2 (0 : Fin 1) j) := fun n j =>
  congrFun ((dat0 V c).arrAt_eq_of_cover 3 _ (fun t _ => flushed0_eq V c t) cover0) (ix2 n j)

end Cert.KernelIdeal.Hand
-- ==== Proof.KI.Val1.lean ====
import proofs.«130450_j89593017795077_1_alg».proof.Proof.KI.Reg1
import proofs.«130450_j89593017795077_1_alg».proof.Proof.KI.LibVal

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev X1 (c : Dev nD) : Vec Ideal S20000x512 .bf16 := V c (Pipeline.arrRef spec1 0)
abbrev Wt1 (c : Dev nD) : Vec Ideal S512x512 .bf16 := V c (Pipeline.arrRef spec1 1)
abbrev B1 (c : Dev nD) : Vec Ideal S1x512 .f32 := V c (Pipeline.arrRef spec1 2)

theorem idx_facts1 : ∀ t : Fin cfg1.N, win1_0.index t = ![t.val, 0] ∧ win1_1.index t = ![0, 0]
    ∧ win1_2.index t = ![0, 0] ∧ win1_3.index t = ![t.val, 0] :=
  (by decide +kernel : ∀ t : Fin grid1.N, _)

/-- By `dense_block`: the layer on row block `t` of the rows is row block `t` of the layer on all the rows. -/
theorem flushed1_eq (c : Dev nD) (t : Fin cfg1.N) :
    (dat1 V c).flushed 3 t
      = ((cfg1.win 3).blk t).view.read (Elt Ideal) (dense (fun s => s) (X1 V c) (Wt1 V c) (B1 V c)) := by
  show (cfg1.win 3).cut (grid1.coords t) ((dat1 V c).after 3 t) = _
  rw [after1_3]
  unfold out1_3 k1_pay1
  rw [View.canon_unit_zero zero_off]
  simp only [View.ld_unit_zero (S := S800x512) zero_off, View.ld_unit_zero (S := S512x512) zero_off,
    View.ld_unit_zero (S := S1x512) zero_off, shapeCast_self]
  funext y
  exact (matmul_bias_apply _ _ _ _ y).trans (dense_block (fun s => s) (X1 V c) (Wt1 V c) (B1 V c)
    ((cfg1.win 0).blk t).view.emb ((cfg1.win 1).blk t).view.emb ((cfg1.win 2).blk t).view.emb ((cfg1.win 3).blk t).view.emb
    _ _ _ _ t.val (idx_facts1 t) (win1_0.rect_emb_val t) (win1_1.rect_emb_val t) (win1_2.rect_emb_val t)
    (win1_3.rect_emb_val t) y)

theorem cover1 (i : S20000x512.Idx) :
    ∃ t : Fin cfg1.N, (cfg1.win 3).flush t = true ∧ i ∈ ((cfg1.win 3).blk t).view.set := by
  have ht : (i 0).val / 800 < cfg1.N := by have := idx2_lt0 i; show _ < 25; omega
  refine ⟨⟨_, ht⟩, flush1_3 _, ?_⟩
  show i ∈ ((View.whole main_v81).slice (win1_3.rect ⟨_, ht⟩)).set
  rw [View.set_slice_whole]
  exact mem_rowBlock (by decide) i _ _ (idx_facts1 _).2.2.2 rfl _

theorem reg1_value_apply (c : Dev nD) : ∀ (n : Fin 20000) (j : Fin 512),
    ((dat1 V c).arrAt 3 cfg1.N : Vec Ideal S20000x512 .f32) (ix2 n j)
      = (∑ k : Fin 512, X1 V c (ix2 n k) * Wt1 V c (ix2 k j)) + B1 V c (ix2 (0 : Fin 1) j) := fun n j =>
  congrFun ((dat1 V c).arrAt_eq_of_cover 3 _ (fun t _ => flushed1_eq V c t) cover1) (ix2 n j)

end Cert.KernelIdeal.Hand
-- ==== Proof.KI.Val2.lean ====
import proofs.«130450_j89593017795077_1_alg».proof.Proof.KI.Reg2
import proofs.«130450_j89593017795077_1_alg».proof.Proof.KI.LibVal

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev X2 (c : Dev nD) : Vec Ideal S20000x512 .bf16 := V c (Pipeline.arrRef spec2 0)
abbrev Wt2 (c : Dev nD) : Vec Ideal S512x2048 .bf16 := V c (Pipeline.arrRef spec2 1)
abbrev B2 (c : Dev nD) : Vec Ideal S1x2048 .f32 := V c (Pipeline.arrRef spec2 2)

theorem idx_facts2 : ∀ t : Fin cfg2.N, win2_0.index t = ![t.val, 0] ∧ win2_1.index t = ![0, 0]
    ∧ win2_2.index t = ![0, 0] ∧ win2_3.index t = ![t.val, 0] :=
  (by decide +kernel : ∀ t : Fin grid2.N, _)

/-- By `dense_block`: the layer on row block `t` of the rows is row block `t` of the layer on all the rows. -/
theorem flushed2_eq (c : Dev nD) (t : Fin cfg2.N) :
    (dat2 V c).flushed 3 t
      = ((cfg2.win 3).blk t).view.read (Elt Ideal) (dense (max · 0) (X2 V c) (Wt2 V c) (B2 V c)) := by
  show (cfg2.win 3).cut (grid2.coords t) ((dat2 V c).after 3 t) = _
  rw [after2_3]
  unfold out2_3 k2_pay1
  rw [View.canon_unit_zero zero_off]
  simp only [View.ld_unit_zero (S := S800x512) zero_off, View.ld_unit_zero (S := S512x2048) zero_off,
    View.ld_unit_zero (S := S1x2048) zero_off, shapeCast_self]
  funext y
  show max (addf _ _ y) (Ideal.ofBits .f32 0x00000000#32) = _
  rw [Ideal.ofBits_zero_f32]
  exact (congrArg (max · (0 : EReal)) (matmul_bias_apply _ _ _ _ y)).trans (dense_block (max · 0) (X2 V c) (Wt2 V c) (B2 V c)
    ((cfg2.win 0).blk t).view.emb ((cfg2.win 1).blk t).view.emb ((cfg2.win 2).blk t).view.emb ((cfg2.win 3).blk t).view.emb
    _ _ _ _ t.val (idx_facts2 t) (win2_0.rect_emb_val t) (win2_1.rect_emb_val t) (win2_2.rect_emb_val t)
    (win2_3.rect_emb_val t) y)

theorem cover2 (i : S20000x2048.Idx) :
    ∃ t : Fin cfg2.N, (cfg2.win 3).flush t = true ∧ i ∈ ((cfg2.win 3).blk t).view.set := by
  have ht : (i 0).val / 800 < cfg2.N := by have := idx2_lt0 i; show _ < 25; omega
  refine ⟨⟨_, ht⟩, flush2_3 _, ?_⟩
  show i ∈ ((View.whole main_v118).slice (win2_3.rect ⟨_, ht⟩)).set
  rw [View.set_slice_whole]
  exact mem_rowBlock (by decide) i _ _ (idx_facts2 _).2.2.2 rfl _

theorem reg2_value_apply (c : Dev nD) : ∀ (n : Fin 20000) (j : Fin 2048),
    ((dat2 V c).arrAt 3 cfg2.N : Vec Ideal S20000x2048 .bf16) (ix2 n j)
      = max ((∑ k : Fin 512, X2 V c (ix2 n k) * Wt2 V c (ix2 k j)) + B2 V c (ix2 (0 : Fin 1) j)) (0 : EReal) := fun n j =>
  congrFun ((dat2 V c).arrAt_eq_of_cover 3 _ (fun t _ => flushed2_eq V c t) cover2) (ix2 n j)

end Cert.KernelIdeal.Hand
-- ==== Proof.KI.Val3.lean ====
import proofs.«130450_j89593017795077_1_alg».proof.Proof.KI.Reg3
import proofs.«130450_j89593017795077_1_alg».proof.Proof.KI.LibVal

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev X3 (c : Dev nD) : Vec Ideal S20000x2048 .bf16 := V c (Pipeline.arrRef spec3 0)
abbrev Wt3 (c : Dev nD) : Vec Ideal S2048x512 .bf16 := V c (Pipeline.arrRef spec3 1)
abbrev B3 (c : Dev nD) : Vec Ideal S1x512 .f32 := V c (Pipeline.arrRef spec3 2)

theorem idx_facts3 : ∀ t : Fin cfg3.N, win3_0.index t = ![t.val, 0] ∧ win3_1.index t = ![0, 0]
    ∧ win3_2.index t = ![0, 0] ∧ win3_3.index t = ![t.val, 0] :=
  (by decide +kernel : ∀ t : Fin grid3.N, _)

/-- By `dense_block`: the layer on row block `t` of the rows is row block `t` of the layer on all the rows. -/
theorem flushed3_eq (c : Dev nD) (t : Fin cfg3.N) :
    (dat3 V c).flushed 3 t
      = ((cfg3.win 3).blk t).view.read (Elt Ideal) (dense (fun s => s) (X3 V c) (Wt3 V c) (B3 V c)) := by
  show (cfg3.win 3).cut (grid3.coords t) ((dat3 V c).after 3 t) = _
  rw [after3_3]
  unfold out3_3 k3_pay1
  rw [View.canon_unit_zero zero_off]
  simp only [View.ld_unit_zero (S := S800x2048) zero_off, View.ld_unit_zero (S := S2048x512) zero_off,
    View.ld_unit_zero (S := S1x512) zero_off, shapeCast_self]
  funext y
  exact (matmul_bias_apply _ _ _ _ y).trans (dense_block (fun s => s) (X3 V c) (Wt3 V c) (B3 V c)
    ((cfg3.win 0).blk t).view.emb ((cfg3.win 1).blk t).view.emb ((cfg3.win 2).blk t).view.emb ((cfg3.win 3).blk t).view.emb
    _ _ _ _ t.val (idx_facts3 t) (win3_0.rect_emb_val t) (win3_1.rect_emb_val t) (win3_2.rect_emb_val t)
    (win3_3.rect_emb_val t) y)

theorem cover3 (i : S20000x512.Idx) :
    ∃ t : Fin cfg3.N, (cfg3.win 3).flush t = true ∧ i ∈ ((cfg3.win 3).blk t).view.set := by
  have ht : (i 0).val / 800 < cfg3.N := by have := idx2_lt0 i; show _ < 25; omega
  refine ⟨⟨_, ht⟩, flush3_3 _, ?_⟩
  show i ∈ ((View.whole main_v125).slice (win3_3.rect ⟨_, ht⟩)).set
  rw [View.set_slice_whole]
  exact mem_rowBlock (by decide) i _ _ (idx_facts3 _).2.2.2 rfl _

theorem reg3_value_apply (c : Dev nD) : ∀ (n : Fin 20000) (j : Fin 512),
    ((dat3 V c).arrAt 3 cfg3.N : Vec Ideal S20000x512 .f32) (ix2 n j)
      = (∑ k : Fin 2048, X3 V c (ix2 n k) * Wt3 V c (ix2 k j)) + B3 V c (ix2 (0 : Fin 1) j) := fun n j =>
  congrFun ((dat3 V c).arrAt_eq_of_cover 3 _ (fun t _ => flushed3_eq V c t) cover3) (ix2 n j)

end Cert.KernelIdeal.Hand
-- ==== Proof.KI.Val4.lean ====
import proofs.«130450_j89593017795077_1_alg».proof.Proof.KI.Reg4
import proofs.«130450_j89593017795077_1_alg».proof.Proof.KI.LibVal

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev X4 (c : Dev nD) : Vec Ideal S20000x512 .bf16 := V c (Pipeline.arrRef spec4 0)
abbrev Wt4 (c : Dev nD) : Vec Ideal S512x1536 .bf16 := V c (Pipeline.arrRef spec4 1)
abbrev B4 (c : Dev nD) : Vec Ideal S1x1536 .f32 := V c (Pipeline.arrRef spec4 2)

theorem idx_facts4 : ∀ t : Fin cfg4.N, win4_0.index t = ![t.val, 0] ∧ win4_1.index t = ![0, 0]
    ∧ win4_2.index t = ![0, 0] ∧ win4_3.index t = ![t.val, 0] :=
  (by decide +kernel : ∀ t : Fin grid4.N, _)

/-- By `dense_block`: the layer on row block `t` of the rows is row block `t` of the layer on all the rows. -/
theorem flushed4_eq (c : Dev nD) (t : Fin cfg4.N) :
    (dat4 V c).flushed 3 t
      = ((cfg4.win 3).blk t).view.read (Elt Ideal) (dense (fun s => s) (X4 V c) (Wt4 V c) (B4 V c)) := by
  show (cfg4.win 3).cut (grid4.coords t) ((dat4 V c).after 3 t) = _
  rw [after4_3]
  unfold out4_3 k4_pay1
  rw [View.canon_unit_zero zero_off]
  simp only [View.ld_unit_zero (S := S800x512) zero_off, View.ld_unit_zero (S := S512x1536) zero_off,
    View.ld_unit_zero (S := S1x1536) zero_off, shapeCast_self]
  funext y
  exact (matmul_bias_apply _ _ _ _ y).trans (dense_block (fun s => s) (X4 V c) (Wt4 V c) (B4 V c)
    ((cfg4.win 0).blk t).view.emb ((cfg4.win 1).blk t).view.emb ((cfg4.win 2).blk t).view.emb ((cfg4.win 3).blk t).view.emb
    _ _ _ _ t.val (idx_facts4 t) (win4_0.rect_emb_val t) (win4_1.rect_emb_val t) (win4_2.rect_emb_val t)
    (win4_3.rect_emb_val t) y)

theorem cover4 (i : S20000x1536.Idx) :
    ∃ t : Fin cfg4.N, (cfg4.win 3).flush t = true ∧ i ∈ ((cfg4.win 3).blk t).view.set := by
  have ht : (i 0).val / 800 < cfg4.N := by have := idx2_lt0 i; show _ < 25; omega
  refine ⟨⟨_, ht⟩, flush4_3 _, ?_⟩
  show i ∈ ((View.whole main_v170).slice (win4_3.rect ⟨_, ht⟩)).set
  rw [View.set_slice_whole]
  exact mem_rowBlock (by decide) i _ _ (idx_facts4 _).2.2.2 rfl _

theorem reg4_value_apply (c : Dev nD) : ∀ (n : Fin 20000) (j : Fin 1536),
    ((dat4 V c).arrAt 3 cfg4.N : Vec Ideal S20000x1536 .f32) (ix2 n j)
      = (∑ k : Fin 512, X4 V c (ix2 n k) * Wt4 V c (ix2 k j)) + B4 V c (ix2 (0 : Fin 1) j) := fun n j =>
  congrFun ((dat4 V c).arrAt_eq_of_cover 3 _ (fun t _ => flushed4_eq V c t) cover4) (ix2 n j)

end Cert.KernelIdeal.Hand
-- ==== Proof.KI.Val5.lean ====
import proofs.«130450_j89593017795077_1_alg».proof.Proof.KI.Reg5
import proofs.«130450_j89593017795077_1_alg».proof.Proof.KI.LibVal

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev X5 (c : Dev nD) : Vec Ideal S20000x512 .bf16 := V c (Pipeline.arrRef spec5 0)
abbrev Wt5 (c : Dev nD) : Vec Ideal S512x512 .bf16 := V c (Pipeline.arrRef spec5 1)
abbrev B5 (c : Dev nD) : Vec Ideal S1x512 .f32 := V c (Pipeline.arrRef spec5 2)

theorem idx_facts5 : ∀ t : Fin cfg5.N, win5_0.index t = ![t.val, 0] ∧ win5_1.index t = ![0, 0]
    ∧ win5_2.index t = ![0, 0] ∧ win5_3.index t = ![t.val, 0] :=
  (by decide +kernel : ∀ t : Fin grid5.N, _)

/-- By `dense_block`: the layer on row block `t` of the rows is row block `t` of the layer on all the rows. -/
theorem flushed5_eq (c : Dev nD) (t : Fin cfg5.N) :
    (dat5 V c).flushed 3 t
      = ((cfg5.win 3).blk t).view.read (Elt Ideal) (dense (fun s => s) (X5 V c) (Wt5 V c) (B5 V c)) := by
  show (cfg5.win 3).cut (grid5.coords t) ((dat5 V c).after 3 t) = _
  rw [after5_3]
  unfold out5_3 k5_pay1
  rw [View.canon_unit_zero zero_off]
  simp only [View.ld_unit_zero (S := S800x512) zero_off, View.ld_unit_zero (S := S512x512) zero_off,
    View.ld_unit_zero (S := S1x512) zero_off, shapeCast_self]
  funext y
  exact (matmul_bias_apply _ _ _ _ y).trans (dense_block (fun s => s) (X5 V c) (Wt5 V c) (B5 V c)
    ((cfg5.win 0).blk t).view.emb ((cfg5.win 1).blk t).view.emb ((cfg5.win 2).blk t).view.emb ((cfg5.win 3).blk t).view.emb
    _ _ _ _ t.val (idx_facts5 t) (win5_0.rect_emb_val t) (win5_1.rect_emb_val t) (win5_2.rect_emb_val t)
    (win5_3.rect_emb_val t) y)

theorem cover5 (i : S20000x512.Idx) :
    ∃ t : Fin cfg5.N, (cfg5.win 3).flush t = true ∧ i ∈ ((cfg5.win 3).blk t).view.set := by
  have ht : (i 0).val / 800 < cfg5.N := by have := idx2_lt0 i; show _ < 25; omega
  refine ⟨⟨_, ht⟩, flush5_3 _, ?_⟩
  show i ∈ ((View.whole main_v236).slice (win5_3.rect ⟨_, ht⟩)).set
  rw [View.set_slice_whole]
  exact mem_rowBlock (by decide) i _ _ (idx_facts5 _).2.2.2 rfl _

theorem reg5_value_apply (c : Dev nD) : ∀ (n : Fin 20000) (j : Fin 512),
    ((dat5 V c).arrAt 3 cfg5.N : Vec Ideal S20000x512 .f32) (ix2 n j)
      = (∑ k : Fin 512, X5 V c (ix2 n k) * Wt5 V c (ix2 k j)) + B5 V c (ix2 (0 : Fin 1) j) := fun n j =>
  congrFun ((dat5 V c).arrAt_eq_of_cover 3 _ (fun t _ => flushed5_eq V c t) cover5) (ix2 n j)

end Cert.KernelIdeal.Hand
-- ==== Proof.KI.Val6.lean ====
import proofs.«130450_j89593017795077_1_alg».proof.Proof.KI.Reg6
import proofs.«130450_j89593017795077_1_alg».proof.Proof.KI.LibVal

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev X6 (c : Dev nD) : Vec Ideal S20000x512 .bf16 := V c (Pipeline.arrRef spec6 0)
abbrev Wt6 (c : Dev nD) : Vec Ideal S512x2048 .bf16 := V c (Pipeline.arrRef spec6 1)
abbrev B6 (c : Dev nD) : Vec Ideal S1x2048 .f32 := V c (Pipeline.arrRef spec6 2)

theorem idx_facts6 : ∀ t : Fin cfg6.N, win6_0.index t = ![t.val, 0] ∧ win6_1.index t = ![0, 0]
    ∧ win6_2.index t = ![0, 0] ∧ win6_3.index t = ![t.val, 0] :=
  (by decide +kernel : ∀ t : Fin grid6.N, _)

/-- By `dense_block`: the layer on row block `t` of the rows is row block `t` of the layer on all the rows. -/
theorem flushed6_eq (c : Dev nD) (t : Fin cfg6.N) :
    (dat6 V c).flushed 3 t
      = ((cfg6.win 3).blk t).view.read (Elt Ideal) (dense (max · 0) (X6 V c) (Wt6 V c) (B6 V c)) := by
  show (cfg6.win 3).cut (grid6.coords t) ((dat6 V c).after 3 t) = _
  rw [after6_3]
  unfold out6_3 k6_pay1
  rw [View.canon_unit_zero zero_off]
  simp only [View.ld_unit_zero (S := S800x512) zero_off, View.ld_unit_zero (S := S512x2048) zero_off,
    View.ld_unit_zero (S := S1x2048) zero_off, shapeCast_self]
  funext y
  show max (addf _ _ y) (Ideal.ofBits .f32 0x00000000#32) = _
  rw [Ideal.ofBits_zero_f32]
  exact (congrArg (max · (0 : EReal)) (matmul_bias_apply _ _ _ _ y)).trans (dense_block (max · 0) (X6 V c) (Wt6 V c) (B6 V c)
    ((cfg6.win 0).blk t).view.emb ((cfg6.win 1).blk t).view.emb ((cfg6.win 2).blk t).view.emb ((cfg6.win 3).blk t).view.emb
    _ _ _ _ t.val (idx_facts6 t) (win6_0.rect_emb_val t) (win6_1.rect_emb_val t) (win6_2.rect_emb_val t)
    (win6_3.rect_emb_val t) y)

theorem cover6 (i : S20000x2048.Idx) :
    ∃ t : Fin cfg6.N, (cfg6.win 3).flush t = true ∧ i ∈ ((cfg6.win 3).blk t).view.set := by
  have ht : (i 0).val / 800 < cfg6.N := by have := idx2_lt0 i; show _ < 25; omega
  refine ⟨⟨_, ht⟩, flush6_3 _, ?_⟩
  show i ∈ ((View.whole main_v273).slice (win6_3.rect ⟨_, ht⟩)).set
  rw [View.set_slice_whole]
  exact mem_rowBlock (by decide) i _ _ (idx_facts6 _).2.2.2 rfl _

theorem reg6_value_apply (c : Dev nD) : ∀ (n : Fin 20000) (j : Fin 2048),
    ((dat6 V c).arrAt 3 cfg6.N : Vec Ideal S20000x2048 .bf16) (ix2 n j)
      = max ((∑ k : Fin 512, X6 V c (ix2 n k) * Wt6 V c (ix2 k j)) + B6 V c (ix2 (0 : Fin 1) j)) (0 : EReal) := fun n j =>
  congrFun ((dat6 V c).arrAt_eq_of_cover 3 _ (fun t _ => flushed6_eq V c t) cover6) (ix2 n j)

end Cert.KernelIdeal.Hand
-- ==== Proof.KI.Val7.lean ====
import proofs.«130450_j89593017795077_1_alg».proof.Proof.KI.Reg7
import proofs.«130450_j89593017795077_1_alg».proof.Proof.KI.LibVal

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev X7 (c : Dev nD) : Vec Ideal S20000x2048 .bf16 := V c (Pipeline.arrRef spec7 0)
abbrev Wt7 (c : Dev nD) : Vec Ideal S2048x512 .bf16 := V c (Pipeline.arrRef spec7 1)
abbrev B7 (c : Dev nD) : Vec Ideal S1x512 .f32 := V c (Pipeline.arrRef spec7 2)

theorem idx_facts7 : ∀ t : Fin cfg7.N, win7_0.index t = ![t.val, 0] ∧ win7_1.index t = ![0, 0]
    ∧ win7_2.index t = ![0, 0] ∧ win7_3.index t = ![t.val, 0] :=
  (by decide +kernel : ∀ t : Fin grid7.N, _)

/-- By `dense_block`: the layer on row block `t` of the rows is row block `t` of the layer on all the rows. -/
theorem flushed7_eq (c : Dev nD) (t : Fin cfg7.N) :
    (dat7 V c).flushed 3 t
      = ((cfg7.win 3).blk t).view.read (Elt Ideal) (dense (fun s => s) (X7 V c) (Wt7 V c) (B7 V c)) := by
  show (cfg7.win 3).cut (grid7.coords t) ((dat7 V c).after 3 t) = _
  rw [after7_3]
  unfold out7_3 k7_pay1
  rw [View.canon_unit_zero zero_off]
  simp only [View.ld_unit_zero (S := S800x2048) zero_off, View.ld_unit_zero (S := S2048x512) zero_off,
    View.ld_unit_zero (S := S1x512) zero_off, shapeCast_self]
  funext y
  exact (matmul_bias_apply _ _ _ _ y).trans (dense_block (fun s => s) (X7 V c) (Wt7 V c) (B7 V c)
    ((cfg7.win 0).blk t).view.emb ((cfg7.win 1).blk t).view.emb ((cfg7.win 2).blk t).view.emb ((cfg7.win 3).blk t).view.emb
    _ _ _ _ t.val (idx_facts7 t) (win7_0.rect_emb_val t) (win7_1.rect_emb_val t) (win7_2.rect_emb_val t)
    (win7_3.rect_emb_val t) y)

theorem cover7 (i : S20000x512.Idx) :
    ∃ t : Fin cfg7.N, (cfg7.win 3).flush t = true ∧ i ∈ ((cfg7.win 3).blk t).view.set := by
  have ht : (i 0).val / 800 < cfg7.N := by have := idx2_lt0 i; show _ < 25; omega
  refine ⟨⟨_, ht⟩, flush7_3 _, ?_⟩
  show i ∈ ((View.whole main_v280).slice (win7_3.rect ⟨_, ht⟩)).set
  rw [View.set_slice_whole]
  exact mem_rowBlock (by decide) i _ _ (idx_facts7 _).2.2.2 rfl _

theorem reg7_value_apply (c : Dev nD) : ∀ (n : Fin 20000) (j : Fin 512),
    ((dat7 V c).arrAt 3 cfg7.N : Vec Ideal S20000x512 .f32) (ix2 n j)
      = (∑ k : Fin 2048, X7 V c (ix2 n k) * Wt7 V c (ix2 k j)) + B7 V c (ix2 (0 : Fin 1) j) := fun n j =>
  congrFun ((dat7 V c).arrAt_eq_of_cover 3 _ (fun t _ => flushed7_eq V c t) cover7) (ix2 n j)

end Cert.KernelIdeal.Hand
-- ==== Proof.KI.RegHyp.lean ====
import proofs.«130450_j89593017795077_1_alg».proof.Proof.Gen.KernelIdeal.Regions
import Idealize.ShloMosaic.Lib.ValueIdx
import Idealize.ShloMosaic.PureOps.Ideal

noncomputable section

namespace Cert.KernelIdeal.Hand

open Cert.KernelIdeal Cert.KernelIdeal.Gen Idealize.ShloMosaic Idealize.ShloMosaic.TcCoe Idealize.ShloMosaic.ValueIdx

abbrev rx0 (m : (ℓ : Loc nD τ sig) → Buf (Elt Ideal) ℓ) (outs : Gen.Outs (F := Ideal)) (c : Dev nD) : Vec Ideal S20000x512 .bf16 := Gen.V1 m c main_v13
abbrev rw0 (m : (ℓ : Loc nD τ sig) → Buf (Elt Ideal) ℓ) (outs : Gen.Outs (F := Ideal)) (c : Dev nD) : Vec Ideal S512x1536 .bf16 := Gen.V1 m c main_v7
abbrev rb0 (m : (ℓ : Loc nD τ sig) → Buf (Elt Ideal) ℓ) (outs : Gen.Outs (F := Ideal)) (c : Dev nD) : Vec Ideal S1x1536 .f32 := Gen.V1 m c main_v14
abbrev ro0 (m : (ℓ : Loc nD τ sig) → Buf (Elt Ideal) ℓ) (outs : Gen.Outs (F := Ideal)) (c : Dev nD) : Vec Ideal S20000x1536 .f32 := outs 2 main_v15 c

def RegHyp0 (m : (ℓ : Loc nD τ sig) → Buf (Elt Ideal) ℓ) (outs : Gen.Outs (F := Ideal)) (c : Dev nD) : Prop := ∀ (n : Fin 20000) (j : Fin 1536), ro0 m outs c (ix2 n j) = (∑ k : Fin 512, rx0 m outs c (ix2 n k) * rw0 m outs c (ix2 k j)) + rb0 m outs c (ix2 (0 : Fin 1) j)

abbrev rx1 (m : (ℓ : Loc nD τ sig) → Buf (Elt Ideal) ℓ) (outs : Gen.Outs (F := Ideal)) (c : Dev nD) : Vec Ideal S20000x512 .bf16 := Gen.V5 m outs c main_v74
abbrev rw1 (m : (ℓ : Loc nD τ sig) → Buf (Elt Ideal) ℓ) (outs : Gen.Outs (F := Ideal)) (c : Dev nD) : Vec Ideal S512x512 .bf16 := Gen.V5 m outs c main_v77
abbrev rb1 (m : (ℓ : Loc nD τ sig) → Buf (Elt Ideal) ℓ) (outs : Gen.Outs (F := Ideal)) (c : Dev nD) : Vec Ideal S1x512 .f32 := Gen.V5 m outs c main_v80
abbrev ro1 (m : (ℓ : Loc nD τ sig) → Buf (Elt Ideal) ℓ) (outs : Gen.Outs (F := Ideal)) (c : Dev nD) : Vec Ideal S20000x512 .f32 := outs 6 main_v81 c

def RegHyp1 (m : (ℓ : Loc nD τ sig) → Buf (Elt Ideal) ℓ) (outs : Gen.Outs (F := Ideal)) (c : Dev nD) : Prop := ∀ (n : Fin 20000) (j : Fin 512), ro1 m outs c (ix2 n j) = (∑ k : Fin 512, rx1 m outs c (ix2 n k) * rw1 m outs c (ix2 k j)) + rb1 m outs c (ix2 (0 : Fin 1) j)

abbrev rx2 (m : (ℓ : Loc nD τ sig) → Buf (Elt Ideal) ℓ) (outs : Gen.Outs (F := Ideal)) (c : Dev nD) : Vec Ideal S20000x512 .bf16 := Gen.V7 m outs c main_v111
abbrev rw2 (m : (ℓ : Loc nD τ sig) → Buf (Elt Ideal) ℓ) (outs : Gen.Outs (F := Ideal)) (c : Dev nD) : Vec Ideal S512x2048 .bf16 := Gen.V7 m outs c main_v114
abbrev rb2 (m : (ℓ : Loc nD τ sig) → Buf (Elt Ideal) ℓ) (outs : Gen.Outs (F := Ideal)) (c : Dev nD) : Vec Ideal S1x2048 .f32 := Gen.V7 m outs c main_v117
abbrev ro2 (m : (ℓ : Loc nD τ sig) → Buf (Elt Ideal) ℓ) (outs : Gen.Outs (F := Ideal)) (c : Dev nD) : Vec Ideal S20000x2048 .bf16 := outs 8 main_v118 c

def RegHyp2 (m : (ℓ : Loc nD τ sig) → Buf (Elt Ideal) ℓ) (outs : Gen.Outs (F := Ideal)) (c : Dev nD) : Prop := ∀ (n : Fin 20000) (j : Fin 2048), ro2 m outs c (ix2 n j) = max ((∑ k : Fin 512, rx2 m outs c (ix2 n k) * rw2 m outs c (ix2 k j)) + rb2 m outs c (ix2 (0 : Fin 1) j)) (0 : EReal)

abbrev rx3 (m : (ℓ : Loc nD τ sig) → Buf (Elt Ideal) ℓ) (outs : Gen.Outs (F := Ideal)) (c : Dev nD) : Vec Ideal S20000x2048 .bf16 := Gen.V9 m outs c main_v118
abbrev rw3 (m : (ℓ : Loc nD τ sig) → Buf (Elt Ideal) ℓ) (outs : Gen.Outs (F := Ideal)) (c : Dev nD) : Vec Ideal S2048x512 .bf16 := Gen.V9 m outs c main_v121
abbrev rb3 (m : (ℓ : Loc nD τ sig) → Buf (Elt Ideal) ℓ) (outs : Gen.Outs (F := Ideal)) (c : Dev nD) : Vec Ideal S1x512 .f32 := Gen.V9 m outs c main_v124
abbrev ro3 (m : (ℓ : Loc nD τ sig) → Buf (Elt Ideal) ℓ) (outs : Gen.Outs (F := Ideal)) (c : Dev nD) : Vec Ideal S20000x512 .f32 := outs 10 main_v125 c

def RegHyp3 (m : (ℓ : Loc nD τ sig) → Buf (Elt Ideal) ℓ) (outs : Gen.Outs (F := Ideal)) (c : Dev nD) : Prop := ∀ (n : Fin 20000) (j : Fin 512), ro3 m outs c (ix2 n j) = (∑ k : Fin 2048, rx3 m outs c (ix2 n k) * rw3 m outs c (ix2 k j)) + rb3 m outs c (ix2 (0 : Fin 1) j)

abbrev rx4 (m : (ℓ : Loc nD τ sig) → Buf (Elt Ideal) ℓ) (outs : Gen.Outs (F := Ideal)) (c : Dev nD) : Vec Ideal S20000x512 .bf16 := Gen.V11 m outs c main_v168
abbrev rw4 (m : (ℓ : Loc nD τ sig) → Buf (Elt Ideal) ℓ) (outs : Gen.Outs (F := Ideal)) (c : Dev nD) : Vec Ideal S512x1536 .bf16 := Gen.V11 m outs c main_v162
abbrev rb4 (m : (ℓ : Loc nD τ sig) → Buf (Elt Ideal) ℓ) (outs : Gen.Outs (F := Ideal)) (c : Dev nD) : Vec Ideal S1x1536 .f32 := Gen.V11 m outs c main_v169
abbrev ro4 (m : (ℓ : Loc nD τ sig) → Buf (Elt Ideal) ℓ) (outs : Gen.Outs (F := Ideal)) (c : Dev nD) : Vec Ideal S20000x1536 .f32 := outs 12 main_v170 c

def RegHyp4 (m : (ℓ : Loc nD τ sig) → Buf (Elt Ideal) ℓ) (outs : Gen.Outs (F := Ideal)) (c : Dev nD) : Prop := ∀ (n : Fin 20000) (j : Fin 1536), ro4 m outs c (ix2 n j) = (∑ k : Fin 512, rx4 m outs c (ix2 n k) * rw4 m outs c (ix2 k j)) + rb4 m outs c (ix2 (0 : Fin 1) j)

abbrev rx5 (m : (ℓ : Loc nD τ sig) → Buf (Elt Ideal) ℓ) (outs : Gen.Outs (F := Ideal)) (c : Dev nD) : Vec Ideal S20000x512 .bf16 := Gen.V15 m outs c main_v229
abbrev rw5 (m : (ℓ : Loc nD τ sig) → Buf (Elt Ideal) ℓ) (outs : Gen.Outs (F := Ideal)) (c : Dev nD) : Vec Ideal S512x512 .bf16 := Gen.V15 m outs c main_v232
abbrev rb5 (m : (ℓ : Loc nD τ sig) → Buf (Elt Ideal) ℓ) (outs : Gen.Outs (F := Ideal)) (c : Dev nD) : Vec Ideal S1x512 .f32 := Gen.V15 m outs c main_v235
abbrev ro5 (m : (ℓ : Loc nD τ sig) → Buf (Elt Ideal) ℓ) (outs : Gen.Outs (F := Ideal)) (c : Dev nD) : Vec Ideal S20000x512 .f32 := outs 16 main_v236 c

def RegHyp5 (m : (ℓ : Loc nD τ sig) → Buf (Elt Ideal) ℓ) (outs : Gen.Outs (F := Ideal)) (c : Dev nD) : Prop := ∀ (n : Fin 20000) (j : Fin 512), ro5 m outs c (ix2 n j) = (∑ k : Fin 512, rx5 m outs c (ix2 n k) * rw5 m outs c (ix2 k j)) + rb5 m outs c (ix2 (0 : Fin 1) j)

abbrev rx6 (m : (ℓ : Loc nD τ sig) → Buf (Elt Ideal) ℓ) (outs : Gen.Outs (F := Ideal)) (c : Dev nD) : Vec Ideal S20000x512 .bf16 := Gen.V17 m outs c main_v266
abbrev rw6 (m : (ℓ : Loc nD τ sig) → Buf (Elt Ideal) ℓ) (outs : Gen.Outs (F := Ideal)) (c : Dev nD) : Vec Ideal S512x2048 .bf16 := Gen.V17 m outs c main_v269
abbrev rb6 (m : (ℓ : Loc nD τ sig) → Buf (Elt Ideal) ℓ) (outs : Gen.Outs (F := Ideal)) (c : Dev nD) : Vec Ideal S1x2048 .f32 := Gen.V17 m outs c main_v272
abbrev ro6 (m : (ℓ : Loc nD τ sig) → Buf (Elt Ideal) ℓ) (outs : Gen.Outs (F := Ideal)) (c : Dev nD) : Vec Ideal S20000x2048 .bf16 := outs 18 main_v273 c

def RegHyp6 (m : (ℓ : Loc nD τ sig) → Buf (Elt Ideal) ℓ) (outs : Gen.Outs (F := Ideal)) (c : Dev nD) : Prop := ∀ (n : Fin 20000) (j : Fin 2048), ro6 m outs c (ix2 n j) = max ((∑ k : Fin 512, rx6 m outs c (ix2 n k) * rw6 m outs c (ix2 k j)) + rb6 m outs c (ix2 (0 : Fin 1) j)) (0 : EReal)

abbrev rx7 (m : (ℓ : Loc nD τ sig) → Buf (Elt Ideal) ℓ) (outs : Gen.Outs (F := Ideal)) (c : Dev nD) : Vec Ideal S20000x2048 .bf16 := Gen.V19 m outs c main_v273
abbrev rw7 (m : (ℓ : Loc nD τ sig) → Buf (Elt Ideal) ℓ) (outs : Gen.Outs (F := Ideal)) (c : Dev nD) : Vec Ideal S2048x512 .bf16 := Gen.V19 m outs c main_v276
abbrev rb7 (m : (ℓ : Loc nD τ sig) → Buf (Elt Ideal) ℓ) (outs : Gen.Outs (F := Ideal)) (c : Dev nD) : Vec Ideal S1x512 .f32 := Gen.V19 m outs c main_v279
abbrev ro7 (m : (ℓ : Loc nD τ sig) → Buf (Elt Ideal) ℓ) (outs : Gen.Outs (F := Ideal)) (c : Dev nD) : Vec Ideal S20000x512 .f32 := outs 20 main_v280 c

def RegHyp7 (m : (ℓ : Loc nD τ sig) → Buf (Elt Ideal) ℓ) (outs : Gen.Outs (F := Ideal)) (c : Dev nD) : Prop := ∀ (n : Fin 20000) (j : Fin 512), ro7 m outs c (ix2 n j) = (∑ k : Fin 2048, rx7 m outs c (ix2 n k) * rw7 m outs c (ix2 k j)) + rb7 m outs c (ix2 (0 : Fin 1) j)

end Cert.KernelIdeal.Hand

end
-- ==== Proof.KI.Check.lean ====
import proofs.«130450_j89593017795077_1_alg».proof.Proof.Gen.KernelIdeal.Regions
import Idealize.ShloMosaic.PureOps.Ideal

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (outs : Gen.Outs (F := Ideal)) (c : Dev nD)

abbrev ke1 : Vec Ideal S160000x1x64 .f32 := Gen.V3 m outs c main_v29

abbrev kq1 : Vec Ideal S20000x8x64 .f32 := Gen.V3 m outs c main_v17

abbrev kk1 : Vec Ideal S20000x8x64 .f32 := Gen.V3 m outs c main_v19

abbrev kv1 : Vec Ideal S20000x8x64 .f32 := Gen.V3 m outs c main_v21

abbrev ko1 : Vec Ideal S20000x512 .f32 := Gen.V5 m outs c main_v73

abbrev ky1 : Vec Ideal S20000x512 .f32 := Gen.V7 m outs c main_v82

abbrev kx1 : Vec Ideal S20000x512 .f32 := Gen.V7 m outs c main_v110

abbrev kh1 : Vec Ideal S20000x2048 .bf16 := Gen.V8 m outs c main_v118

abbrev ky2 : Vec Ideal S20000x512 .f32 := Gen.V11 m outs c main_v126

abbrev kx2 : Vec Ideal S20000x512 .f32 := Gen.V11 m outs c main_v154

abbrev ke2 : Vec Ideal S160000x1x64 .f32 := Gen.V13 m outs c main_v184

abbrev kq2 : Vec Ideal S20000x8x64 .f32 := Gen.V13 m outs c main_v172

abbrev kk2 : Vec Ideal S20000x8x64 .f32 := Gen.V13 m outs c main_v174

abbrev kv2 : Vec Ideal S20000x8x64 .f32 := Gen.V13 m outs c main_v176

abbrev ko2 : Vec Ideal S20000x512 .f32 := Gen.V15 m outs c main_v228

abbrev ky3 : Vec Ideal S20000x512 .f32 := Gen.V17 m outs c main_v237

abbrev kx3 : Vec Ideal S20000x512 .f32 := Gen.V17 m outs c main_v265

abbrev kh2 : Vec Ideal S20000x2048 .bf16 := Gen.V18 m outs c main_v273

abbrev ky4 : Vec Ideal S20000x512 .f32 := Gen.V21 m outs c main_v281

abbrev kout : Vec Ideal S20000x512 .f32 := Gen.V21 m outs c main_v309

end Cert.KernelIdeal.Hand

end
-- ==== Proof.R.Check.lean ====
import proofs.«130450_j89593017795077_1_alg».proof.Proof.R.RefOps
import Idealize.ShloMosaic.PureOps.Ideal

noncomputable section

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

abbrev re : Vec Ideal S160000x1x64 .f32 := RV1 m c main_v7

abbrev rq1 : Vec Ideal S20000x8x64 .f32 := RV2 m c main_v16

abbrev rk1 : Vec Ideal S20000x8x64 .f32 := RV2 m c main_v20

abbrev rv1 : Vec Ideal S20000x8x64 .f32 := RV2 m c main_v24

abbrev ro1 : Vec Ideal S20000x512 .f32 := RV3 m c main_v68

abbrev ry1 : Vec Ideal S20000x512 .f32 := RV4 m c main_v77

abbrev rx1 : Vec Ideal S20000x512 .f32 := RV5 m c main_v105

abbrev rh1 : Vec Ideal S20000x2048 .f32 := RV6 m c main_v114

abbrev ry2 : Vec Ideal S20000x512 .f32 := RV7 m c main_v123

abbrev rx2 : Vec Ideal S20000x512 .f32 := RV8 m c main_v151

abbrev rq2 : Vec Ideal S20000x8x64 .f32 := RV9 m c main_v160

abbrev rk2 : Vec Ideal S20000x8x64 .f32 := RV9 m c main_v164

abbrev rv2 : Vec Ideal S20000x8x64 .f32 := RV9 m c main_v168

abbrev ro2 : Vec Ideal S20000x512 .f32 := RV10 m c main_v212

abbrev ry3 : Vec Ideal S20000x512 .f32 := RV11 m c main_v221

abbrev rx3 : Vec Ideal S20000x512 .f32 := RV12 m c main_v249

abbrev rh2 : Vec Ideal S20000x2048 .f32 := RV13 m c main_v258

abbrev ry4 : Vec Ideal S20000x512 .f32 := RV14 m c main_v267

abbrev rout : Vec Ideal S20000x512 .f32 := RV15 m c main_v295

end Cert.ReferenceIdeal.Hand

end
-- ==== Proof.Bridge.Agree.lean ====
import proofs.«130450_j89593017795077_1_alg».proof.KernelIdeal
import proofs.«130450_j89593017795077_1_alg».proof.ReferenceIdeal
import Idealize.ShloMosaic.PureOps.Ideal

noncomputable section

namespace Cert.Bridge

open Idealize.ShloMosaic Idealize.SL.Sem

variable (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ) (c : Dev KernelIdeal.nD)

def Agree0 : Prop := m' ((c.tc : Thread ReferenceIdeal.nD ReferenceIdeal.τ).loc ReferenceIdeal.main_arg0) = m ((c.tc : Thread KernelIdeal.nD KernelIdeal.τ).loc KernelIdeal.main_arg0)
def Agree1 : Prop := m' ((c.tc : Thread ReferenceIdeal.nD ReferenceIdeal.τ).loc ReferenceIdeal.main_arg1) = m ((c.tc : Thread KernelIdeal.nD KernelIdeal.τ).loc KernelIdeal.main_arg1)
def Agree2 : Prop := m' ((c.tc : Thread ReferenceIdeal.nD ReferenceIdeal.τ).loc ReferenceIdeal.main_arg2) = m ((c.tc : Thread KernelIdeal.nD KernelIdeal.τ).loc KernelIdeal.main_arg2)
def Agree3 : Prop := m' ((c.tc : Thread ReferenceIdeal.nD ReferenceIdeal.τ).loc ReferenceIdeal.main_arg3) = m ((c.tc : Thread KernelIdeal.nD KernelIdeal.τ).loc KernelIdeal.main_arg3)
def Agree4 : Prop := m' ((c.tc : Thread ReferenceIdeal.nD ReferenceIdeal.τ).loc ReferenceIdeal.main_arg4) = m ((c.tc : Thread KernelIdeal.nD KernelIdeal.τ).loc KernelIdeal.main_arg4)
def Agree5 : Prop := m' ((c.tc : Thread ReferenceIdeal.nD ReferenceIdeal.τ).loc ReferenceIdeal.main_arg5) = m ((c.tc : Thread KernelIdeal.nD KernelIdeal.τ).loc KernelIdeal.main_arg5)
def Agree6 : Prop := m' ((c.tc : Thread ReferenceIdeal.nD ReferenceIdeal.τ).loc ReferenceIdeal.main_arg6) = m ((c.tc : Thread KernelIdeal.nD KernelIdeal.τ).loc KernelIdeal.main_arg6)
def Agree7 : Prop := m' ((c.tc : Thread ReferenceIdeal.nD ReferenceIdeal.τ).loc ReferenceIdeal.main_arg7) = m ((c.tc : Thread KernelIdeal.nD KernelIdeal.τ).loc KernelIdeal.main_arg7)
def Agree8 : Prop := m' ((c.tc : Thread ReferenceIdeal.nD ReferenceIdeal.τ).loc ReferenceIdeal.main_arg8) = m ((c.tc : Thread KernelIdeal.nD KernelIdeal.τ).loc KernelIdeal.main_arg8)
def Agree9 : Prop := m' ((c.tc : Thread ReferenceIdeal.nD ReferenceIdeal.τ).loc ReferenceIdeal.main_arg9) = m ((c.tc : Thread KernelIdeal.nD KernelIdeal.τ).loc KernelIdeal.main_arg9)
def Agree10 : Prop := m' ((c.tc : Thread ReferenceIdeal.nD ReferenceIdeal.τ).loc ReferenceIdeal.main_arg10) = m ((c.tc : Thread KernelIdeal.nD KernelIdeal.τ).loc KernelIdeal.main_arg10)
def Agree11 : Prop := m' ((c.tc : Thread ReferenceIdeal.nD ReferenceIdeal.τ).loc ReferenceIdeal.main_arg11) = m ((c.tc : Thread KernelIdeal.nD KernelIdeal.τ).loc KernelIdeal.main_arg11)
def Agree12 : Prop := m' ((c.tc : Thread ReferenceIdeal.nD ReferenceIdeal.τ).loc ReferenceIdeal.main_arg12) = m ((c.tc : Thread KernelIdeal.nD KernelIdeal.τ).loc KernelIdeal.main_arg12)
def Agree13 : Prop := m' ((c.tc : Thread ReferenceIdeal.nD ReferenceIdeal.τ).loc ReferenceIdeal.main_arg13) = m ((c.tc : Thread KernelIdeal.nD KernelIdeal.τ).loc KernelIdeal.main_arg13)
def Agree14 : Prop := m' ((c.tc : Thread ReferenceIdeal.nD ReferenceIdeal.τ).loc ReferenceIdeal.main_arg14) = m ((c.tc : Thread KernelIdeal.nD KernelIdeal.τ).loc KernelIdeal.main_arg14)
def Agree15 : Prop := m' ((c.tc : Thread ReferenceIdeal.nD ReferenceIdeal.τ).loc ReferenceIdeal.main_arg15) = m ((c.tc : Thread KernelIdeal.nD KernelIdeal.τ).loc KernelIdeal.main_arg15)
def Agree16 : Prop := m' ((c.tc : Thread ReferenceIdeal.nD ReferenceIdeal.τ).loc ReferenceIdeal.main_arg16) = m ((c.tc : Thread KernelIdeal.nD KernelIdeal.τ).loc KernelIdeal.main_arg16)
def Agree17 : Prop := m' ((c.tc : Thread ReferenceIdeal.nD ReferenceIdeal.τ).loc ReferenceIdeal.main_arg17) = m ((c.tc : Thread KernelIdeal.nD KernelIdeal.τ).loc KernelIdeal.main_arg17)
def Agree18 : Prop := m' ((c.tc : Thread ReferenceIdeal.nD ReferenceIdeal.τ).loc ReferenceIdeal.main_arg18) = m ((c.tc : Thread KernelIdeal.nD KernelIdeal.τ).loc KernelIdeal.main_arg18)

-- The hypothesis of the algebraic claim at core `c`: the two launches hold the same nineteen argument arrays.
def Agree : Prop :=
  Agree0 m m' c ∧ Agree1 m m' c ∧ Agree2 m m' c ∧ Agree3 m m' c ∧ Agree4 m m' c ∧ Agree5 m m' c ∧ Agree6 m m' c ∧ Agree7 m m' c ∧ Agree8 m m' c ∧ Agree9 m m' c ∧ Agree10 m m' c ∧ Agree11 m m' c ∧ Agree12 m m' c ∧ Agree13 m m' c ∧ Agree14 m m' c ∧ Agree15 m m' c ∧ Agree16 m m' c ∧ Agree17 m m' c ∧ Agree18 m m' c

variable {m m' c} (h : Agree m m' c)
include h

theorem Agree.arg0 : m' ((c.tc : Thread ReferenceIdeal.nD ReferenceIdeal.τ).loc ReferenceIdeal.main_arg0) = m ((c.tc : Thread KernelIdeal.nD KernelIdeal.τ).loc KernelIdeal.main_arg0) := h.1
theorem Agree.arg1 : m' ((c.tc : Thread ReferenceIdeal.nD ReferenceIdeal.τ).loc ReferenceIdeal.main_arg1) = m ((c.tc : Thread KernelIdeal.nD KernelIdeal.τ).loc KernelIdeal.main_arg1) := h.2.1
theorem Agree.arg2 : m' ((c.tc : Thread ReferenceIdeal.nD ReferenceIdeal.τ).loc ReferenceIdeal.main_arg2) = m ((c.tc : Thread KernelIdeal.nD KernelIdeal.τ).loc KernelIdeal.main_arg2) := h.2.2.1
theorem Agree.arg3 : m' ((c.tc : Thread ReferenceIdeal.nD ReferenceIdeal.τ).loc ReferenceIdeal.main_arg3) = m ((c.tc : Thread KernelIdeal.nD KernelIdeal.τ).loc KernelIdeal.main_arg3) := h.2.2.2.1
theorem Agree.arg4 : m' ((c.tc : Thread ReferenceIdeal.nD ReferenceIdeal.τ).loc ReferenceIdeal.main_arg4) = m ((c.tc : Thread KernelIdeal.nD KernelIdeal.τ).loc KernelIdeal.main_arg4) := h.2.2.2.2.1
theorem Agree.arg5 : m' ((c.tc : Thread ReferenceIdeal.nD ReferenceIdeal.τ).loc ReferenceIdeal.main_arg5) = m ((c.tc : Thread KernelIdeal.nD KernelIdeal.τ).loc KernelIdeal.main_arg5) := h.2.2.2.2.2.1
theorem Agree.arg6 : m' ((c.tc : Thread ReferenceIdeal.nD ReferenceIdeal.τ).loc ReferenceIdeal.main_arg6) = m ((c.tc : Thread KernelIdeal.nD KernelIdeal.τ).loc KernelIdeal.main_arg6) := h.2.2.2.2.2.2.1
theorem Agree.arg7 : m' ((c.tc : Thread ReferenceIdeal.nD ReferenceIdeal.τ).loc ReferenceIdeal.main_arg7) = m ((c.tc : Thread KernelIdeal.nD KernelIdeal.τ).loc KernelIdeal.main_arg7) := h.2.2.2.2.2.2.2.1
theorem Agree.arg8 : m' ((c.tc : Thread ReferenceIdeal.nD ReferenceIdeal.τ).loc ReferenceIdeal.main_arg8) = m ((c.tc : Thread KernelIdeal.nD KernelIdeal.τ).loc KernelIdeal.main_arg8) := h.2.2.2.2.2.2.2.2.1
theorem Agree.arg9 : m' ((c.tc : Thread ReferenceIdeal.nD ReferenceIdeal.τ).loc ReferenceIdeal.main_arg9) = m ((c.tc : Thread KernelIdeal.nD KernelIdeal.τ).loc KernelIdeal.main_arg9) := h.2.2.2.2.2.2.2.2.2.1
theorem Agree.arg10 : m' ((c.tc : Thread ReferenceIdeal.nD ReferenceIdeal.τ).loc ReferenceIdeal.main_arg10) = m ((c.tc : Thread KernelIdeal.nD KernelIdeal.τ).loc KernelIdeal.main_arg10) := h.2.2.2.2.2.2.2.2.2.2.1
theorem Agree.arg11 : m' ((c.tc : Thread ReferenceIdeal.nD ReferenceIdeal.τ).loc ReferenceIdeal.main_arg11) = m ((c.tc : Thread KernelIdeal.nD KernelIdeal.τ).loc KernelIdeal.main_arg11) := h.2.2.2.2.2.2.2.2.2.2.2.1
theorem Agree.arg12 : m' ((c.tc : Thread ReferenceIdeal.nD ReferenceIdeal.τ).loc ReferenceIdeal.main_arg12) = m ((c.tc : Thread KernelIdeal.nD KernelIdeal.τ).loc KernelIdeal.main_arg12) := h.2.2.2.2.2.2.2.2.2.2.2.2.1
theorem Agree.arg13 : m' ((c.tc : Thread ReferenceIdeal.nD ReferenceIdeal.τ).loc ReferenceIdeal.main_arg13) = m ((c.tc : Thread KernelIdeal.nD KernelIdeal.τ).loc KernelIdeal.main_arg13) := h.2.2.2.2.2.2.2.2.2.2.2.2.2.1
theorem Agree.arg14 : m' ((c.tc : Thread ReferenceIdeal.nD ReferenceIdeal.τ).loc ReferenceIdeal.main_arg14) = m ((c.tc : Thread KernelIdeal.nD KernelIdeal.τ).loc KernelIdeal.main_arg14) := h.2.2.2.2.2.2.2.2.2.2.2.2.2.2.1
theorem Agree.arg15 : m' ((c.tc : Thread ReferenceIdeal.nD ReferenceIdeal.τ).loc ReferenceIdeal.main_arg15) = m ((c.tc : Thread KernelIdeal.nD KernelIdeal.τ).loc KernelIdeal.main_arg15) := h.2.2.2.2.2.2.2.2.2.2.2.2.2.2.2.1
theorem Agree.arg16 : m' ((c.tc : Thread ReferenceIdeal.nD ReferenceIdeal.τ).loc ReferenceIdeal.main_arg16) = m ((c.tc : Thread KernelIdeal.nD KernelIdeal.τ).loc KernelIdeal.main_arg16) := h.2.2.2.2.2.2.2.2.2.2.2.2.2.2.2.2.1
theorem Agree.arg17 : m' ((c.tc : Thread ReferenceIdeal.nD ReferenceIdeal.τ).loc ReferenceIdeal.main_arg17) = m ((c.tc : Thread KernelIdeal.nD KernelIdeal.τ).loc KernelIdeal.main_arg17) := h.2.2.2.2.2.2.2.2.2.2.2.2.2.2.2.2.2.1
theorem Agree.arg18 : m' ((c.tc : Thread ReferenceIdeal.nD ReferenceIdeal.τ).loc ReferenceIdeal.main_arg18) = m ((c.tc : Thread KernelIdeal.nD KernelIdeal.τ).loc KernelIdeal.main_arg18) := h.2.2.2.2.2.2.2.2.2.2.2.2.2.2.2.2.2.2

end Cert.Bridge

end
-- ==== Proof.Bridge.KArgs.lean ====
import proofs.«130450_j89593017795077_1_alg».proof.Proof.Gen.KernelIdeal.Regions
import Idealize.ShloMosaic.PureOps.Ideal

noncomputable section

namespace Cert.Bridge

open Idealize.ShloMosaic Idealize.ShloMosaic.TcCoe Idealize.SL.Sem
open Cert.KernelIdeal Cert.KernelIdeal.Gen

abbrev kArgs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18]

variable (m : (ℓ : Loc nD τ sig) → Buf (Elt Ideal) ℓ) (outs : Outs (F := Ideal)) (c : Dev nD)
  (b : Ref sig .tc) (hb : b ∈ kArgs)
include outs hb

set_option hygiene false in
macro "each_arg" t:tactic : tactic =>
  `(tactic| (simp only [kArgs, List.mem_cons, List.mem_nil_iff, or_false] at hb
             rcases hb with rfl | rfl | rfl | rfl | rfl | rfl | rfl | rfl | rfl | rfl | rfl | rfl | rfl | rfl | rfl | rfl | rfl | rfl | rfl <;> $t))

-- No item of the kernel program writes an argument, so every boundary valuation still holds the launch contents there.
theorem kV1_arg : V1 m c b = m ((c.tc : Thread nD τ).loc b) := by
  each_arg exact V1_of m c _ (by decide)
theorem kV2_arg : V2 m outs c b = m ((c.tc : Thread nD τ).loc b) := by
  have h := kV1_arg m outs c b hb
  each_arg exact (V2_of m outs c _ (by decide)).trans h
theorem kV3_arg : V3 m outs c b = m ((c.tc : Thread nD τ).loc b) := by
  have h := kV2_arg m outs c b hb
  each_arg exact (V3_of m outs c _ (by decide)).trans h
theorem kV4_arg : V4 m outs c b = m ((c.tc : Thread nD τ).loc b) := by
  have h := kV3_arg m outs c b hb
  each_arg exact (V4_of m outs c _ (by decide)).trans h
theorem kV5_arg : V5 m outs c b = m ((c.tc : Thread nD τ).loc b) := by
  have h := kV4_arg m outs c b hb
  each_arg exact (V5_of m outs c _ (by decide)).trans h
theorem kV6_arg : V6 m outs c b = m ((c.tc : Thread nD τ).loc b) := by
  have h := kV5_arg m outs c b hb
  each_arg exact (V6_of m outs c _ (by decide)).trans h
theorem kV7_arg : V7 m outs c b = m ((c.tc : Thread nD τ).loc b) := by
  have h := kV6_arg m outs c b hb
  each_arg exact (V7_of m outs c _ (by decide)).trans h
theorem kV8_arg : V8 m outs c b = m ((c.tc : Thread nD τ).loc b) := by
  have h := kV7_arg m outs c b hb
  each_arg exact (V8_of m outs c _ (by decide)).trans h
theorem kV9_arg : V9 m outs c b = m ((c.tc : Thread nD τ).loc b) := by
  have h := kV8_arg m outs c b hb
  each_arg exact (V9_of m outs c _ (by decide)).trans h
theorem kV10_arg : V10 m outs c b = m ((c.tc : Thread nD τ).loc b) := by
  have h := kV9_arg m outs c b hb
  each_arg exact (V10_of m outs c _ (by decide)).trans h
theorem kV11_arg : V11 m outs c b = m ((c.tc : Thread nD τ).loc b) := by
  have h := kV10_arg m outs c b hb
  each_arg exact (V11_of m outs c _ (by decide)).trans h
theorem kV12_arg : V12 m outs c b = m ((c.tc : Thread nD τ).loc b) := by
  have h := kV11_arg m outs c b hb
  each_arg exact (V12_of m outs c _ (by decide)).trans h
theorem kV13_arg : V13 m outs c b = m ((c.tc : Thread nD τ).loc b) := by
  have h := kV12_arg m outs c b hb
  each_arg exact (V13_of m outs c _ (by decide)).trans h
theorem kV14_arg : V14 m outs c b = m ((c.tc : Thread nD τ).loc b) := by
  have h := kV13_arg m outs c b hb
  each_arg exact (V14_of m outs c _ (by decide)).trans h
theorem kV15_arg : V15 m outs c b = m ((c.tc : Thread nD τ).loc b) := by
  have h := kV14_arg m outs c b hb
  each_arg exact (V15_of m outs c _ (by decide)).trans h
theorem kV16_arg : V16 m outs c b = m ((c.tc : Thread nD τ).loc b) := by
  have h := kV15_arg m outs c b hb
  each_arg exact (V16_of m outs c _ (by decide)).trans h
theorem kV17_arg : V17 m outs c b = m ((c.tc : Thread nD τ).loc b) := by
  have h := kV16_arg m outs c b hb
  each_arg exact (V17_of m outs c _ (by decide)).trans h
theorem kV18_arg : V18 m outs c b = m ((c.tc : Thread nD τ).loc b) := by
  have h := kV17_arg m outs c b hb
  each_arg exact (V18_of m outs c _ (by decide)).trans h
theorem kV19_arg : V19 m outs c b = m ((c.tc : Thread nD τ).loc b) := by
  have h := kV18_arg m outs c b hb
  each_arg exact (V19_of m outs c _ (by decide)).trans h
theorem kV20_arg : V20 m outs c b = m ((c.tc : Thread nD τ).loc b) := by
  have h := kV19_arg m outs c b hb
  each_arg exact (V20_of m outs c _ (by decide)).trans h
theorem kV21_arg : V21 m outs c b = m ((c.tc : Thread nD τ).loc b) := by
  have h := kV20_arg m outs c b hb
  each_arg exact (V21_of m outs c _ (by decide)).trans h

end Cert.Bridge

end
-- ==== Proof.Bridge.E1.lean ====
import proofs.«130450_j89593017795077_1_alg».proof.Proof.KI.Check
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import Idealize.ShloMosaic.Lib.StableHlo.Run

set_option maxRecDepth 8192

noncomputable section

namespace Cert.Bridge

open Cert Idealize.ShloMosaic Idealize.ShloMosaic.TcCoe Idealize.SL.Sem Idealize.ShloMosaic.StableHlo
open Cert.KernelIdeal.Hand Cert.ReferenceIdeal.Hand

set_option maxHeartbeats 4000000 in
-- The per-edge relation embeddings are the same operations on arguments 1 and 4 in both programs.
theorem e1_eq (m : (ℓ : Loc KernelIdeal.nD KernelIdeal.τ KernelIdeal.sig) → Buf (Elt Ideal) ℓ) (outs : KernelIdeal.Gen.Outs (F := Ideal))
    (m' : (ℓ : Loc ReferenceIdeal.nD ReferenceIdeal.τ ReferenceIdeal.sig) → Buf (Elt Ideal) ℓ) (c : Dev KernelIdeal.nD)
    (ha : Agree m m' c) : ke1 m outs c = re m' c := by
  have hr := RV0_arg m' c
  show StableHlo.after KernelIdeal.Gen.hostOps1 (KernelIdeal.Gen.V2 m outs c) KernelIdeal.main_v29
    = StableHlo.after ReferenceIdeal.Hand.ops0 (RV0 m' c) ReferenceIdeal.main_v7
  generalize RV0 m' c = RV at hr ⊢
  after_results_simp
  rw [kV2_arg m outs c KernelIdeal.main_arg1 (by decide), kV2_arg m outs c KernelIdeal.main_arg4 (by decide),
    hr ReferenceIdeal.main_arg1 (by decide), hr ReferenceIdeal.main_arg4 (by decide), ha.arg1, ha.arg4]
  rfl

end Cert.Bridge

end
-- ==== Proof.Bridge.E2.lean ====
import proofs.«130450_j89593017795077_1_alg».proof.Proof.KI.Check
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import Idealize.ShloMosaic.Lib.StableHlo.Run

set_option maxRecDepth 8192

noncomputable section

namespace Cert.Bridge

open Cert Idealize.ShloMosaic Idealize.ShloMosaic.TcCoe Idealize.SL.Sem Idealize.ShloMosaic.StableHlo
open Cert.KernelIdeal.Hand Cert.ReferenceIdeal.Hand

set_option maxHeartbeats 4000000 in
-- The per-edge relation embeddings are the same operations on arguments 1 and 4 in both programs.
theorem e2_eq (m : (ℓ : Loc KernelIdeal.nD KernelIdeal.τ KernelIdeal.sig) → Buf (Elt Ideal) ℓ) (outs : KernelIdeal.Gen.Outs (F := Ideal))
    (m' : (ℓ : Loc ReferenceIdeal.nD ReferenceIdeal.τ ReferenceIdeal.sig) → Buf (Elt Ideal) ℓ) (c : Dev KernelIdeal.nD)
    (ha : Agree m m' c) : ke2 m outs c = re m' c := by
  have hr := RV0_arg m' c
  show StableHlo.after KernelIdeal.Gen.hostOps5 (KernelIdeal.Gen.V12 m outs c) KernelIdeal.main_v184
    = StableHlo.after ReferenceIdeal.Hand.ops0 (RV0 m' c) ReferenceIdeal.main_v7
  generalize RV0 m' c = RV at hr ⊢
  after_results_simp
  rw [kV12_arg m outs c KernelIdeal.main_arg1 (by decide), kV12_arg m outs c KernelIdeal.main_arg4 (by decide),
    hr ReferenceIdeal.main_arg1 (by decide), hr ReferenceIdeal.main_arg4 (by decide), ha.arg1, ha.arg4]
  rfl

end Cert.Bridge

end
-- ==== Proof.Bridge.O1.lean ====
import proofs.«130450_j89593017795077_1_alg».proof.Proof.KI.Check
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import Idealize.ShloMosaic.Lib.StableHlo.Run

noncomputable section

namespace Cert.Bridge

open Cert Idealize.ShloMosaic Idealize.ShloMosaic.TcCoe Idealize.SL.Sem Idealize.ShloMosaic.StableHlo
open Cert.KernelIdeal.Hand Cert.ReferenceIdeal.Hand

variable (m : (ℓ : Loc KernelIdeal.nD KernelIdeal.τ KernelIdeal.sig) → Buf (Elt Ideal) ℓ) (outs : KernelIdeal.Gen.Outs (F := Ideal))
  (m' : (ℓ : Loc ReferenceIdeal.nD ReferenceIdeal.τ ReferenceIdeal.sig) → Buf (Elt Ideal) ℓ) (c : Dev KernelIdeal.nD)

namespace O1aux

-- The reference's projection stretch does not write the relation embeddings.
theorem keeps_e (V : Valuation ReferenceIdeal.τ ReferenceIdeal.sig (Elt Ideal)) :
    StableHlo.after ops1 V ReferenceIdeal.main_v7 = V ReferenceIdeal.main_v7 := by
  after_results_simp

set_option maxHeartbeats 8000000 in
-- Over any contents of the reference's buffers holding the same queries, keys, values, embeddings and edge endpoints, the attention chains are the same operations.
theorem core (V : Valuation ReferenceIdeal.τ ReferenceIdeal.sig (Elt Ideal))
    (hq : kq1 m outs c = V ReferenceIdeal.main_v16) (hk : kk1 m outs c = V ReferenceIdeal.main_v20)
    (hv : kv1 m outs c = V ReferenceIdeal.main_v24) (he : ke1 m outs c = V ReferenceIdeal.main_v7)
    (h2 : V ReferenceIdeal.main_arg2 = KernelIdeal.Gen.V2 m outs c KernelIdeal.main_arg2)
    (h3 : V ReferenceIdeal.main_arg3 = KernelIdeal.Gen.V2 m outs c KernelIdeal.main_arg3) :
    ko1 m outs c = StableHlo.after ops2 V ReferenceIdeal.main_v68 := by
  change StableHlo.after KernelIdeal.Gen.hostOps1 (KernelIdeal.Gen.V2 m outs c) KernelIdeal.main_v17 = _ at hq
  change StableHlo.after KernelIdeal.Gen.hostOps1 (KernelIdeal.Gen.V2 m outs c) KernelIdeal.main_v19 = _ at hk
  change StableHlo.after KernelIdeal.Gen.hostOps1 (KernelIdeal.Gen.V2 m outs c) KernelIdeal.main_v21 = _ at hv
  change StableHlo.after KernelIdeal.Gen.hostOps1 (KernelIdeal.Gen.V2 m outs c) KernelIdeal.main_v29 = _ at he
  show StableHlo.after KernelIdeal.Gen.hostOps1_2 (StableHlo.after KernelIdeal.Gen.hostOps1_1
    (StableHlo.after KernelIdeal.Gen.hostOps1 (KernelIdeal.Gen.V2 m outs c))) KernelIdeal.main_v73 = _
  revert hq hk hv he
  after_results_simp
  intro hq hk hv he
  rw [hq, hk, hv, he, h2, h3]
  rfl

end O1aux

theorem o1_eq (ha : Agree m m' c) (he : ke1 m outs c = re m' c) (hq : kq1 m outs c = rq1 m' c)
    (hk : kk1 m outs c = rk1 m' c) (hv : kv1 m outs c = rv1 m' c) : ko1 m outs c = ro1 m' c :=
  O1aux.core m outs c (RV2 m' c) hq hk hv (he.trans (O1aux.keeps_e (RV1 m' c)).symm)
    ((RV2_arg m' c ReferenceIdeal.main_arg2 (by decide)).trans (ha.arg2.trans (kV2_arg m outs c KernelIdeal.main_arg2 (by decide)).symm))
    ((RV2_arg m' c ReferenceIdeal.main_arg3 (by decide)).trans (ha.arg3.trans (kV2_arg m outs c KernelIdeal.main_arg3 (by decide)).symm))

end Cert.Bridge

end
-- ==== Proof.Bridge.O2.lean ====
import proofs.«130450_j89593017795077_1_alg».proof.Proof.KI.Check
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import proofs.«130450_j89593017795077_1_alg».proof.Proof.Bridge.O1
import Idealize.ShloMosaic.Lib.StableHlo.Run

noncomputable section

namespace Cert.Bridge

open Cert Idealize.ShloMosaic Idealize.ShloMosaic.TcCoe Idealize.SL.Sem Idealize.ShloMosaic.StableHlo
open Cert.KernelIdeal.Hand Cert.ReferenceIdeal.Hand

variable (m : (ℓ : Loc KernelIdeal.nD KernelIdeal.τ KernelIdeal.sig) → Buf (Elt Ideal) ℓ) (outs : KernelIdeal.Gen.Outs (F := Ideal))
  (m' : (ℓ : Loc ReferenceIdeal.nD ReferenceIdeal.τ ReferenceIdeal.sig) → Buf (Elt Ideal) ℓ) (c : Dev KernelIdeal.nD)

namespace O2aux

open O1aux

-- None of the reference's stretches 2 to 8 writes the relation embeddings either.
set_option maxHeartbeats 4000000 in
theorem keeps_e2 (V : Valuation ReferenceIdeal.τ ReferenceIdeal.sig (Elt Ideal)) :
    StableHlo.after ops2 V ReferenceIdeal.main_v7 = V ReferenceIdeal.main_v7 := by
  after_results_simp
set_option maxHeartbeats 4000000 in
theorem keeps_e3 (V : Valuation ReferenceIdeal.τ ReferenceIdeal.sig (Elt Ideal)) :
    StableHlo.after ops3 V ReferenceIdeal.main_v7 = V ReferenceIdeal.main_v7 := by
  after_results_simp
set_option maxHeartbeats 4000000 in
theorem keeps_e4 (V : Valuation ReferenceIdeal.τ ReferenceIdeal.sig (Elt Ideal)) :
    StableHlo.after ops4 V ReferenceIdeal.main_v7 = V ReferenceIdeal.main_v7 := by
  after_results_simp
set_option maxHeartbeats 4000000 in
theorem keeps_e5 (V : Valuation ReferenceIdeal.τ ReferenceIdeal.sig (Elt Ideal)) :
    StableHlo.after ops5 V ReferenceIdeal.main_v7 = V ReferenceIdeal.main_v7 := by
  after_results_simp
set_option maxHeartbeats 4000000 in
theorem keeps_e6 (V : Valuation ReferenceIdeal.τ ReferenceIdeal.sig (Elt Ideal)) :
    StableHlo.after ops6 V ReferenceIdeal.main_v7 = V ReferenceIdeal.main_v7 := by
  after_results_simp
set_option maxHeartbeats 4000000 in
theorem keeps_e7 (V : Valuation ReferenceIdeal.τ ReferenceIdeal.sig (Elt Ideal)) :
    StableHlo.after ops7 V ReferenceIdeal.main_v7 = V ReferenceIdeal.main_v7 := by
  after_results_simp
set_option maxHeartbeats 4000000 in
theorem keeps_e8 (V : Valuation ReferenceIdeal.τ ReferenceIdeal.sig (Elt Ideal)) :
    StableHlo.after ops8 V ReferenceIdeal.main_v7 = V ReferenceIdeal.main_v7 := by
  after_results_simp

theorem e_kept : RV9 m' c ReferenceIdeal.main_v7 = RV1 m' c ReferenceIdeal.main_v7 :=
  (keeps_e8 (RV8 m' c)).trans <| (keeps_e7 (RV7 m' c)).trans <| (keeps_e6 (RV6 m' c)).trans <| (keeps_e5 (RV5 m' c)).trans <|
    (keeps_e4 (RV4 m' c)).trans <| (keeps_e3 (RV3 m' c)).trans <| (keeps_e2 (RV2 m' c)).trans (keeps_e (RV1 m' c))

set_option maxHeartbeats 8000000 in
-- Over any contents of the reference's buffers holding the same queries, keys, values, embeddings and edge endpoints, the attention chains are the same operations.
theorem core (V : Valuation ReferenceIdeal.τ ReferenceIdeal.sig (Elt Ideal))
    (hq : kq2 m outs c = V ReferenceIdeal.main_v160) (hk : kk2 m outs c = V ReferenceIdeal.main_v164)
    (hv : kv2 m outs c = V ReferenceIdeal.main_v168) (he : ke2 m outs c = V ReferenceIdeal.main_v7)
    (h2 : V ReferenceIdeal.main_arg2 = KernelIdeal.Gen.V12 m outs c KernelIdeal.main_arg2)
    (h3 : V ReferenceIdeal.main_arg3 = KernelIdeal.Gen.V12 m outs c KernelIdeal.main_arg3) :
    ko2 m outs c = StableHlo.after ops9 V ReferenceIdeal.main_v212 := by
  change StableHlo.after KernelIdeal.Gen.hostOps5 (KernelIdeal.Gen.V12 m outs c) KernelIdeal.main_v172 = _ at hq
  change StableHlo.after KernelIdeal.Gen.hostOps5 (KernelIdeal.Gen.V12 m outs c) KernelIdeal.main_v174 = _ at hk
  change StableHlo.after KernelIdeal.Gen.hostOps5 (KernelIdeal.Gen.V12 m outs c) KernelIdeal.main_v176 = _ at hv
  change StableHlo.after KernelIdeal.Gen.hostOps5 (KernelIdeal.Gen.V12 m outs c) KernelIdeal.main_v184 = _ at he
  show StableHlo.after KernelIdeal.Gen.hostOps5_2 (StableHlo.after KernelIdeal.Gen.hostOps5_1
    (StableHlo.after KernelIdeal.Gen.hostOps5 (KernelIdeal.Gen.V12 m outs c))) KernelIdeal.main_v228 = _
  revert hq hk hv he
  after_results_simp
  intro hq hk hv he
  rw [hq, hk, hv, he, h2, h3]
  rfl

end O2aux

theorem o2_eq (ha : Agree m m' c) (he : ke2 m outs c = re m' c) (hq : kq2 m outs c = rq2 m' c)
    (hk : kk2 m outs c = rk2 m' c) (hv : kv2 m outs c = rv2 m' c) : ko2 m outs c = ro2 m' c :=
  O2aux.core m outs c (RV9 m' c) hq hk hv (he.trans (O2aux.e_kept m' c).symm)
    ((RV9_arg m' c ReferenceIdeal.main_arg2 (by decide)).trans (ha.arg2.trans (kV12_arg m outs c KernelIdeal.main_arg2 (by decide)).symm))
    ((RV9_arg m' c ReferenceIdeal.main_arg3 (by decide)).trans (ha.arg3.trans (kV12_arg m outs c KernelIdeal.main_arg3 (by decide)).symm))

end Cert.Bridge

end
-- ==== Proof.Bridge.X1.lean ====
import proofs.«130450_j89593017795077_1_alg».proof.Proof.KI.Check
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import Idealize.ShloMosaic.Lib.StableHlo.Run

set_option maxRecDepth 8192

noncomputable section

namespace Cert.Bridge

open Cert Idealize.ShloMosaic Idealize.ShloMosaic.TcCoe Idealize.SL.Sem Idealize.ShloMosaic.StableHlo
open Cert.KernelIdeal.Hand Cert.ReferenceIdeal.Hand

set_option maxHeartbeats 4000000 in
-- Layer normalisation is the same operations in both programs, so equal rows and equal gain and shift arguments give equal results.
theorem x1_eq (m : (ℓ : Loc KernelIdeal.nD KernelIdeal.τ KernelIdeal.sig) → Buf (Elt Ideal) ℓ) (outs : KernelIdeal.Gen.Outs (F := Ideal))
    (m' : (ℓ : Loc ReferenceIdeal.nD ReferenceIdeal.τ ReferenceIdeal.sig) → Buf (Elt Ideal) ℓ) (c : Dev KernelIdeal.nD)
    (ha : Agree m m' c) (hy : ky1 m outs c = ry1 m' c) : kx1 m outs c = rx1 m' c := by
  have hk : ky1 m outs c = addf (F := Ideal) (s := KernelIdeal.S20000x512) (φ := FTy.f32)
      (KernelIdeal.Gen.V6 m outs c KernelIdeal.main_arg0) (KernelIdeal.Gen.V6 m outs c KernelIdeal.main_v81) := by
    show StableHlo.after KernelIdeal.Gen.hostOps2 (KernelIdeal.Gen.V6 m outs c) KernelIdeal.main_v82 = _
    after_results_simp
  have hr := RV4_arg m' c
  change _ = RV4 m' c ReferenceIdeal.main_v77 at hy
  show StableHlo.after KernelIdeal.Gen.hostOps2 (KernelIdeal.Gen.V6 m outs c) KernelIdeal.main_v110
    = StableHlo.after ReferenceIdeal.Hand.ops4 (RV4 m' c) ReferenceIdeal.main_v105
  generalize RV4 m' c = RV at hr hy ⊢
  after_results_simp
  rw [← hk, hy, kV6_arg m outs c KernelIdeal.main_arg11 (by decide), kV6_arg m outs c KernelIdeal.main_arg12 (by decide),
    hr ReferenceIdeal.main_arg11 (by decide), hr ReferenceIdeal.main_arg12 (by decide), ha.arg11, ha.arg12]
  rfl

end Cert.Bridge

end
-- ==== Proof.Bridge.X2.lean ====
import proofs.«130450_j89593017795077_1_alg».proof.Proof.KI.Check
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import Idealize.ShloMosaic.Lib.StableHlo.Run

set_option maxRecDepth 8192

noncomputable section

namespace Cert.Bridge

open Cert Idealize.ShloMosaic Idealize.ShloMosaic.TcCoe Idealize.SL.Sem Idealize.ShloMosaic.StableHlo
open Cert.KernelIdeal.Hand Cert.ReferenceIdeal.Hand

set_option maxHeartbeats 4000000 in
-- Layer normalisation is the same operations in both programs, so equal rows and equal gain and shift arguments give equal results.
theorem x2_eq (m : (ℓ : Loc KernelIdeal.nD KernelIdeal.τ KernelIdeal.sig) → Buf (Elt Ideal) ℓ) (outs : KernelIdeal.Gen.Outs (F := Ideal))
    (m' : (ℓ : Loc ReferenceIdeal.nD ReferenceIdeal.τ ReferenceIdeal.sig) → Buf (Elt Ideal) ℓ) (c : Dev KernelIdeal.nD)
    (ha : Agree m m' c) (hy : ky2 m outs c = ry2 m' c) : kx2 m outs c = rx2 m' c := by
  have hk : ky2 m outs c = addf (F := Ideal) (s := KernelIdeal.S20000x512) (φ := FTy.f32)
      (KernelIdeal.Gen.V10 m outs c KernelIdeal.main_v110) (KernelIdeal.Gen.V10 m outs c KernelIdeal.main_v125) := by
    show StableHlo.after KernelIdeal.Gen.hostOps4 (KernelIdeal.Gen.V10 m outs c) KernelIdeal.main_v126 = _
    after_results_simp
  have hr := RV7_arg m' c
  change _ = RV7 m' c ReferenceIdeal.main_v123 at hy
  show StableHlo.after KernelIdeal.Gen.hostOps4 (KernelIdeal.Gen.V10 m outs c) KernelIdeal.main_v154
    = StableHlo.after ReferenceIdeal.Hand.ops7 (RV7 m' c) ReferenceIdeal.main_v151
  generalize RV7 m' c = RV at hr hy ⊢
  after_results_simp
  rw [← hk, hy, kV10_arg m outs c KernelIdeal.main_arg17 (by decide), kV10_arg m outs c KernelIdeal.main_arg18 (by decide),
    hr ReferenceIdeal.main_arg17 (by decide), hr ReferenceIdeal.main_arg18 (by decide), ha.arg17, ha.arg18]
  rfl

end Cert.Bridge

end
-- ==== Proof.Bridge.X3.lean ====
import proofs.«130450_j89593017795077_1_alg».proof.Proof.KI.Check
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import Idealize.ShloMosaic.Lib.StableHlo.Run

set_option maxRecDepth 8192

noncomputable section

namespace Cert.Bridge

open Cert Idealize.ShloMosaic Idealize.ShloMosaic.TcCoe Idealize.SL.Sem Idealize.ShloMosaic.StableHlo
open Cert.KernelIdeal.Hand Cert.ReferenceIdeal.Hand

set_option maxHeartbeats 4000000 in
-- Layer normalisation is the same operations in both programs, so equal rows and equal gain and shift arguments give equal results.
theorem x3_eq (m : (ℓ : Loc KernelIdeal.nD KernelIdeal.τ KernelIdeal.sig) → Buf (Elt Ideal) ℓ) (outs : KernelIdeal.Gen.Outs (F := Ideal))
    (m' : (ℓ : Loc ReferenceIdeal.nD ReferenceIdeal.τ ReferenceIdeal.sig) → Buf (Elt Ideal) ℓ) (c : Dev KernelIdeal.nD)
    (ha : Agree m m' c) (hy : ky3 m outs c = ry3 m' c) : kx3 m outs c = rx3 m' c := by
  have hk : ky3 m outs c = addf (F := Ideal) (s := KernelIdeal.S20000x512) (φ := FTy.f32)
      (KernelIdeal.Gen.V16 m outs c KernelIdeal.main_v154) (KernelIdeal.Gen.V16 m outs c KernelIdeal.main_v236) := by
    show StableHlo.after KernelIdeal.Gen.hostOps6 (KernelIdeal.Gen.V16 m outs c) KernelIdeal.main_v237 = _
    after_results_simp
  have hr := RV11_arg m' c
  change _ = RV11 m' c ReferenceIdeal.main_v221 at hy
  show StableHlo.after KernelIdeal.Gen.hostOps6 (KernelIdeal.Gen.V16 m outs c) KernelIdeal.main_v265
    = StableHlo.after ReferenceIdeal.Hand.ops11 (RV11 m' c) ReferenceIdeal.main_v249
  generalize RV11 m' c = RV at hr hy ⊢
  after_results_simp
  rw [← hk, hy, kV16_arg m outs c KernelIdeal.main_arg11 (by decide), kV16_arg m outs c KernelIdeal.main_arg12 (by decide),
    hr ReferenceIdeal.main_arg11 (by decide), hr ReferenceIdeal.main_arg12 (by decide), ha.arg11, ha.arg12]
  rfl

end Cert.Bridge

end
-- ==== Proof.Bridge.Out.lean ====
import proofs.«130450_j89593017795077_1_alg».proof.Proof.KI.Check
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import Idealize.ShloMosaic.Lib.StableHlo.Run

set_option maxRecDepth 8192

noncomputable section

namespace Cert.Bridge

open Cert Idealize.ShloMosaic Idealize.ShloMosaic.TcCoe Idealize.SL.Sem Idealize.ShloMosaic.StableHlo
open Cert.KernelIdeal.Hand Cert.ReferenceIdeal.Hand

set_option maxHeartbeats 4000000 in
-- Layer normalisation is the same operations in both programs, so equal rows and equal gain and shift arguments give equal results.
theorem out_eq (m : (ℓ : Loc KernelIdeal.nD KernelIdeal.τ KernelIdeal.sig) → Buf (Elt Ideal) ℓ) (outs : KernelIdeal.Gen.Outs (F := Ideal))
    (m' : (ℓ : Loc ReferenceIdeal.nD ReferenceIdeal.τ ReferenceIdeal.sig) → Buf (Elt Ideal) ℓ) (c : Dev KernelIdeal.nD)
    (ha : Agree m m' c) (hy : ky4 m outs c = ry4 m' c) : kout m outs c = rout m' c := by
  have hk : ky4 m outs c = addf (F := Ideal) (s := KernelIdeal.S20000x512) (φ := FTy.f32)
      (KernelIdeal.Gen.V20 m outs c KernelIdeal.main_v265) (KernelIdeal.Gen.V20 m outs c KernelIdeal.main_v280) := by
    show StableHlo.after KernelIdeal.Gen.hostOps8 (KernelIdeal.Gen.V20 m outs c) KernelIdeal.main_v281 = _
    after_results_simp
  have hr := RV14_arg m' c
  change _ = RV14 m' c ReferenceIdeal.main_v267 at hy
  show StableHlo.after KernelIdeal.Gen.hostOps8 (KernelIdeal.Gen.V20 m outs c) KernelIdeal.main_v309
    = StableHlo.after ReferenceIdeal.Hand.ops14 (RV14 m' c) ReferenceIdeal.main_v295
  generalize RV14 m' c = RV at hr hy ⊢
  after_results_simp
  rw [← hk, hy, kV20_arg m outs c KernelIdeal.main_arg17 (by decide), kV20_arg m outs c KernelIdeal.main_arg18 (by decide),
    hr ReferenceIdeal.main_arg17 (by decide), hr ReferenceIdeal.main_arg18 (by decide), ha.arg17, ha.arg18]
  rfl

end Cert.Bridge

end
-- ==== Proof.Bridge.LibDense.lean ====
import Idealize.ShloMosaic.Lib.StackMember
import Idealize.ShloMosaic.Lib.KernelVsHost
import Idealize.ShloMosaic.Lib.ValueLayout
import Idealize.ShloMosaic.Lib.ValueIdx
import Idealize.ShloMosaic.Lib.Pipeline.Value

noncomputable section

namespace Cert.Bridge

open Idealize.ShloMosaic Idealize.ShloMosaic.ValueIdx

variable {α : Type} {N K M L : Nat}

-- the slice at offset l along the first axis, its unit axis dropped, reads the stack at (l, k, j)
theorem stackMat_apply (W : (⟨3, ![L, K, M]⟩ : Shape).Idx → α) (l : Nat) (hl : l < L)
    (hs : (⟨3, ![L, K, M]⟩ : Shape).Slices ![l, 0, 0] ⟨3, ![1, K, M]⟩)
    (hc : (⟨3, ![1, K, M]⟩ : Shape).ShapeCasts ⟨2, ![K, M]⟩) (k : Fin K) (j : Fin M) :
    shapeCast ⟨2, ![K, M]⟩ (extractStridedSlice ⟨3, ![1, K, M]⟩ ![l, 0, 0] W hs) hc (ix2 k j) = W (ix3 ⟨l, hl⟩ k j) := by
  rw [shapeCast_1ab_ab_apply]
  exact extractStridedSlice_apply _ W hs _ _ fun a => match a with
    | ⟨0, _⟩ => by show l = l + 0; omega
    | ⟨1, _⟩ => by show k.val = 0 + k.val; omega
    | ⟨2, _⟩ => by show j.val = 0 + j.val; omega

theorem stackRow_apply (b : (⟨2, ![L, M]⟩ : Shape).Idx → α) (l : Nat) (hl : l < L)
    (hs : (⟨2, ![L, M]⟩ : Shape).Slices ![l, 0] ⟨2, ![1, M]⟩)
    (hc : (⟨2, ![1, M]⟩ : Shape).ShapeCasts ⟨1, ![M]⟩) (j : Fin M) :
    shapeCast ⟨1, ![M]⟩ (extractStridedSlice ⟨2, ![1, M]⟩ ![l, 0] b hs) hc (ix1 j) = b (ix2 ⟨l, hl⟩ j) := by
  rw [shapeCast_1a_a_apply]
  exact extractStridedSlice_apply _ b hs _ _ fun a => match a with
    | ⟨0, _⟩ => by show l = l + 0; omega
    | ⟨1, _⟩ => by show j.val = 0 + j.val; omega

theorem stackRow_oneRow_apply (b : (⟨2, ![L, M]⟩ : Shape).Idx → α) (l : Nat) (hl : l < L)
    (hs : (⟨2, ![L, M]⟩ : Shape).Slices ![l, 0] ⟨2, ![1, M]⟩)
    (hc : (⟨2, ![1, M]⟩ : Shape).ShapeCasts ⟨1, ![M]⟩) (hc' : (⟨1, ![M]⟩ : Shape).ShapeCasts ⟨2, ![1, M]⟩)
    (u : Fin 1) (j : Fin M) :
    shapeCast ⟨2, ![1, M]⟩ (shapeCast ⟨1, ![M]⟩ (extractStridedSlice ⟨2, ![1, M]⟩ ![l, 0] b hs) hc) hc' (ix2 u j)
      = b (ix2 ⟨l, hl⟩ j) := by
  rw [shapeCast_a_1a_apply, stackRow_apply b l hl]

theorem vecAsRow_apply (v : (⟨1, ![M]⟩ : Shape).Idx → α)
    (hb : (⟨1, ![M]⟩ : Shape).BroadcastsInDim ⟨2, ![1, M]⟩ ![1]) (u : Fin 1) (j : Fin M) :
    broadcastInDim ⟨2, ![1, M]⟩ ![1] hb v (ix2 u j) = v (ix1 j) := by
  refine broadcastInDim_apply ![1] hb v (ix2 u j) (ix1 j) fun a => ?_
  match a with
  | ⟨0, _⟩ =>
    show j.val = if M = 1 then 0 else j.val
    split
    · have := j.isLt; omega
    · rfl

theorem stackRow_everyRow_apply (b : (⟨2, ![L, M]⟩ : Shape).Idx → α) (l : Nat) (hl : l < L)
    (hs : (⟨2, ![L, M]⟩ : Shape).Slices ![l, 0] ⟨2, ![1, M]⟩)
    (hc : (⟨2, ![1, M]⟩ : Shape).ShapeCasts ⟨1, ![M]⟩)
    (hb1 : (⟨1, ![M]⟩ : Shape).BroadcastsInDim ⟨2, ![1, M]⟩ ![1])
    (hb2 : (⟨2, ![1, M]⟩ : Shape).BroadcastsInDim ⟨2, ![N, M]⟩ ![0, 1]) (n : Fin N) (j : Fin M) :
    broadcastInDim ⟨2, ![N, M]⟩ ![0, 1] hb2
        (broadcastInDim ⟨2, ![1, M]⟩ ![1] hb1 (shapeCast ⟨1, ![M]⟩ (extractStridedSlice ⟨2, ![1, M]⟩ ![l, 0] b hs) hc)) (ix2 n j)
      = b (ix2 ⟨l, hl⟩ j) := by
  rw [broadcastInDim_oneRow_apply, vecAsRow_apply, stackRow_apply b l hl]

theorem hostDot_stackMat_apply {φ : FTy} (d : DotDims ⟨2, ![N, K]⟩ ⟨2, ![K, M]⟩ ⟨2, ![N, M]⟩) (hd : d = DotDims.plain N K M)
    (x : FVec Ideal ⟨2, ![N, K]⟩ φ) (W : FVec Ideal ⟨3, ![L, K, M]⟩ .f32) (l : Nat) (hl : l < L)
    (hs : (⟨3, ![L, K, M]⟩ : Shape).Slices ![l, 0, 0] ⟨3, ![1, K, M]⟩)
    (hc : (⟨3, ![1, K, M]⟩ : Shape).ShapeCasts ⟨2, ![K, M]⟩) (n : Fin N) (j : Fin M) :
    Host.dotGeneral d none x (shapeCast ⟨2, ![K, M]⟩ (extractStridedSlice ⟨3, ![1, K, M]⟩ ![l, 0, 0] W hs) hc) (ix2 n j)
      = ∑ k : Fin K, x (ix2 n k) * W (ix3 ⟨l, hl⟩ k j) := by
  subst hd
  rw [StackMember.dotGeneral_plain_apply]
  exact Finset.sum_congr rfl fun k _ => by rw [stackMat_apply W l hl]

theorem kernelDot_stackMat_apply {ψ : FTy} (x : FVec Ideal ⟨2, ![N, K]⟩ .f32) (W : FVec Ideal ⟨3, ![L, K, M]⟩ .f32)
    (l : Nat) (hl : l < L)
    (hs : (⟨3, ![L, K, M]⟩ : Shape).Slices ![l, 0, 0] ⟨3, ![1, K, M]⟩)
    (hc : (⟨3, ![1, K, M]⟩ : Shape).ShapeCasts ⟨2, ![K, M]⟩) (hψ : ψ.bits < FTy.f32.bits) (n : Fin N) (j : Fin M) :
    (∑ k : Fin K, (truncf ψ x hψ : FVec Ideal _ ψ) (ix2 n k)
        * (truncf ψ (shapeCast ⟨2, ![K, M]⟩ (extractStridedSlice ⟨3, ![1, K, M]⟩ ![l, 0, 0] W hs) hc) hψ : FVec Ideal _ ψ) (ix2 k j))
      = ∑ k : Fin K, x (ix2 n k) * W (ix3 ⟨l, hl⟩ k j) :=
  Finset.sum_congr rfl fun k _ => by rw [truncf_apply, truncf_apply, stackMat_apply W l hl]

-- x + (h·W_l + b_l) = (x + h·W_l) + b_l: addition of extended reals is associative, rounding changes no ideal value
theorem resid_dense {φ ψ : FTy} (l : Nat) (hl : l < L) {x o : FVec Ideal ⟨2, ![N, M]⟩ .f32} {h : FVec Ideal ⟨2, ![N, K]⟩ φ}
    {rx : FVec Ideal ⟨2, ![N, K]⟩ ψ} {rw : FVec Ideal ⟨2, ![K, M]⟩ ψ} {rb : FVec Ideal ⟨2, ![1, M]⟩ .f32}
    {W : FVec Ideal ⟨3, ![L, K, M]⟩ .f32} {b : FVec Ideal ⟨2, ![L, M]⟩ .f32}
    {d : DotDims ⟨2, ![N, K]⟩ ⟨2, ![K, M]⟩ ⟨2, ![N, M]⟩} (hd : d = DotDims.plain N K M)
    {hs : (⟨3, ![L, K, M]⟩ : Shape).Slices ![l, 0, 0] ⟨3, ![1, K, M]⟩} {hc : (⟨3, ![1, K, M]⟩ : Shape).ShapeCasts ⟨2, ![K, M]⟩}
    {hs' : (⟨2, ![L, M]⟩ : Shape).Slices ![l, 0] ⟨2, ![1, M]⟩} {hc' : (⟨2, ![1, M]⟩ : Shape).ShapeCasts ⟨1, ![M]⟩}
    {hc'' : (⟨1, ![M]⟩ : Shape).ShapeCasts ⟨2, ![1, M]⟩} {hb1 : (⟨1, ![M]⟩ : Shape).BroadcastsInDim ⟨2, ![1, M]⟩ ![1]}
    {hb2 : (⟨2, ![1, M]⟩ : Shape).BroadcastsInDim ⟨2, ![N, M]⟩ ![0, 1]} {hψ : ψ.bits < FTy.f32.bits}
    (ho : ∀ (n : Fin N) (j : Fin M), o (ix2 n j) = (∑ k : Fin K, rx (ix2 n k) * rw (ix2 k j)) + rb (ix2 (0 : Fin 1) j))
    (hrx : ∀ (n : Fin N) (k : Fin K), rx (ix2 n k) = h (ix2 n k))
    (hrw : rw = truncf ψ (shapeCast ⟨2, ![K, M]⟩ (extractStridedSlice ⟨3, ![1, K, M]⟩ ![l, 0, 0] W hs) hc) hψ)
    (hrb : rb = shapeCast ⟨2, ![1, M]⟩ (shapeCast ⟨1, ![M]⟩ (extractStridedSlice ⟨2, ![1, M]⟩ ![l, 0] b hs') hc') hc'') :
    addf x o = addf (addf x (Host.dotGeneral d none h (shapeCast ⟨2, ![K, M]⟩ (extractStridedSlice ⟨3, ![1, K, M]⟩ ![l, 0, 0] W hs) hc)))
      (broadcastInDim ⟨2, ![N, M]⟩ ![0, 1] hb2 (broadcastInDim ⟨2, ![1, M]⟩ ![1] hb1
        (shapeCast ⟨1, ![M]⟩ (extractStridedSlice ⟨2, ![1, M]⟩ ![l, 0] b hs') hc'))) := by
  subst hrw hrb
  funext i
  obtain ⟨n, j, rfl⟩ : ∃ (n : Fin N) (j : Fin M), i = ix2 n j := ⟨i 0, i 1, eq_ix2 i⟩
  rw [addf_apply, addf_apply, addf_apply, ho, hostDot_stackMat_apply d hd h W l hl,
    stackRow_everyRow_apply b l hl, stackRow_oneRow_apply b l hl, ← add_assoc]
  exact congrArg (· + _) (congrArg (_ + ·) (Finset.sum_congr rfl fun k _ => by rw [hrx, truncf_apply, stackMat_apply W l hl]))

end Cert.Bridge

end
-- ==== Proof.Bridge.LibQkv.lean ====
import proofs.«130450_j89593017795077_1_alg».proof.Proof.Gen.KernelIdeal
import proofs.«130450_j89593017795077_1_alg».proof.Proof.Gen.ReferenceIdeal
import proofs.«130450_j89593017795077_1_alg».proof.Proof.Bridge.LibDense
import Idealize.ShloMosaic.Lib.StackMember
import Idealize.ShloMosaic.Lib.KernelVsHost
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx
open scoped BigOperators

section Dot
open Cert.ReferenceIdeal

theorem dotQ_apply (x : FVec Ideal S20000x512 .f32) (w : FVec Ideal S512x512 .f32) (n : Fin 20000) (j : Fin 512) :
    Host.dotGeneral (F := Ideal) dot_S20000x512_S512x512_S20000x512_1_0_0_1_n_n none x w (ix2 n j)
      = ∑ k : Fin 512, x (ix2 n k) * w (ix2 k j) :=
  StackMember.dotGeneral_plain_apply (m := 20000) (n := 512) (k := 512) none x w n j

abbrev mat0 (a : Vec Ideal S2x512x512 .f32) : Vec Ideal S512x512 .f32 :=
  shapeCast S512x512 (extractStridedSlice S1x512x512 ![0, 0, 0] a Gen.slices_S2x512x512_S1x512x512_0_0_0) Gen.shapeCasts_S1x512x512_S512x512
abbrev mat1 (a : Vec Ideal S2x512x512 .f32) : Vec Ideal S512x512 .f32 :=
  shapeCast S512x512 (extractStridedSlice S1x512x512 ![1, 0, 0] a Gen.slices_S2x512x512_S1x512x512_1_0_0) Gen.shapeCasts_S1x512x512_S512x512
abbrev vec0 (a : Vec Ideal S2x512 .f32) : Vec Ideal S512 .f32 :=
  shapeCast S512 (extractStridedSlice S1x512 ![0, 0] a Gen.slices_S2x512_S1x512_0_0) Gen.shapeCasts_S1x512_S512
abbrev vec1 (a : Vec Ideal S2x512 .f32) : Vec Ideal S512 .f32 :=
  shapeCast S512 (extractStridedSlice S1x512 ![1, 0] a Gen.slices_S2x512_S1x512_1_0) Gen.shapeCasts_S1x512_S512

-- rows times one 512x512 block, viewed per head; for the queries a bias vector is first added on every row
abbrev headsK (x : Vec Ideal S20000x512 .f32) (w : Vec Ideal S512x512 .f32) : Vec Ideal S20000x8x64 .f32 :=
  shapeCast S20000x8x64 (Host.dotGeneral (F := Ideal) (φ₁ := .f32) (φ₂ := .f32) dot_S20000x512_S512x512_S20000x512_1_0_0_1_n_n none x w)
    Gen.shapeCasts_S20000x512_S20000x8x64
abbrev headsQ (x : Vec Ideal S20000x512 .f32) (w : Vec Ideal S512x512 .f32) (b : Vec Ideal S512 .f32) : Vec Ideal S20000x8x64 .f32 :=
  shapeCast S20000x8x64 (addf (Host.dotGeneral (F := Ideal) (φ₁ := .f32) (φ₂ := .f32) dot_S20000x512_S512x512_S20000x512_1_0_0_1_n_n none x w)
    (broadcastInDim S20000x512 ![0, 1] Gen.bcast_S1x512_S20000x512_0_1 (broadcastInDim S1x512 ![1] Gen.bcast_S512_S1x512_1 b)))
    Gen.shapeCasts_S20000x512_S20000x8x64

theorem heads_apply (z : FVec Ideal S20000x512 .f32) (hc : S20000x512.ShapeCasts S20000x8x64)
    (n : Fin 20000) (hh : Fin 8) (d : Fin 64) (j : Fin 512) (hj : j.val = hh.val * 64 + d.val) :
    shapeCast S20000x8x64 z hc (ix3 n hh d) = z (ix2 n j) :=
  shapeCast_apply z hc (ix3 n hh d) (ix2 n j) (by
    rw [Shape.rowMajor_val_two, Shape.rowMajor_val_three]
    show n.val * 512 + j.val = (n.val * 8 + hh.val) * 64 + d.val
    omega)

end Dot

section Fused
open Cert.KernelIdeal

theorem fusedW_apply (a b c : FVec Ideal S512x512 .f32)
    (h : Shape.Concatenates [S512x512, S512x512, S512x512] S512x1536 1)
    (k : Fin 512) (j : Fin 1536) (j' : Fin 512) :
    (j.val = j'.val → concatenate S512x1536 1 [⟨S512x512, a⟩, ⟨S512x512, b⟩, ⟨S512x512, c⟩] h (ix2 k j) = a (ix2 k j'))
    ∧ (j.val = 512 + j'.val → concatenate S512x1536 1 [⟨S512x512, a⟩, ⟨S512x512, b⟩, ⟨S512x512, c⟩] h (ix2 k j) = b (ix2 k j'))
    ∧ (j.val = 1024 + j'.val → concatenate S512x1536 1 [⟨S512x512, a⟩, ⟨S512x512, b⟩, ⟨S512x512, c⟩] h (ix2 k j) = c (ix2 k j')) := by
  have off : ∀ bb : Fin S512x512.rank, bb.cast (rfl : S512x512.rank = S512x1536.rank) ≠ (1 : Fin S512x1536.rank) →
      ((ix2 k j' : S512x512.Idx) bb).val = ((ix2 k j : S512x1536.Idx) (bb.cast rfl)).val := by
    intro bb hb
    match bb with
    | ⟨0, _⟩ => rfl
    | ⟨1, _⟩ => exact absurd rfl hb
  let xs : List ((s : Shape) × (s.Idx → Ideal .f32)) := [⟨S512x512, a⟩, ⟨S512x512, b⟩, ⟨S512x512, c⟩]
  refine ⟨fun hj => ?_, fun hj => ?_, fun hj => ?_⟩
  · exact concatenate_apply_piece (1 : Fin S512x1536.rank) xs h (ix2 k j) 0 (by show 0 < 3; omega) S512x512 a rfl rfl 0 rfl (ix2 k j') off
      (by show 0 + j'.val = j.val; omega)
  · exact concatenate_apply_piece (1 : Fin S512x1536.rank) xs h (ix2 k j) 1 (by show 1 < 3; omega) S512x512 b rfl rfl 512 rfl (ix2 k j') off
      (by show 512 + j'.val = j.val; omega)
  · exact concatenate_apply_piece (1 : Fin S512x1536.rank) xs h (ix2 k j) 2 (by show 2 < 3; omega) S512x512 c rfl rfl 1024 rfl (ix2 k j') off
      (by show 1024 + j'.val = j.val; omega)

theorem fusedB_apply (p q r : FVec Ideal S512 .f32)
    (h : Shape.Concatenates [S512, S512, S512] S1536 0) (h' : S1536.ShapeCasts S1x1536)
    (j : Fin 1536) (j' : Fin 512) :
    (j.val = j'.val → shapeCast S1x1536 (concatenate S1536 0 [⟨S512, p⟩, ⟨S512, q⟩, ⟨S512, r⟩] h) h' (ix2 0 j) = p (ix1 j'))
    ∧ (j.val = 512 + j'.val → shapeCast S1x1536 (concatenate S1536 0 [⟨S512, p⟩, ⟨S512, q⟩, ⟨S512, r⟩] h) h' (ix2 0 j) = q (ix1 j'))
    ∧ (j.val = 1024 + j'.val → shapeCast S1x1536 (concatenate S1536 0 [⟨S512, p⟩, ⟨S512, q⟩, ⟨S512, r⟩] h) h' (ix2 0 j) = r (ix1 j')) := by
  let xs : List ((s : Shape) × (s.Idx → Ideal .f32)) := [⟨S512, p⟩, ⟨S512, q⟩, ⟨S512, r⟩]
  have e : shapeCast S1x1536 (concatenate S1536 0 xs h) h' (ix2 0 j) = concatenate S1536 0 xs h (ix1 j) :=
    shapeCast_apply _ h' (ix2 0 j) (ix1 j) (by
      rw [Shape.rowMajor_val_one, Shape.rowMajor_val_two]
      show j.val = 0 * 1536 + j.val
      omega)
  have off : ∀ bb : Fin S512.rank, bb.cast (rfl : S512.rank = S1536.rank) ≠ (0 : Fin S1536.rank) →
      ((ix1 j' : S512.Idx) bb).val = ((ix1 j : S1536.Idx) (bb.cast rfl)).val := by
    intro bb hb
    match bb with
    | ⟨0, _⟩ => exact absurd rfl hb
  refine ⟨fun hj => e.trans ?_, fun hj => e.trans ?_, fun hj => e.trans ?_⟩
  · exact concatenate_apply_piece (0 : Fin S1536.rank) xs h (ix1 j) 0 (by show 0 < 3; omega) S512 p rfl rfl 0 rfl (ix1 j') off
      (by show 0 + j'.val = j.val; omega)
  · exact concatenate_apply_piece (0 : Fin S1536.rank) xs h (ix1 j) 1 (by show 1 < 3; omega) S512 q rfl rfl 512 rfl (ix1 j') off
      (by show 512 + j'.val = j.val; omega)
  · exact concatenate_apply_piece (0 : Fin S1536.rank) xs h (ix1 j) 2 (by show 2 < 3; omega) S512 r rfl rfl 1024 rfl (ix1 j') off
      (by show 1024 + j'.val = j.val; omega)

theorem zeros_apply (h : S_.BroadcastsInDim S512 (![] : Fin 0 → Fin S512.rank)) (i : S512.Idx) :
    (broadcastInDim S512 ![] h (constant (F := Ideal) S_ .f32 0x00000000#32) : FVec Ideal S512 .f32) i = 0 := by
  rw [broadcastInDim_apply ![] h _ i ix0 (fun a => a.elim0), constant_apply]
  exact Ideal.ofBits_zero_f32

theorem band_heads_apply (y : FVec Ideal S20000x1536 .f32) (o : Nat) (hs : S20000x1536.Slices ![0, o] S20000x512)
    (hc : S20000x512.ShapeCasts S20000x8x64) (n : Fin 20000) (hh : Fin 8) (d : Fin 64) (j : Fin 1536)
    (hj : j.val = o + (hh.val * 64 + d.val)) :
    shapeCast S20000x8x64 (extractStridedSlice S20000x512 ![0, o] y hs) hc (ix3 n hh d) = y (ix2 n j) := by
  have hlt : hh.val * 64 + d.val < 512 := by have := hh.isLt; have := d.isLt; omega
  rw [shapeCast_apply _ hc (ix3 n hh d) (ix2 n ⟨hh.val * 64 + d.val, hlt⟩) (by
      rw [Shape.rowMajor_val_two, Shape.rowMajor_val_three]
      show n.val * 512 + (hh.val * 64 + d.val) = (n.val * 8 + hh.val) * 64 + d.val
      omega)]
  refine extractStridedSlice_apply _ y hs _ (ix2 n j) fun a => ?_
  match a with
  | ⟨0, _⟩ => show n.val = 0 + n.val; omega
  | ⟨1, _⟩ => show j.val = o + (hh.val * 64 + d.val); exact hj

theorem band_eq_sum (x : Vec Ideal S20000x512 .f32) (w : Vec Ideal S512x512 .f32) (β : Fin 512 → EReal)
    (X : Vec Ideal S20000x512 .bf16) (W : Vec Ideal S512x1536 .bf16) (B : Vec Ideal S1x1536 .f32)
    (y : Vec Ideal S20000x1536 .f32)
    (hy : ∀ (n : Fin 20000) (j : Fin 1536), y (ix2 n j) = (∑ k : Fin 512, X (ix2 n k) * W (ix2 k j)) + B (ix2 (0 : Fin 1) j))
    (o : Nat) (ho : o + 512 ≤ 1536) (hs : S20000x1536.Slices ![0, o] S20000x512) (hc : S20000x512.ShapeCasts S20000x8x64)
    (hX : ∀ (n : Fin 20000) (k : Fin 512), X (ix2 n k) = x (ix2 n k))
    (hW : ∀ (k : Fin 512) (j : Fin 1536) (j' : Fin 512), j.val = o + j'.val → W (ix2 k j) = w (ix2 k j'))
    (hB : ∀ (j : Fin 1536) (j' : Fin 512), j.val = o + j'.val → B (ix2 (0 : Fin 1) j) = β j')
    (n : Fin 20000) (hh : Fin 8) (d : Fin 64) (j' : Fin 512) (hj' : j'.val = hh.val * 64 + d.val) :
    shapeCast S20000x8x64 (extractStridedSlice S20000x512 ![0, o] y hs) hc (ix3 n hh d)
      = (∑ k : Fin 512, x (ix2 n k) * w (ix2 k j')) + β j' := by
  have hjlt : o + j'.val < 1536 := by have := j'.isLt; omega
  rw [band_heads_apply y o hs hc n hh d ⟨o + j'.val, hjlt⟩ (by show o + j'.val = o + (hh.val * 64 + d.val); omega),
    hy n ⟨o + j'.val, hjlt⟩, hB ⟨o + j'.val, hjlt⟩ j' rfl]
  congr 1
  refine Finset.sum_congr rfl fun k _ => ?_
  rw [hX n k, hW k ⟨o + j'.val, hjlt⟩ j' rfl]

end Fused

section Core
open Cert.KernelIdeal

theorem qkv_core
    (x : Vec Ideal S20000x512 .f32) (wq wk wv : Vec Ideal S512x512 .f32) (bq z1 z2 : Vec Ideal S512 .f32)
    (hz1 : ∀ i, z1 i = 0) (hz2 : ∀ i, z2 i = 0)
    (X : Vec Ideal S20000x512 .bf16) (W : Vec Ideal S512x1536 .bf16) (B : Vec Ideal S1x1536 .f32)
    (y : Vec Ideal S20000x1536 .f32)
    (hy : ∀ (n : Fin 20000) (j : Fin 1536), y (ix2 n j) = (∑ k : Fin 512, X (ix2 n k) * W (ix2 k j)) + B (ix2 (0 : Fin 1) j))
    (hlt : FTy.bits .bf16 < FTy.bits .f32)
    (hcat : Shape.Concatenates [S512x512, S512x512, S512x512] S512x1536 1)
    (hcatB : Shape.Concatenates [S512, S512, S512] S1536 0) (hcB : S1536.ShapeCasts S1x1536)
    (hX : X = truncf (F := Ideal) .bf16 x hlt)
    (hW : W = truncf (F := Ideal) .bf16 (concatenate S512x1536 1 [⟨S512x512, wq⟩, ⟨S512x512, wk⟩, ⟨S512x512, wv⟩] hcat) hlt)
    (hB : B = shapeCast S1x1536 (concatenate S1536 0 [⟨S512, bq⟩, ⟨S512, z1⟩, ⟨S512, z2⟩] hcatB) hcB)
    (hs0 : S20000x1536.Slices ![0, 0] S20000x512) (hs1 : S20000x1536.Slices ![0, 512] S20000x512)
    (hs2 : S20000x1536.Slices ![0, 1024] S20000x512) (hc : S20000x512.ShapeCasts S20000x8x64) :
    shapeCast S20000x8x64 (extractStridedSlice S20000x512 ![0, 0] y hs0) hc = headsQ x wq bq
    ∧ shapeCast S20000x8x64 (extractStridedSlice S20000x512 ![0, 512] y hs1) hc = headsK x wk
    ∧ shapeCast S20000x8x64 (extractStridedSlice S20000x512 ![0, 1024] y hs2) hc = headsK x wv := by
  unfold headsQ headsK
  have hXp : ∀ (n : Fin 20000) (k : Fin 512), X (ix2 n k) = x (ix2 n k) := fun n k => by rw [hX]; rfl
  have hWp : ∀ (k : Fin 512) (j : Fin 1536), W (ix2 k j)
      = concatenate S512x1536 1 [⟨S512x512, wq⟩, ⟨S512x512, wk⟩, ⟨S512x512, wv⟩] hcat (ix2 k j) := fun k j => by rw [hW]; rfl
  have split : ∀ i : S20000x8x64.Idx, ∃ (n : Fin 20000) (hh : Fin 8) (d : Fin 64), i = ix3 n hh d :=
    fun i => ⟨i 0, i 1, i 2, eq_ix3 i⟩
  have col : ∀ (hh : Fin 8) (d : Fin 64), hh.val * 64 + d.val < 512 := fun hh d => by
    have := hh.isLt; have := d.isLt; omega
  refine ⟨funext fun i => ?_, funext fun i => ?_, funext fun i => ?_⟩
  · obtain ⟨n, hh, d, rfl⟩ := split i
    rw [band_eq_sum x wq (fun j' => bq (ix1 j')) X W B y hy 0 (by omega) hs0 hc hXp
        (fun k j j' h => (hWp k j).trans ((fusedW_apply wq wk wv hcat k j j').1 (by omega)))
        (fun j j' h => by rw [hB]; exact (fusedB_apply bq z1 z2 hcatB hcB j j').1 (by omega))
        n hh d ⟨hh.val * 64 + d.val, col hh d⟩ rfl,
      heads_apply _ Cert.ReferenceIdeal.Gen.shapeCasts_S20000x512_S20000x8x64 n hh d ⟨hh.val * 64 + d.val, col hh d⟩ rfl, addf_apply, dotQ_apply, broadcastInDim_oneRow_apply, vecAsRow_apply]
  · obtain ⟨n, hh, d, rfl⟩ := split i
    rw [band_eq_sum x wk (fun _ => 0) X W B y hy 512 (by omega) hs1 hc hXp
        (fun k j j' h => (hWp k j).trans ((fusedW_apply wq wk wv hcat k j j').2.1 h))
        (fun j j' h => by rw [hB, (fusedB_apply bq z1 z2 hcatB hcB j j').2.1 h]; exact hz1 _)
        n hh d ⟨hh.val * 64 + d.val, col hh d⟩ rfl,
      heads_apply _ Cert.ReferenceIdeal.Gen.shapeCasts_S20000x512_S20000x8x64 n hh d ⟨hh.val * 64 + d.val, col hh d⟩ rfl, dotQ_apply, add_zero]
  · obtain ⟨n, hh, d, rfl⟩ := split i
    rw [band_eq_sum x wv (fun _ => 0) X W B y hy 1024 (by omega) hs2 hc hXp
        (fun k j j' h => (hWp k j).trans ((fusedW_apply wq wk wv hcat k j j').2.2 h))
        (fun j j' h => by rw [hB, (fusedB_apply bq z1 z2 hcatB hcB j j').2.2 h]; exact hz2 _)
        n hh d ⟨hh.val * 64 + d.val, col hh d⟩ rfl,
      heads_apply _ Cert.ReferenceIdeal.Gen.shapeCasts_S20000x512_S20000x8x64 n hh d ⟨hh.val * 64 + d.val, col hh d⟩ rfl, dotQ_apply, add_zero]

end Core

end Cert.Bridge
-- ==== Proof.Bridge.Qkv1.lean ====
import proofs.«130450_j89593017795077_1_alg».proof.Proof.KI.Check
import proofs.«130450_j89593017795077_1_alg».proof.Proof.KI.RegHyp
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.LibQkv
import Idealize.ShloMosaic.Lib.StableHlo.Run

noncomputable section

namespace Cert.Bridge

open Idealize.ShloMosaic Idealize.ShloMosaic.TcCoe Idealize.ShloMosaic.StableHlo Idealize.SL.Sem

namespace Qkv1K
open Cert.KernelIdeal Cert.KernelIdeal.Gen Cert.KernelIdeal.Hand

variable (m : (ℓ : Loc nD τ sig) → Buf (Elt Ideal) ℓ) (outs : Gen.Outs (F := Ideal)) (c : Dev nD)

abbrev ka0 : Vec Ideal S20000x512 .f32 := m ((c.tc : Thread nD τ).loc main_arg0)
abbrev ka5 : Vec Ideal S2x512x512 .f32 := m ((c.tc : Thread nD τ).loc main_arg5)
abbrev ka6 : Vec Ideal S2x512 .f32 := m ((c.tc : Thread nD τ).loc main_arg6)
abbrev ka7 : Vec Ideal S2x512x512 .f32 := m ((c.tc : Thread nD τ).loc main_arg7)
abbrev ka8 : Vec Ideal S2x512x512 .f32 := m ((c.tc : Thread nD τ).loc main_arg8)

abbrev zeros : Vec Ideal S512 .f32 := broadcastInDim S512 ![] bcast_S_S512 (constant (F := Ideal) S_ .f32 0x00000000#32)

theorem V2_out : Gen.V2 m outs c main_v15 = ro0 m outs c := Function.update_self _ _ _

theorem kq1_read : kq1 m outs c = shapeCast S20000x8x64 (extractStridedSlice S20000x512 ![0, 0] (ro0 m outs c)
      slices_S20000x1536_S20000x512_0_0) shapeCasts_S20000x512_S20000x8x64 := by
  show after hostOps1 (Gen.V2 m outs c) main_v17 = _
  after_results
  rw [V2_out]
  rfl
theorem kk1_read : kk1 m outs c = shapeCast S20000x8x64 (extractStridedSlice S20000x512 ![0, 512] (ro0 m outs c)
      slices_S20000x1536_S20000x512_0_512) shapeCasts_S20000x512_S20000x8x64 := by
  show after hostOps1 (Gen.V2 m outs c) main_v19 = _
  after_results
  rw [V2_out]
  rfl
theorem kv1_read : kv1 m outs c = shapeCast S20000x8x64 (extractStridedSlice S20000x512 ![0, 1024] (ro0 m outs c)
      slices_S20000x1536_S20000x512_0_1024) shapeCasts_S20000x512_S20000x8x64 := by
  show after hostOps1 (Gen.V2 m outs c) main_v21 = _
  after_results
  rw [V2_out]
  rfl

theorem rx0_read : rx0 m outs c = truncf (F := Ideal) .bf16 (ka0 m c) bitsLt_bf16_f32 := by
  show after hostOps0 (Gen.V0 m c) main_v13 = _
  after_results
theorem rw0_read : rw0 m outs c = truncf (F := Ideal) .bf16
    (concatenate S512x1536 1 [⟨S512x512, mat0 (ka5 m c)⟩, ⟨S512x512, mat0 (ka7 m c)⟩, ⟨S512x512, mat0 (ka8 m c)⟩]
      concatenates_S512x512_S512x512_S512x512_S512x1536_d1) bitsLt_bf16_f32 := by
  show after hostOps0 (Gen.V0 m c) main_v7 = _
  after_results
  rfl
theorem rb0_read : rb0 m outs c = shapeCast S1x1536
    (concatenate S1536 0 [⟨S512, vec0 (ka6 m c)⟩, ⟨S512, zeros⟩, ⟨S512, zeros⟩] concatenates_S512_S512_S512_S1536_d0)
    shapeCasts_S1536_S1x1536 := by
  show after hostOps0 (Gen.V0 m c) main_v14 = _
  after_results
  rfl

theorem bands (hreg0 : RegHyp0 m outs c) :
    kq1 m outs c = headsQ (ka0 m c) (mat0 (ka5 m c)) (vec0 (ka6 m c))
    ∧ kk1 m outs c = headsK (ka0 m c) (mat0 (ka7 m c)) ∧ kv1 m outs c = headsK (ka0 m c) (mat0 (ka8 m c)) := by
  rw [kq1_read, kk1_read, kv1_read]
  exact qkv_core (ka0 m c) (mat0 (ka5 m c)) (mat0 (ka7 m c)) (mat0 (ka8 m c)) (vec0 (ka6 m c)) zeros zeros
    (zeros_apply _) (zeros_apply _) (rx0 m outs c) (rw0 m outs c) (rb0 m outs c) (ro0 m outs c) hreg0
    bitsLt_bf16_f32 concatenates_S512x512_S512x512_S512x512_S512x1536_d1 concatenates_S512_S512_S512_S1536_d0 shapeCasts_S1536_S1x1536
    (rx0_read m outs c) (rw0_read m outs c) (rb0_read m outs c)
    slices_S20000x1536_S20000x512_0_0 slices_S20000x1536_S20000x512_0_512 slices_S20000x1536_S20000x512_0_1024
    shapeCasts_S20000x512_S20000x8x64

end Qkv1K

namespace Qkv1R
open Cert.ReferenceIdeal Cert.ReferenceIdeal.Gen Cert.ReferenceIdeal.Hand

variable (V : Valuation τ sig (Elt Ideal))

theorem q_at : (after ops1 V main_v16 : Vec Ideal S20000x8x64 .f32) = headsQ (V main_arg0) (mat0 (V main_arg5)) (vec0 (V main_arg6)) := by
  after_results
  rfl
theorem k_at : (after ops1 V main_v20 : Vec Ideal S20000x8x64 .f32) = headsK (V main_arg0) (mat0 (V main_arg7)) := by
  after_results
  rfl
theorem v_at : (after ops1 V main_v24 : Vec Ideal S20000x8x64 .f32) = headsK (V main_arg0) (mat0 (V main_arg8)) := by
  after_results
  rfl

end Qkv1R

open Cert.ReferenceIdeal Cert.ReferenceIdeal.Hand in
theorem qkv1_eq (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD) (ha : Agree m m' c) (hreg0 : Cert.KernelIdeal.Hand.RegHyp0 m outs c) :
    Cert.KernelIdeal.Hand.kq1 m outs c = Cert.ReferenceIdeal.Hand.rq1 m' c
    ∧ Cert.KernelIdeal.Hand.kk1 m outs c = Cert.ReferenceIdeal.Hand.rk1 m' c
    ∧ Cert.KernelIdeal.Hand.kv1 m outs c = Cert.ReferenceIdeal.Hand.rv1 m' c := by
  obtain ⟨hq, hk, hv⟩ := Qkv1K.bands m outs c hreg0
  refine ⟨hq.trans ?_, hk.trans ?_, hv.trans ?_⟩
  · rw [show rq1 m' c = _ from Qkv1R.q_at _, RV1_arg m' c main_arg0 (by decide), RV1_arg m' c main_arg5 (by decide),
      RV1_arg m' c main_arg6 (by decide), ha.arg0, ha.arg5, ha.arg6]
  · rw [show rk1 m' c = _ from Qkv1R.k_at _, RV1_arg m' c main_arg0 (by decide), RV1_arg m' c main_arg7 (by decide), ha.arg0, ha.arg7]
  · rw [show rv1 m' c = _ from Qkv1R.v_at _, RV1_arg m' c main_arg0 (by decide), RV1_arg m' c main_arg8 (by decide), ha.arg0, ha.arg8]

end Cert.Bridge
-- ==== Proof.Bridge.LibAfter.lean ====
import Idealize.ShloMosaic.Lib.StableHlo.Run

noncomputable section

namespace Cert.Bridge

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

theorem after_split (n : Nat) (ops : List (HloOp τ sig Val)) (V : Valuation τ sig Val) :
    after ops V = after (ops.drop n) (after (ops.take n) V) := by
  rw [← after_append, List.take_append_drop]

end Cert.Bridge

end
-- ==== Proof.Bridge.Qkv2.lean ====
import proofs.«130450_j89593017795077_1_alg».proof.Proof.KI.Check
import proofs.«130450_j89593017795077_1_alg».proof.Proof.KI.RegHyp
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import proofs.«130450_j89593017795077_1_alg».proof.Proof.Bridge.LibAfter
import proofs.«130450_j89593017795077_1_alg».proof.Proof.Bridge.LibQkv
import Idealize.ShloMosaic.Lib.StableHlo.Run

noncomputable section

namespace Cert.Bridge

open Idealize.ShloMosaic Idealize.ShloMosaic.TcCoe Idealize.ShloMosaic.StableHlo Idealize.SL.Sem

namespace Qkv2K
open Cert.KernelIdeal Cert.KernelIdeal.Gen Cert.KernelIdeal.Hand

variable (m : (ℓ : Loc nD τ sig) → Buf (Elt Ideal) ℓ) (outs : Gen.Outs (F := Ideal)) (c : Dev nD)

abbrev ka5 : Vec Ideal S2x512x512 .f32 := m ((c.tc : Thread nD τ).loc main_arg5)
abbrev ka6 : Vec Ideal S2x512 .f32 := m ((c.tc : Thread nD τ).loc main_arg6)
abbrev ka7 : Vec Ideal S2x512x512 .f32 := m ((c.tc : Thread nD τ).loc main_arg7)
abbrev ka8 : Vec Ideal S2x512x512 .f32 := m ((c.tc : Thread nD τ).loc main_arg8)

abbrev zeros : Vec Ideal S512 .f32 := broadcastInDim S512 ![] bcast_S_S512 (constant (F := Ideal) S_ .f32 0x00000000#32)

abbrev Vmid : Valuation τ sig (Elt Ideal) := after (List.take 34 hostOps4) (Gen.V10 m outs c)

theorem V11_mid : Gen.V11 m outs c = after (List.drop 34 hostOps4) (Vmid m outs c) := after_split 34 hostOps4 _

theorem kx2_mid : kx2 m outs c = Vmid m outs c main_v154 := by
  show Gen.V11 m outs c main_v154 = _
  rw [V11_mid]
  simp only [List.drop_succ_cons, List.drop_zero]
  after_results

theorem rx4_read : rx4 m outs c = truncf (F := Ideal) .bf16 (kx2 m outs c) bitsLt_bf16_f32 := by
  rw [kx2_mid]
  show Gen.V11 m outs c main_v168 = _
  rw [V11_mid]
  simp only [List.drop_succ_cons, List.drop_zero]
  after_results

theorem rw4_read : rw4 m outs c = truncf (F := Ideal) .bf16
    (concatenate S512x1536 1 [⟨S512x512, mat1 (ka5 m c)⟩, ⟨S512x512, mat1 (ka7 m c)⟩, ⟨S512x512, mat1 (ka8 m c)⟩]
      concatenates_S512x512_S512x512_S512x512_S512x1536_d1) bitsLt_bf16_f32 := by
  dsimp only [ka5, ka7, ka8]
  rw [← kV11_arg m outs c main_arg5 (by decide), ← kV11_arg m outs c main_arg7 (by decide), ← kV11_arg m outs c main_arg8 (by decide)]
  show Gen.V11 m outs c main_v162 = _
  rw [V11_mid]
  simp only [List.drop_succ_cons, List.drop_zero]
  after_results
  rfl

theorem rb4_read : rb4 m outs c = shapeCast S1x1536
    (concatenate S1536 0 [⟨S512, vec1 (ka6 m c)⟩, ⟨S512, zeros⟩, ⟨S512, zeros⟩] concatenates_S512_S512_S512_S1536_d0)
    shapeCasts_S1536_S1x1536 := by
  dsimp only [ka6]
  rw [← kV11_arg m outs c main_arg6 (by decide)]
  show Gen.V11 m outs c main_v169 = _
  rw [V11_mid]
  simp only [List.drop_succ_cons, List.drop_zero]
  after_results
  rfl

theorem V12_out : Gen.V12 m outs c main_v170 = ro4 m outs c := Function.update_self _ _ _

theorem kq2_read : kq2 m outs c = shapeCast S20000x8x64 (extractStridedSlice S20000x512 ![0, 0] (ro4 m outs c)
      slices_S20000x1536_S20000x512_0_0) shapeCasts_S20000x512_S20000x8x64 := by
  show after hostOps5 (Gen.V12 m outs c) main_v172 = _
  after_results
  rw [V12_out]
  rfl
theorem kk2_read : kk2 m outs c = shapeCast S20000x8x64 (extractStridedSlice S20000x512 ![0, 512] (ro4 m outs c)
      slices_S20000x1536_S20000x512_0_512) shapeCasts_S20000x512_S20000x8x64 := by
  show after hostOps5 (Gen.V12 m outs c) main_v174 = _
  after_results
  rw [V12_out]
  rfl
theorem kv2_read : kv2 m outs c = shapeCast S20000x8x64 (extractStridedSlice S20000x512 ![0, 1024] (ro4 m outs c)
      slices_S20000x1536_S20000x512_0_1024) shapeCasts_S20000x512_S20000x8x64 := by
  show after hostOps5 (Gen.V12 m outs c) main_v176 = _
  after_results
  rw [V12_out]
  rfl

theorem bands (hreg4 : RegHyp4 m outs c) :
    kq2 m outs c = headsQ (kx2 m outs c) (mat1 (ka5 m c)) (vec1 (ka6 m c))
    ∧ kk2 m outs c = headsK (kx2 m outs c) (mat1 (ka7 m c)) ∧ kv2 m outs c = headsK (kx2 m outs c) (mat1 (ka8 m c)) := by
  rw [kq2_read, kk2_read, kv2_read]
  exact qkv_core (kx2 m outs c) (mat1 (ka5 m c)) (mat1 (ka7 m c)) (mat1 (ka8 m c)) (vec1 (ka6 m c)) zeros zeros
    (zeros_apply _) (zeros_apply _) (rx4 m outs c) (rw4 m outs c) (rb4 m outs c) (ro4 m outs c) hreg4
    bitsLt_bf16_f32 concatenates_S512x512_S512x512_S512x512_S512x1536_d1 concatenates_S512_S512_S512_S1536_d0 shapeCasts_S1536_S1x1536
    (rx4_read m outs c) (rw4_read m outs c) (rb4_read m outs c)
    slices_S20000x1536_S20000x512_0_0 slices_S20000x1536_S20000x512_0_512 slices_S20000x1536_S20000x512_0_1024
    shapeCasts_S20000x512_S20000x8x64

end Qkv2K

namespace Qkv2R
open Cert.ReferenceIdeal Cert.ReferenceIdeal.Gen Cert.ReferenceIdeal.Hand

variable (V : Valuation τ sig (Elt Ideal))

theorem q_at : (after ops8 V main_v160 : Vec Ideal S20000x8x64 .f32) = headsQ (V main_v151) (mat1 (V main_arg5)) (vec1 (V main_arg6)) := by
  after_results
  rfl
theorem k_at : (after ops8 V main_v164 : Vec Ideal S20000x8x64 .f32) = headsK (V main_v151) (mat1 (V main_arg7)) := by
  after_results
  rfl
theorem v_at : (after ops8 V main_v168 : Vec Ideal S20000x8x64 .f32) = headsK (V main_v151) (mat1 (V main_arg8)) := by
  after_results
  rfl

end Qkv2R

open Cert.ReferenceIdeal Cert.ReferenceIdeal.Hand in
theorem qkv2_eq (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD) (ha : Agree m m' c)
    (hx : Cert.KernelIdeal.Hand.kx2 m outs c = Cert.ReferenceIdeal.Hand.rx2 m' c)
    (hreg4 : Cert.KernelIdeal.Hand.RegHyp4 m outs c) :
    Cert.KernelIdeal.Hand.kq2 m outs c = Cert.ReferenceIdeal.Hand.rq2 m' c
    ∧ Cert.KernelIdeal.Hand.kk2 m outs c = Cert.ReferenceIdeal.Hand.rk2 m' c
    ∧ Cert.KernelIdeal.Hand.kv2 m outs c = Cert.ReferenceIdeal.Hand.rv2 m' c := by
  obtain ⟨hq, hk, hv⟩ := Qkv2K.bands m outs c hreg4
  refine ⟨hq.trans ?_, hk.trans ?_, hv.trans ?_⟩
  · rw [show rq2 m' c = _ from Qkv2R.q_at _, hx, RV8_arg m' c main_arg5 (by decide), RV8_arg m' c main_arg6 (by decide), ha.arg5, ha.arg6]
  · rw [show rk2 m' c = _ from Qkv2R.k_at _, hx, RV8_arg m' c main_arg7 (by decide), ha.arg7]
  · rw [show rv2 m' c = _ from Qkv2R.v_at _, hx, RV8_arg m' c main_arg8 (by decide), ha.arg8]

end Cert.Bridge
-- ==== Proof.Bridge.Y1.lean ====
import proofs.«130450_j89593017795077_1_alg».proof.Proof.KI.Check
import proofs.«130450_j89593017795077_1_alg».proof.Proof.KI.RegHyp
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import proofs.«130450_j89593017795077_1_alg».proof.Proof.Bridge.LibAfter
import proofs.«130450_j89593017795077_1_alg».proof.Proof.Bridge.LibDense
import Idealize.ShloMosaic.Lib.StableHlo.Run

noncomputable section

namespace Cert.Bridge

open Idealize.ShloMosaic Idealize.ShloMosaic.TcCoe Idealize.ShloMosaic.ValueIdx Idealize.ShloMosaic.StableHlo Idealize.SL.Sem

section
open Cert.KernelIdeal Cert.KernelIdeal.Gen Cert.KernelIdeal.Hand

variable (m : (ℓ : Loc nD τ sig) → Buf (Elt Ideal) ℓ) (outs : Gen.Outs (F := Ideal)) (c : Dev nD)

theorem y1_k : ky1 m outs c = addf (F := Ideal) (φ := .f32)
    (m ((c.tc : Thread nD τ).loc main_arg0) : Vec Ideal S20000x512 .f32) (ro1 m outs c) := by
  show after hostOps2 (Gen.V6 m outs c) main_v82 = _
  after_results
  rw [kV6_arg m outs c main_arg0 (by decide), show Gen.V6 m outs c main_v81 = outs 6 main_v81 c from Function.update_self _ _ _]

-- the stretch before the region, cut where the attention output is complete
theorem y1_cut : Gen.V5 m outs c = after (hostOps1_2.drop 27) (after (hostOps1_2.take 27) (Gen.V4 m outs c)) :=
  after_split 27 _ _

theorem y1_kx : rx1 m outs c = truncf (F := Ideal) .bf16 (ko1 m outs c) bitsLt_bf16_f32 := by
  show Gen.V5 m outs c main_v74 = truncf (F := Ideal) .bf16 (Gen.V5 m outs c main_v73) _
  rw [y1_cut]
  generalize after (hostOps1_2.take 27) (Gen.V4 m outs c) = V
  simp only [List.drop_succ_cons, List.drop_zero]
  after_results

theorem y1_kw : rw1 m outs c = truncf (F := Ideal) .bf16 (shapeCast S512x512 (extractStridedSlice S1x512x512 ![0, 0, 0]
    (m ((c.tc : Thread nD τ).loc main_arg9) : Vec Ideal S2x512x512 .f32) slices_S2x512x512_S1x512x512_0_0_0)
    shapeCasts_S1x512x512_S512x512) bitsLt_bf16_f32 := by
  rw [← kV5_arg m outs c main_arg9 (by decide)]
  show Gen.V5 m outs c main_v77 = _
  rw [y1_cut]
  generalize after (hostOps1_2.take 27) (Gen.V4 m outs c) = V
  simp only [List.drop_succ_cons, List.drop_zero]
  after_results
  rfl

theorem y1_kb : rb1 m outs c = shapeCast S1x512 (shapeCast S512 (extractStridedSlice S1x512 ![0, 0]
    (m ((c.tc : Thread nD τ).loc main_arg10) : Vec Ideal S2x512 .f32) slices_S2x512_S1x512_0_0) shapeCasts_S1x512_S512)
    shapeCasts_S512_S1x512 := by
  rw [← kV5_arg m outs c main_arg10 (by decide)]
  show Gen.V5 m outs c main_v80 = _
  rw [y1_cut]
  generalize after (hostOps1_2.take 27) (Gen.V4 m outs c) = V
  simp only [List.drop_succ_cons, List.drop_zero]
  after_results
  rfl

end

section
open Cert.ReferenceIdeal Cert.ReferenceIdeal.Gen Cert.ReferenceIdeal.Hand

theorem y1_r (V : Valuation τ sig (Elt Ideal)) : (after (ops3 (F := Ideal)) V main_v77 : Vec Ideal S20000x512 .f32)
    = addf (F := Ideal) (φ := .f32) (addf (F := Ideal) (φ := .f32) (V main_arg0 : Vec Ideal S20000x512 .f32)
        (Host.dotGeneral (F := Ideal) (φ₁ := .f32) (φ₂ := .f32) dot_S20000x512_S512x512_S20000x512_1_0_0_1_n_n none
          (V main_v68 : Vec Ideal S20000x512 .f32)
          (shapeCast S512x512 (extractStridedSlice S1x512x512 ![0, 0, 0] (V main_arg9 : Vec Ideal S2x512x512 .f32)
            slices_S2x512x512_S1x512x512_0_0_0) shapeCasts_S1x512x512_S512x512)))
      (broadcastInDim S20000x512 ![0, 1] bcast_S1x512_S20000x512_0_1 (broadcastInDim S1x512 ![1] bcast_S512_S1x512_1
        (shapeCast S512 (extractStridedSlice S1x512 ![0, 0] (V main_arg10 : Vec Ideal S2x512 .f32) slices_S2x512_S1x512_0_0)
          shapeCasts_S1x512_S512))) := by
  after_results
  rfl

end

open Cert.ReferenceIdeal Cert.ReferenceIdeal.Hand in
theorem y1_eq (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD) (ha : Agree m m' c)
    (ho : Cert.KernelIdeal.Hand.ko1 m outs c = Cert.ReferenceIdeal.Hand.ro1 m' c)
    (hreg1 : Cert.KernelIdeal.Hand.RegHyp1 m outs c) :
    Cert.KernelIdeal.Hand.ky1 m outs c = Cert.ReferenceIdeal.Hand.ry1 m' c := by
  rw [y1_k m outs c, show ry1 m' c = _ from y1_r (RV3 m' c), RV3_arg m' c main_arg0 (by decide), RV3_arg m' c main_arg9 (by decide),
    RV3_arg m' c main_arg10 (by decide), ha.arg0, ha.arg9, ha.arg10]
  exact resid_dense 0 (by decide) rfl hreg1 (fun n k => ((congrFun (y1_kx m outs c) _).trans (truncf_apply _ _ _)).trans (congrFun ho _))
    (y1_kw m outs c) (y1_kb m outs c)

end Cert.Bridge

end
-- ==== Proof.Bridge.Y2.lean ====
import proofs.«130450_j89593017795077_1_alg».proof.Proof.KI.Check
import proofs.«130450_j89593017795077_1_alg».proof.Proof.KI.RegHyp
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import proofs.«130450_j89593017795077_1_alg».proof.Proof.Bridge.LibDense
import Idealize.ShloMosaic.Lib.StableHlo.Run

noncomputable section

namespace Cert.Bridge

open Idealize.ShloMosaic Idealize.ShloMosaic.TcCoe Idealize.ShloMosaic.ValueIdx Idealize.ShloMosaic.StableHlo Idealize.SL.Sem

section
open Cert.KernelIdeal Cert.KernelIdeal.Gen Cert.KernelIdeal.Hand

variable (m : (ℓ : Loc nD τ sig) → Buf (Elt Ideal) ℓ) (outs : Gen.Outs (F := Ideal)) (c : Dev nD)

theorem y2_k : ky2 m outs c = addf (F := Ideal) (φ := .f32) (kx1 m outs c) (ro3 m outs c) := by
  show after hostOps4 (Gen.V10 m outs c) main_v126 = _
  dsimp only [Gen.hostOps4]
  after_results_simp
  rw [Gen.V10_of m outs c main_v110 (by decide), Gen.V9_of m outs c main_v110 (by decide), Gen.V8_of m outs c main_v110 (by decide)]
  exact congrArg _ (Function.update_self _ _ _)

theorem y2_kw : rw3 m outs c = truncf (F := Ideal) .bf16 (shapeCast S2048x512 (extractStridedSlice S1x2048x512 ![0, 0, 0]
    (m ((c.tc : Thread nD τ).loc main_arg15) : Vec Ideal S2x2048x512 .f32) slices_S2x2048x512_S1x2048x512_0_0_0)
    shapeCasts_S1x2048x512_S2048x512) bitsLt_bf16_f32 := by
  show after hostOps3 (Gen.V8 m outs c) main_v121 = _
  dsimp only [Gen.hostOps3]
  after_results
  rw [kV8_arg m outs c main_arg15 (by decide)]
  rfl

theorem y2_kb : rb3 m outs c = shapeCast S1x512 (shapeCast S512 (extractStridedSlice S1x512 ![0, 0]
    (m ((c.tc : Thread nD τ).loc main_arg16) : Vec Ideal S2x512 .f32) slices_S2x512_S1x512_0_0) shapeCasts_S1x512_S512)
    shapeCasts_S512_S1x512 := by
  show after hostOps3 (Gen.V8 m outs c) main_v124 = _
  dsimp only [Gen.hostOps3]
  after_results
  rw [kV8_arg m outs c main_arg16 (by decide)]
  rfl

end

section
open Cert.ReferenceIdeal Cert.ReferenceIdeal.Gen Cert.ReferenceIdeal.Hand

variable (V : Valuation τ sig (Elt Ideal))

theorem y2_keep : (after ops5 V main_v105 : Vec Ideal S20000x512 .f32) = V main_v105 := by
  dsimp only [ops5]
  after_results_simp

theorem y2_r : (after ops6 V main_v123 : Vec Ideal S20000x512 .f32) = addf (F := Ideal) (φ := .f32)
      (addf (F := Ideal) (φ := .f32) (V main_v105 : Vec Ideal S20000x512 .f32)
        (Host.dotGeneral (F := Ideal) (φ₁ := .f32) (φ₂ := .f32) dot_S20000x2048_S2048x512_S20000x512_1_0_0_1_n_n none
          (V main_v114 : Vec Ideal S20000x2048 .f32)
          (shapeCast S2048x512 (extractStridedSlice S1x2048x512 ![0, 0, 0] (V main_arg15 : Vec Ideal S2x2048x512 .f32)
            slices_S2x2048x512_S1x2048x512_0_0_0) shapeCasts_S1x2048x512_S2048x512)))
      (broadcastInDim S20000x512 ![0, 1] bcast_S1x512_S20000x512_0_1 (broadcastInDim S1x512 ![1] bcast_S512_S1x512_1
        (shapeCast S512 (extractStridedSlice S1x512 ![0, 0] (V main_arg16 : Vec Ideal S2x512 .f32) slices_S2x512_S1x512_0_0)
          shapeCasts_S1x512_S512))) := by
  dsimp only [ops6]
  after_results
  rfl

end

open Cert.ReferenceIdeal Cert.ReferenceIdeal.Hand in
theorem y2_eq (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD) (ha : Agree m m' c)
    (hx : Cert.KernelIdeal.Hand.kx1 m outs c = Cert.ReferenceIdeal.Hand.rx1 m' c)
    (hh : (Cert.KernelIdeal.Hand.kh1 m outs c : Cert.KernelIdeal.S20000x2048.Idx → EReal) = Cert.ReferenceIdeal.Hand.rh1 m' c)
    (hreg : Cert.KernelIdeal.Hand.RegHyp3 m outs c) :
    Cert.KernelIdeal.Hand.ky2 m outs c = Cert.ReferenceIdeal.Hand.ry2 m' c := by
  rw [y2_k m outs c, show ry2 m' c = _ from y2_r (RV6 m' c), show RV6 m' c main_v105 = rx1 m' c from y2_keep (RV5 m' c),
    RV6_arg m' c main_arg15 (by decide), RV6_arg m' c main_arg16 (by decide), ← hx, ha.arg15, ha.arg16]
  exact resid_dense 0 (by decide) rfl hreg
    (fun n k => (congrFun (Cert.KernelIdeal.Gen.V9_of m outs c Cert.KernelIdeal.main_v118 (by decide)) _).trans (congrFun hh _))
    (y2_kw m outs c) (y2_kb m outs c)

end Cert.Bridge

end
-- ==== Proof.Bridge.Y3.lean ====
import proofs.«130450_j89593017795077_1_alg».proof.Proof.KI.Check
import proofs.«130450_j89593017795077_1_alg».proof.Proof.KI.RegHyp
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import proofs.«130450_j89593017795077_1_alg».proof.Proof.Bridge.LibAfter
import proofs.«130450_j89593017795077_1_alg».proof.Proof.Bridge.LibDense
import Idealize.ShloMosaic.Lib.StableHlo.Run

noncomputable section

namespace Cert.Bridge

open Idealize.ShloMosaic Idealize.ShloMosaic.TcCoe Idealize.ShloMosaic.ValueIdx Idealize.ShloMosaic.StableHlo Idealize.SL.Sem

section
open Cert.KernelIdeal Cert.KernelIdeal.Gen Cert.KernelIdeal.Hand

variable (m : (ℓ : Loc nD τ sig) → Buf (Elt Ideal) ℓ) (outs : Gen.Outs (F := Ideal)) (c : Dev nD)

theorem y3_k : ky3 m outs c = addf (F := Ideal) (φ := .f32) (kx2 m outs c) (ro5 m outs c) := by
  show after hostOps6 (Gen.V16 m outs c) main_v237 = _
  after_results
  rw [Gen.V16_of m outs c main_v154 (by decide), Gen.V15_of m outs c main_v154 (by decide), Gen.V14_of m outs c main_v154 (by decide),
    Gen.V13_of m outs c main_v154 (by decide), Gen.V12_of m outs c main_v154 (by decide),
    show Gen.V16 m outs c main_v236 = outs 16 main_v236 c from Function.update_self _ _ _]

-- the stretch before the region, cut where the attention output is complete
theorem y3_cut : Gen.V15 m outs c = after (hostOps5_2.drop 27) (after (hostOps5_2.take 27) (Gen.V14 m outs c)) :=
  after_split 27 _ _

theorem y3_kx : rx5 m outs c = truncf (F := Ideal) .bf16 (ko2 m outs c) bitsLt_bf16_f32 := by
  show Gen.V15 m outs c main_v229 = truncf (F := Ideal) .bf16 (Gen.V15 m outs c main_v228) _
  rw [y3_cut]
  generalize after (hostOps5_2.take 27) (Gen.V14 m outs c) = V
  simp only [List.drop_succ_cons, List.drop_zero]
  after_results

theorem y3_kw : rw5 m outs c = truncf (F := Ideal) .bf16 (shapeCast S512x512 (extractStridedSlice S1x512x512 ![1, 0, 0]
    (m ((c.tc : Thread nD τ).loc main_arg9) : Vec Ideal S2x512x512 .f32) slices_S2x512x512_S1x512x512_1_0_0)
    shapeCasts_S1x512x512_S512x512) bitsLt_bf16_f32 := by
  rw [← kV15_arg m outs c main_arg9 (by decide)]
  show Gen.V15 m outs c main_v232 = _
  rw [y3_cut]
  generalize after (hostOps5_2.take 27) (Gen.V14 m outs c) = V
  simp only [List.drop_succ_cons, List.drop_zero]
  after_results
  rfl

theorem y3_kb : rb5 m outs c = shapeCast S1x512 (shapeCast S512 (extractStridedSlice S1x512 ![1, 0]
    (m ((c.tc : Thread nD τ).loc main_arg10) : Vec Ideal S2x512 .f32) slices_S2x512_S1x512_1_0) shapeCasts_S1x512_S512)
    shapeCasts_S512_S1x512 := by
  rw [← kV15_arg m outs c main_arg10 (by decide)]
  show Gen.V15 m outs c main_v235 = _
  rw [y3_cut]
  generalize after (hostOps5_2.take 27) (Gen.V14 m outs c) = V
  simp only [List.drop_succ_cons, List.drop_zero]
  after_results
  rfl

end

section
open Cert.ReferenceIdeal Cert.ReferenceIdeal.Gen Cert.ReferenceIdeal.Hand

variable (V : Valuation τ sig (Elt Ideal))

theorem y3_keep8 : (after (ops8 (F := Ideal)) V main_v151 : Vec Ideal S20000x512 .f32) = V main_v151 := by
  after_results

theorem y3_keep9 : (after (ops9 (F := Ideal)) V main_v151 : Vec Ideal S20000x512 .f32) = V main_v151 := by
  after_results

theorem y3_r : (after (ops10 (F := Ideal)) V main_v221 : Vec Ideal S20000x512 .f32)
    = addf (F := Ideal) (φ := .f32) (addf (F := Ideal) (φ := .f32) (V main_v151 : Vec Ideal S20000x512 .f32)
        (Host.dotGeneral (F := Ideal) (φ₁ := .f32) (φ₂ := .f32) dot_S20000x512_S512x512_S20000x512_1_0_0_1_n_n none
          (V main_v212 : Vec Ideal S20000x512 .f32)
          (shapeCast S512x512 (extractStridedSlice S1x512x512 ![1, 0, 0] (V main_arg9 : Vec Ideal S2x512x512 .f32)
            slices_S2x512x512_S1x512x512_1_0_0) shapeCasts_S1x512x512_S512x512)))
      (broadcastInDim S20000x512 ![0, 1] bcast_S1x512_S20000x512_0_1 (broadcastInDim S1x512 ![1] bcast_S512_S1x512_1
        (shapeCast S512 (extractStridedSlice S1x512 ![1, 0] (V main_arg10 : Vec Ideal S2x512 .f32) slices_S2x512_S1x512_1_0)
          shapeCasts_S1x512_S512))) := by
  after_results
  rfl

end

open Cert.ReferenceIdeal Cert.ReferenceIdeal.Hand in
theorem y3_eq (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD) (ha : Agree m m' c)
    (hx : Cert.KernelIdeal.Hand.kx2 m outs c = Cert.ReferenceIdeal.Hand.rx2 m' c)
    (ho : Cert.KernelIdeal.Hand.ko2 m outs c = Cert.ReferenceIdeal.Hand.ro2 m' c)
    (hreg5 : Cert.KernelIdeal.Hand.RegHyp5 m outs c) :
    Cert.KernelIdeal.Hand.ky3 m outs c = Cert.ReferenceIdeal.Hand.ry3 m' c := by
  rw [y3_k m outs c, show ry3 m' c = _ from y3_r (RV10 m' c),
    show RV10 m' c main_v151 = rx2 m' c from (y3_keep9 (RV9 m' c)).trans (y3_keep8 (RV8 m' c)),
    RV10_arg m' c main_arg9 (by decide), RV10_arg m' c main_arg10 (by decide), ← hx, ha.arg9, ha.arg10]
  exact resid_dense 1 (by decide) rfl hreg5 (fun n k => ((congrFun (y3_kx m outs c) _).trans (truncf_apply _ _ _)).trans (congrFun ho _))
    (y3_kw m outs c) (y3_kb m outs c)

end Cert.Bridge

end
-- ==== Proof.Bridge.Y4.lean ====
import proofs.«130450_j89593017795077_1_alg».proof.Proof.KI.Check
import proofs.«130450_j89593017795077_1_alg».proof.Proof.KI.RegHyp
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.KArgs
import proofs.«130450_j89593017795077_1_alg».proof.Proof.Bridge.LibDense
import Idealize.ShloMosaic.Lib.StableHlo.Run

noncomputable section

namespace Cert.Bridge

open Idealize.ShloMosaic Idealize.ShloMosaic.TcCoe Idealize.ShloMosaic.ValueIdx Idealize.ShloMosaic.StableHlo Idealize.SL.Sem

section
open Cert.KernelIdeal Cert.KernelIdeal.Gen Cert.KernelIdeal.Hand

variable (m : (ℓ : Loc nD τ sig) → Buf (Elt Ideal) ℓ) (outs : Gen.Outs (F := Ideal)) (c : Dev nD)

theorem y4_k : ky4 m outs c = addf (F := Ideal) (φ := .f32) (kx3 m outs c) (ro7 m outs c) := by
  show after hostOps8 (Gen.V20 m outs c) main_v281 = _
  dsimp only [Gen.hostOps8]
  after_results_simp
  rw [Gen.V20_of m outs c main_v265 (by decide), Gen.V19_of m outs c main_v265 (by decide), Gen.V18_of m outs c main_v265 (by decide)]
  exact congrArg _ (Function.update_self _ _ _)

theorem y4_kw : rw7 m outs c = truncf (F := Ideal) .bf16 (shapeCast S2048x512 (extractStridedSlice S1x2048x512 ![1, 0, 0]
    (m ((c.tc : Thread nD τ).loc main_arg15) : Vec Ideal S2x2048x512 .f32) slices_S2x2048x512_S1x2048x512_1_0_0)
    shapeCasts_S1x2048x512_S2048x512) bitsLt_bf16_f32 := by
  show after hostOps7 (Gen.V18 m outs c) main_v276 = _
  dsimp only [Gen.hostOps7]
  after_results
  rw [kV18_arg m outs c main_arg15 (by decide)]
  rfl

theorem y4_kb : rb7 m outs c = shapeCast S1x512 (shapeCast S512 (extractStridedSlice S1x512 ![1, 0]
    (m ((c.tc : Thread nD τ).loc main_arg16) : Vec Ideal S2x512 .f32) slices_S2x512_S1x512_1_0) shapeCasts_S1x512_S512)
    shapeCasts_S512_S1x512 := by
  show after hostOps7 (Gen.V18 m outs c) main_v279 = _
  dsimp only [Gen.hostOps7]
  after_results
  rw [kV18_arg m outs c main_arg16 (by decide)]
  rfl

end

section
open Cert.ReferenceIdeal Cert.ReferenceIdeal.Gen Cert.ReferenceIdeal.Hand

variable (V : Valuation τ sig (Elt Ideal))

theorem y4_keep : (after ops12 V main_v249 : Vec Ideal S20000x512 .f32) = V main_v249 := by
  dsimp only [ops12]
  after_results_simp

theorem y4_r : (after ops13 V main_v267 : Vec Ideal S20000x512 .f32) = addf (F := Ideal) (φ := .f32)
      (addf (F := Ideal) (φ := .f32) (V main_v249 : Vec Ideal S20000x512 .f32)
        (Host.dotGeneral (F := Ideal) (φ₁ := .f32) (φ₂ := .f32) dot_S20000x2048_S2048x512_S20000x512_1_0_0_1_n_n none
          (V main_v258 : Vec Ideal S20000x2048 .f32)
          (shapeCast S2048x512 (extractStridedSlice S1x2048x512 ![1, 0, 0] (V main_arg15 : Vec Ideal S2x2048x512 .f32)
            slices_S2x2048x512_S1x2048x512_1_0_0) shapeCasts_S1x2048x512_S2048x512)))
      (broadcastInDim S20000x512 ![0, 1] bcast_S1x512_S20000x512_0_1 (broadcastInDim S1x512 ![1] bcast_S512_S1x512_1
        (shapeCast S512 (extractStridedSlice S1x512 ![1, 0] (V main_arg16 : Vec Ideal S2x512 .f32) slices_S2x512_S1x512_1_0)
          shapeCasts_S1x512_S512))) := by
  dsimp only [ops13]
  after_results
  rfl

end

open Cert.ReferenceIdeal Cert.ReferenceIdeal.Hand in
theorem y4_eq (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD) (ha : Agree m m' c)
    (hx : Cert.KernelIdeal.Hand.kx3 m outs c = Cert.ReferenceIdeal.Hand.rx3 m' c)
    (hh : (Cert.KernelIdeal.Hand.kh2 m outs c : Cert.KernelIdeal.S20000x2048.Idx → EReal) = Cert.ReferenceIdeal.Hand.rh2 m' c)
    (hreg : Cert.KernelIdeal.Hand.RegHyp7 m outs c) :
    Cert.KernelIdeal.Hand.ky4 m outs c = Cert.ReferenceIdeal.Hand.ry4 m' c := by
  rw [y4_k m outs c, show ry4 m' c = _ from y4_r (RV13 m' c), show RV13 m' c main_v249 = rx3 m' c from y4_keep (RV12 m' c),
    RV13_arg m' c main_arg15 (by decide), RV13_arg m' c main_arg16 (by decide), ← hx, ha.arg15, ha.arg16]
  exact resid_dense 1 (by decide) rfl hreg
    (fun n k => (congrFun (Cert.KernelIdeal.Gen.V19_of m outs c Cert.KernelIdeal.main_v273 (by decide)) _).trans (congrFun hh _))
    (y4_kw m outs c) (y4_kb m outs c)

end Cert.Bridge

end
-- ==== Proof.Bridge.H1.lean ====
import proofs.«130450_j89593017795077_1_alg».proof.Proof.KI.Check
import proofs.«130450_j89593017795077_1_alg».proof.Proof.KI.RegHyp
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.LibDense
import Idealize.ShloMosaic.Lib.StableHlo.Run
import Idealize.ShloMosaic.Lib.ValueIdx
import Idealize.ShloMosaic.PureOps.Ideal

set_option maxRecDepth 4096
set_option maxHeartbeats 4000000

noncomputable section

namespace Cert.Bridge

open Idealize.ShloMosaic Idealize.ShloMosaic.TcCoe Idealize.SL.Sem Idealize.ShloMosaic.ValueIdx
open Idealize.ShloMosaic.StableHlo

namespace H1aux

section K
open Cert.KernelIdeal

variable (m : (ℓ : Loc nD τ sig) → Buf (Elt Ideal) ℓ) (outs : Gen.Outs (F := Ideal)) (c : Dev nD)

abbrev h1_kW : FVec Ideal S2x512x2048 .f32 := m ((c.tc : Thread nD τ).loc main_arg13)
abbrev h1_kb : FVec Ideal S2x2048 .f32 := m ((c.tc : Thread nD τ).loc main_arg14)

theorem h1_kW_of : (Gen.V6 m outs c main_arg13 : FVec Ideal S2x512x2048 .f32) = h1_kW m c :=
  (Gen.V6_of m outs c main_arg13 (by decide)).trans <| (Gen.V5_of m outs c main_arg13 (by decide)).trans <|
  (Gen.V4_of m outs c main_arg13 (by decide)).trans <| (Gen.V3_of m outs c main_arg13 (by decide)).trans <|
  (Gen.V2_of m outs c main_arg13 (by decide)).trans <| (Gen.V1_of m c main_arg13 (by decide))

theorem h1_kb_of : (Gen.V6 m outs c main_arg14 : FVec Ideal S2x2048 .f32) = h1_kb m c :=
  (Gen.V6_of m outs c main_arg14 (by decide)).trans <| (Gen.V5_of m outs c main_arg14 (by decide)).trans <|
  (Gen.V4_of m outs c main_arg14 (by decide)).trans <| (Gen.V3_of m outs c main_arg14 (by decide)).trans <|
  (Gen.V2_of m outs c main_arg14 (by decide)).trans <| (Gen.V1_of m c main_arg14 (by decide))

theorem h1_kx_eq : Hand.rx2 m outs c = truncf (F := Ideal) .bf16 (Hand.kx1 m outs c) Gen.bitsLt_bf16_f32 := by
  dsimp only [Hand.rx2, Hand.kx1, Gen.V7, Gen.hostOps2]
  after_results_simp

theorem h1_kw_eq : Hand.rw2 m outs c = truncf (F := Ideal) .bf16 (shapeCast S512x2048
    (extractStridedSlice S1x512x2048 ![0, 0, 0] (h1_kW m c) Gen.slices_S2x512x2048_S1x512x2048_0_0_0)
    Gen.shapeCasts_S1x512x2048_S512x2048) Gen.bitsLt_bf16_f32 := by
  rw [← h1_kW_of m outs c]
  dsimp only [Hand.rw2, Gen.V7, Gen.hostOps2]
  after_results_simp
  rfl

theorem h1_kb_eq : Hand.rb2 m outs c = shapeCast S1x2048 (shapeCast S2048
    (extractStridedSlice S1x2048 ![0, 0] (h1_kb m c) Gen.slices_S2x2048_S1x2048_0_0)
    Gen.shapeCasts_S1x2048_S2048) Gen.shapeCasts_S2048_S1x2048 := by
  rw [← h1_kb_of m outs c]
  dsimp only [Hand.rb2, Gen.V7, Gen.hostOps2]
  after_results_simp
  rfl

theorem h1_kernel (hreg : Hand.RegHyp2 m outs c) (n : Fin 20000) (j : Fin 2048) :
    Hand.kh1 m outs c (ix2 n j)
      = max ((∑ k : Fin 512, Hand.kx1 m outs c (ix2 n k) * h1_kW m c (ix3 (⟨0, by decide⟩ : Fin 2) k j))
          + h1_kb m c (ix2 (⟨0, by decide⟩ : Fin 2) j)) 0 := by
  have e : Hand.kh1 m outs c = Hand.ro2 m outs c := by
    dsimp only [Hand.kh1, Hand.ro2, Gen.V8]
    exact Function.update_self ..
  rw [e, hreg n j, h1_kx_eq, h1_kw_eq, h1_kb_eq]
  rw [kernelDot_stackMat_apply (Hand.kx1 m outs c) (h1_kW m c) 0 (by decide),
    stackRow_oneRow_apply (h1_kb m c) 0 (by decide)]

end K

section R
open Cert.ReferenceIdeal Cert.ReferenceIdeal.Gen

variable (m' : (ℓ : Loc nD τ sig) → Buf (Elt Ideal) ℓ) (c : Dev nD)

abbrev h1_rW : FVec Ideal S2x512x2048 .f32 := m' ((c.tc : Thread nD τ).loc main_arg13)
abbrev h1_rb : FVec Ideal S2x2048 .f32 := m' ((c.tc : Thread nD τ).loc main_arg14)

theorem h1_rW_of : (Hand.RV5 m' c main_arg13 : FVec Ideal S2x512x2048 .f32) = h1_rW m' c :=
  Hand.RV5_arg m' c main_arg13 (by decide)

theorem h1_rb_of : (Hand.RV5 m' c main_arg14 : FVec Ideal S2x2048 .f32) = h1_rb m' c :=
  Hand.RV5_arg m' c main_arg14 (by decide)

theorem h1_rh_eq : (Hand.rh1 m' c : FVec Ideal S20000x2048 .f32)
    = maximumf (addf (Host.dotGeneral (φ₁ := .f32) (φ₂ := .f32) dot_S20000x512_S512x2048_S20000x2048_1_0_0_1_n_n none (Hand.rx1 m' c)
        (shapeCast S512x2048 (extractStridedSlice S1x512x2048 ![0, 0, 0] (h1_rW m' c) slices_S2x512x2048_S1x512x2048_0_0_0) shapeCasts_S1x512x2048_S512x2048))
      (broadcastInDim S20000x2048 ![0, 1] bcast_S1x2048_S20000x2048_0_1 (broadcastInDim S1x2048 ![1] bcast_S2048_S1x2048_1
        (shapeCast S2048 (extractStridedSlice S1x2048 ![0, 0] (h1_rb m' c) slices_S2x2048_S1x2048_0_0) shapeCasts_S1x2048_S2048))))
      (broadcastInDim S20000x2048 ![] bcast_S_S20000x2048 (constant (F := Ideal) S_ .f32 0x00000000#32)) := by
  rw [← h1_rW_of m' c, ← h1_rb_of m' c]
  dsimp only [Hand.rh1, Hand.rx1, Hand.RV6, Hand.ops5]
  after_results_simp
  rfl

theorem h1_ref (n : Fin 20000) (j : Fin 2048) :
    Hand.rh1 m' c (ix2 n j)
      = max ((∑ k : Fin 512, Hand.rx1 m' c (ix2 n k) * h1_rW m' c (ix3 (⟨0, by decide⟩ : Fin 2) k j))
          + h1_rb m' c (ix2 (⟨0, by decide⟩ : Fin 2) j)) 0 := by
  rw [h1_rh_eq, maximumf_apply, addf_apply,
    hostDot_stackMat_apply (φ := .f32) dot_S20000x512_S512x2048_S20000x2048_1_0_0_1_n_n rfl (Hand.rx1 m' c) (h1_rW m' c) 0 (by decide),
    stackRow_everyRow_apply (h1_rb m' c) 0 (by decide)]
  rw [broadcastInDim_constant, broadcast_apply]
  show max _ (Ideal.ofBits .f32 0x00000000#32) = _
  rw [Ideal.ofBits_zero_f32]

end R

end H1aux

open H1aux

theorem h1_eq (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD) (ha : Agree m m' c)
    (hx : Cert.KernelIdeal.Hand.kx1 m outs c = Cert.ReferenceIdeal.Hand.rx1 m' c)
    (hreg2 : Cert.KernelIdeal.Hand.RegHyp2 m outs c) :
    (Cert.KernelIdeal.Hand.kh1 m outs c : Cert.KernelIdeal.S20000x2048.Idx → EReal) = Cert.ReferenceIdeal.Hand.rh1 m' c := by
  funext i
  obtain ⟨n, j, rfl⟩ : ∃ (n : Fin 20000) (j : Fin 2048), i = ix2 n j := ⟨i 0, i 1, eq_ix2 i⟩
  have eW : h1_rW m' c = h1_kW m c := ha.arg13
  have eb : h1_rb m' c = h1_kb m c := ha.arg14
  rw [h1_kernel m outs c hreg2 n j, h1_ref m' c n j, hx, eW, eb]

end Cert.Bridge

end
-- ==== Proof.Bridge.H2.lean ====
import proofs.«130450_j89593017795077_1_alg».proof.Proof.KI.Check
import proofs.«130450_j89593017795077_1_alg».proof.Proof.KI.RegHyp
import proofs.«130450_j89593017795077_1_alg».proof.Proof.R.Check
import proofs.«130450_j89593017795077_1_alg».proof.Proof.R.Args
import proofs.«130450_j89593017795077_1_alg».proof.Proof.Bridge.Agree
import proofs.«130450_j89593017795077_1_alg».proof.Proof.Bridge.LibDense
import Idealize.ShloMosaic.Lib.StableHlo.Run
import Idealize.ShloMosaic.Lib.ValueIdx
import Idealize.ShloMosaic.PureOps.Ideal

set_option maxRecDepth 4096
set_option maxHeartbeats 4000000

noncomputable section

namespace Cert.Bridge

open Idealize.ShloMosaic Idealize.ShloMosaic.TcCoe Idealize.SL.Sem Idealize.ShloMosaic.ValueIdx
open Idealize.ShloMosaic.StableHlo

namespace H2aux

section K
open Cert.KernelIdeal

variable (m : (ℓ : Loc nD τ sig) → Buf (Elt Ideal) ℓ) (outs : Gen.Outs (F := Ideal)) (c : Dev nD)

abbrev h2_kW : FVec Ideal S2x512x2048 .f32 := m ((c.tc : Thread nD τ).loc main_arg13)
abbrev h2_kb : FVec Ideal S2x2048 .f32 := m ((c.tc : Thread nD τ).loc main_arg14)

theorem h2_kW_of : (Gen.V16 m outs c main_arg13 : FVec Ideal S2x512x2048 .f32) = h2_kW m c :=
  (Gen.V16_of m outs c main_arg13 (by decide)).trans <| (Gen.V15_of m outs c main_arg13 (by decide)).trans <|
  (Gen.V14_of m outs c main_arg13 (by decide)).trans <| (Gen.V13_of m outs c main_arg13 (by decide)).trans <|
  (Gen.V12_of m outs c main_arg13 (by decide)).trans <| (Gen.V11_of m outs c main_arg13 (by decide)).trans <|
  (Gen.V10_of m outs c main_arg13 (by decide)).trans <| (Gen.V9_of m outs c main_arg13 (by decide)).trans <|
  (Gen.V8_of m outs c main_arg13 (by decide)).trans <| (Gen.V7_of m outs c main_arg13 (by decide)).trans <|
  (Gen.V6_of m outs c main_arg13 (by decide)).trans <| (Gen.V5_of m outs c main_arg13 (by decide)).trans <|
  (Gen.V4_of m outs c main_arg13 (by decide)).trans <| (Gen.V3_of m outs c main_arg13 (by decide)).trans <|
  (Gen.V2_of m outs c main_arg13 (by decide)).trans <| (Gen.V1_of m c main_arg13 (by decide))

theorem h2_kb_of : (Gen.V16 m outs c main_arg14 : FVec Ideal S2x2048 .f32) = h2_kb m c :=
  (Gen.V16_of m outs c main_arg14 (by decide)).trans <| (Gen.V15_of m outs c main_arg14 (by decide)).trans <|
  (Gen.V14_of m outs c main_arg14 (by decide)).trans <| (Gen.V13_of m outs c main_arg14 (by decide)).trans <|
  (Gen.V12_of m outs c main_arg14 (by decide)).trans <| (Gen.V11_of m outs c main_arg14 (by decide)).trans <|
  (Gen.V10_of m outs c main_arg14 (by decide)).trans <| (Gen.V9_of m outs c main_arg14 (by decide)).trans <|
  (Gen.V8_of m outs c main_arg14 (by decide)).trans <| (Gen.V7_of m outs c main_arg14 (by decide)).trans <|
  (Gen.V6_of m outs c main_arg14 (by decide)).trans <| (Gen.V5_of m outs c main_arg14 (by decide)).trans <|
  (Gen.V4_of m outs c main_arg14 (by decide)).trans <| (Gen.V3_of m outs c main_arg14 (by decide)).trans <|
  (Gen.V2_of m outs c main_arg14 (by decide)).trans <| (Gen.V1_of m c main_arg14 (by decide))

theorem h2_kx_eq : Hand.rx6 m outs c = truncf (F := Ideal) .bf16 (Hand.kx3 m outs c) Gen.bitsLt_bf16_f32 := by
  dsimp only [Hand.rx6, Hand.kx3, Gen.V17, Gen.hostOps6]
  after_results_simp

theorem h2_kw_eq : Hand.rw6 m outs c = truncf (F := Ideal) .bf16 (shapeCast S512x2048
    (extractStridedSlice S1x512x2048 ![1, 0, 0] (h2_kW m c) Gen.slices_S2x512x2048_S1x512x2048_1_0_0)
    Gen.shapeCasts_S1x512x2048_S512x2048) Gen.bitsLt_bf16_f32 := by
  rw [← h2_kW_of m outs c]
  dsimp only [Hand.rw6, Gen.V17, Gen.hostOps6]
  after_results_simp
  rfl

theorem h2_kb_eq : Hand.rb6 m outs c = shapeCast S1x2048 (shapeCast S2048
    (extractStridedSlice S1x2048 ![1, 0] (h2_kb m c) Gen.slices_S2x2048_S1x2048_1_0)
    Gen.shapeCasts_S1x2048_S2048) Gen.shapeCasts_S2048_S1x2048 := by
  rw [← h2_kb_of m outs c]
  dsimp only [Hand.rb6, Gen.V17, Gen.hostOps6]
  after_results_simp
  rfl

theorem h2_kernel (hreg : Hand.RegHyp6 m outs c) (n : Fin 20000) (j : Fin 2048) :
    Hand.kh2 m outs c (ix2 n j)
      = max ((∑ k : Fin 512, Hand.kx3 m outs c (ix2 n k) * h2_kW m c (ix3 (⟨1, by decide⟩ : Fin 2) k j))
          + h2_kb m c (ix2 (⟨1, by decide⟩ : Fin 2) j)) 0 := by
  have e : Hand.kh2 m outs c = Hand.ro6 m outs c := by
    dsimp only [Hand.kh2, Hand.ro6, Gen.V18]
    exact Function.update_self ..
  rw [e, hreg n j, h2_kx_eq, h2_kw_eq, h2_kb_eq]
  rw [kernelDot_stackMat_apply (Hand.kx3 m outs c) (h2_kW m c) 1 (by decide),
    stackRow_oneRow_apply (h2_kb m c) 1 (by decide)]

end K

section R
open Cert.ReferenceIdeal Cert.ReferenceIdeal.Gen

variable (m' : (ℓ : Loc nD τ sig) → Buf (Elt Ideal) ℓ) (c : Dev nD)

abbrev h2_rW : FVec Ideal S2x512x2048 .f32 := m' ((c.tc : Thread nD τ).loc main_arg13)
abbrev h2_rb : FVec Ideal S2x2048 .f32 := m' ((c.tc : Thread nD τ).loc main_arg14)

theorem h2_rW_of : (Hand.RV12 m' c main_arg13 : FVec Ideal S2x512x2048 .f32) = h2_rW m' c :=
  Hand.RV12_arg m' c main_arg13 (by decide)

theorem h2_rb_of : (Hand.RV12 m' c main_arg14 : FVec Ideal S2x2048 .f32) = h2_rb m' c :=
  Hand.RV12_arg m' c main_arg14 (by decide)

theorem h2_rh_eq : (Hand.rh2 m' c : FVec Ideal S20000x2048 .f32)
    = maximumf (addf (Host.dotGeneral (φ₁ := .f32) (φ₂ := .f32) dot_S20000x512_S512x2048_S20000x2048_1_0_0_1_n_n none (Hand.rx3 m' c)
        (shapeCast S512x2048 (extractStridedSlice S1x512x2048 ![1, 0, 0] (h2_rW m' c) slices_S2x512x2048_S1x512x2048_1_0_0) shapeCasts_S1x512x2048_S512x2048))
      (broadcastInDim S20000x2048 ![0, 1] bcast_S1x2048_S20000x2048_0_1 (broadcastInDim S1x2048 ![1] bcast_S2048_S1x2048_1
        (shapeCast S2048 (extractStridedSlice S1x2048 ![1, 0] (h2_rb m' c) slices_S2x2048_S1x2048_1_0) shapeCasts_S1x2048_S2048))))
      (broadcastInDim S20000x2048 ![] bcast_S_S20000x2048 (constant (F := Ideal) S_ .f32 0x00000000#32)) := by
  rw [← h2_rW_of m' c, ← h2_rb_of m' c]
  dsimp only [Hand.rh2, Hand.rx3, Hand.RV13, Hand.ops12]
  after_results_simp
  rfl

theorem h2_ref (n : Fin 20000) (j : Fin 2048) :
    Hand.rh2 m' c (ix2 n j)
      = max ((∑ k : Fin 512, Hand.rx3 m' c (ix2 n k) * h2_rW m' c (ix3 (⟨1, by decide⟩ : Fin 2) k j))
          + h2_rb m' c (ix2 (⟨1, by decide⟩ : Fin 2) j)) 0 := by
  rw [h2_rh_eq, maximumf_apply, addf_apply,
    hostDot_stackMat_apply (φ := .f32) dot_S20000x512_S512x2048_S20000x2048_1_0_0_1_n_n rfl (Hand.rx3 m' c) (h2_rW m' c) 1 (by decide),
    stackRow_everyRow_apply (h2_rb m' c) 1 (by decide)]
  rw [broadcastInDim_constant, broadcast_apply]
  show max _ (Ideal.ofBits .f32 0x00000000#32) = _
  rw [Ideal.ofBits_zero_f32]

end R

end H2aux

open H2aux

theorem h2_eq (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD) (ha : Agree m m' c)
    (hx : Cert.KernelIdeal.Hand.kx3 m outs c = Cert.ReferenceIdeal.Hand.rx3 m' c)
    (hreg6 : Cert.KernelIdeal.Hand.RegHyp6 m outs c) :
    (Cert.KernelIdeal.Hand.kh2 m outs c : Cert.KernelIdeal.S20000x2048.Idx → EReal) = Cert.ReferenceIdeal.Hand.rh2 m' c := by
  funext i
  obtain ⟨n, j, rfl⟩ : ∃ (n : Fin 20000) (j : Fin 2048), i = ix2 n j := ⟨i 0, i 1, eq_ix2 i⟩
  have eW : h2_rW m' c = h2_kW m c := ha.arg13
  have eb : h2_rb m' c = h2_kb m c := ha.arg14
  rw [h2_kernel m outs c hreg6 n j, h2_ref m' c n j, hx, eW, eb]

end Cert.Bridge

end
-- ==== Proof.Bridge.All.lean ====
import proofs.«130450_j89593017795077_1_alg».proof.Proof.KI.Run
import proofs.«130450_j89593017795077_1_alg».proof.Proof.KI.Val0
import proofs.«130450_j89593017795077_1_alg».proof.Proof.KI.Val1
import proofs.«130450_j89593017795077_1_alg».proof.Proof.KI.Val2
import proofs.«130450_j89593017795077_1_alg».proof.Proof.KI.Val3
import proofs.«130450_j89593017795077_1_alg».proof.Proof.KI.Val4
import proofs.«130450_j89593017795077_1_alg».proof.Proof.KI.Val5
import proofs.«130450_j89593017795077_1_alg».proof.Proof.KI.Val6
import proofs.«130450_j89593017795077_1_alg».proof.Proof.KI.Val7
import proofs.«130450_j89593017795077_1_alg».proof.Proof.KI.RegHyp
import proofs.«130450_j89593017795077_1_alg».proof.Proof.KI.Check
import proofs.«130450_j89593017795077_1_alg».proof.Proof.R.Check
import proofs.«130450_j89593017795077_1_alg».proof.Proof.Bridge.Agree
import proofs.«130450_j89593017795077_1_alg».proof.Proof.Bridge.E1
import proofs.«130450_j89593017795077_1_alg».proof.Proof.Bridge.E2
import proofs.«130450_j89593017795077_1_alg».proof.Proof.Bridge.O1
import proofs.«130450_j89593017795077_1_alg».proof.Proof.Bridge.O2
import proofs.«130450_j89593017795077_1_alg».proof.Proof.Bridge.X1
import proofs.«130450_j89593017795077_1_alg».proof.Proof.Bridge.X2
import proofs.«130450_j89593017795077_1_alg».proof.Proof.Bridge.X3
import proofs.«130450_j89593017795077_1_alg».proof.Proof.Bridge.Out
import proofs.«130450_j89593017795077_1_alg».proof.Proof.Bridge.Qkv1
import proofs.«130450_j89593017795077_1_alg».proof.Proof.Bridge.Qkv2
import proofs.«130450_j89593017795077_1_alg».proof.Proof.Bridge.Y1
import proofs.«130450_j89593017795077_1_alg».proof.Proof.Bridge.Y2
import proofs.«130450_j89593017795077_1_alg».proof.Proof.Bridge.Y3
import proofs.«130450_j89593017795077_1_alg».proof.Proof.Bridge.Y4
import proofs.«130450_j89593017795077_1_alg».proof.Proof.Bridge.H1
import proofs.«130450_j89593017795077_1_alg».proof.Proof.Bridge.H2

noncomputable section

namespace Cert.Bridge

open Idealize.ShloMosaic Idealize.ShloMosaic.TcCoe Idealize.ShloMosaic.ValueIdx
open Cert.KernelIdeal Cert.KernelIdeal.Gen Cert.KernelIdeal.Hand

variable (m : (ℓ : Loc nD τ sig) → Buf (Elt Ideal) ℓ) (c : Dev nD)

theorem regHyp0 : RegHyp0 m (outs m) c := fun n j => by
  show (outs m 2 main_v15 c : Vec Ideal S20000x1536 .f32) (ix2 n j) = _
  rw [outs_2 m c]
  exact reg0_value_apply (fun c b => Gen.V1 m c b) c n j

theorem regHyp1 : RegHyp1 m (outs m) c := fun n j => by
  show (outs m 6 main_v81 c : Vec Ideal S20000x512 .f32) (ix2 n j) = _
  rw [outs_6 m c]
  exact reg1_value_apply (fun c b => Gen.V5 m (outs m) c b) c n j

theorem regHyp2 : RegHyp2 m (outs m) c := fun n j => by
  show (outs m 8 main_v118 c : Vec Ideal S20000x2048 .bf16) (ix2 n j) = _
  rw [outs_8 m c]
  exact reg2_value_apply (fun c b => Gen.V7 m (outs m) c b) c n j

theorem regHyp3 : RegHyp3 m (outs m) c := fun n j => by
  show (outs m 10 main_v125 c : Vec Ideal S20000x512 .f32) (ix2 n j) = _
  rw [outs_10 m c]
  exact reg3_value_apply (fun c b => Gen.V9 m (outs m) c b) c n j

theorem regHyp4 : RegHyp4 m (outs m) c := fun n j => by
  show (outs m 12 main_v170 c : Vec Ideal S20000x1536 .f32) (ix2 n j) = _
  rw [outs_12 m c]
  exact reg4_value_apply (fun c b => Gen.V11 m (outs m) c b) c n j

theorem regHyp5 : RegHyp5 m (outs m) c := fun n j => by
  show (outs m 16 main_v236 c : Vec Ideal S20000x512 .f32) (ix2 n j) = _
  rw [outs_16 m c]
  exact reg5_value_apply (fun c b => Gen.V15 m (outs m) c b) c n j

theorem regHyp6 : RegHyp6 m (outs m) c := fun n j => by
  show (outs m 18 main_v273 c : Vec Ideal S20000x2048 .bf16) (ix2 n j) = _
  rw [outs_18 m c]
  exact reg6_value_apply (fun c b => Gen.V17 m (outs m) c b) c n j

theorem regHyp7 : RegHyp7 m (outs m) c := fun n j => by
  show (outs m 20 main_v280 c : Vec Ideal S20000x512 .f32) (ix2 n j) = _
  rw [outs_20 m c]
  exact reg7_value_apply (fun c b => Gen.V19 m (outs m) c b) c n j

end Cert.Bridge

namespace Cert.Bridge

open Idealize.ShloMosaic Idealize.ShloMosaic.TcCoe

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (ha : Agree m m' c) :
    Cert.KernelIdeal.Gen.V21 m (Cert.KernelIdeal.Hand.outs m) c Cert.KernelIdeal.main_v309
      = Cert.ReferenceIdeal.Hand.RV15 m' c Cert.ReferenceIdeal.main_v295 := by
  have e1 := e1_eq m (Cert.KernelIdeal.Hand.outs m) m' c ha
  obtain ⟨q1, k1, v1⟩ := qkv1_eq m (Cert.KernelIdeal.Hand.outs m) m' c ha (regHyp0 m c)
  have o1 := o1_eq m (Cert.KernelIdeal.Hand.outs m) m' c ha e1 q1 k1 v1
  have y1 := y1_eq m (Cert.KernelIdeal.Hand.outs m) m' c ha o1 (regHyp1 m c)
  have x1 := x1_eq m (Cert.KernelIdeal.Hand.outs m) m' c ha y1
  have h1 := h1_eq m (Cert.KernelIdeal.Hand.outs m) m' c ha x1 (regHyp2 m c)
  have y2 := y2_eq m (Cert.KernelIdeal.Hand.outs m) m' c ha x1 h1 (regHyp3 m c)
  have x2 := x2_eq m (Cert.KernelIdeal.Hand.outs m) m' c ha y2
  have e2 := e2_eq m (Cert.KernelIdeal.Hand.outs m) m' c ha
  obtain ⟨q2, k2, v2⟩ := qkv2_eq m (Cert.KernelIdeal.Hand.outs m) m' c ha x2 (regHyp4 m c)
  have o2 := o2_eq m (Cert.KernelIdeal.Hand.outs m) m' c ha e2 q2 k2 v2
  have y3 := y3_eq m (Cert.KernelIdeal.Hand.outs m) m' c ha x2 o2 (regHyp5 m c)
  have x3 := x3_eq m (Cert.KernelIdeal.Hand.outs m) m' c ha y3
  have h2 := h2_eq m (Cert.KernelIdeal.Hand.outs m) m' c ha x3 (regHyp6 m c)
  have y4 := y4_eq m (Cert.KernelIdeal.Hand.outs m) m' c ha x3 h2 (regHyp7 m c)
  exact out_eq m (Cert.KernelIdeal.Hand.outs m) m' c ha y4

end Cert.Bridge

end
-- ==== Proof.lean ====
/- The frames are read off each program's run; the two idealized programs end at the same result, checkpoint by checkpoint. -/
import proofs.«130450_j89593017795077_1_alg».proof.Defs
import proofs.«130450_j89593017795077_1_alg».proof.Proof.Gen.Kernel
import proofs.«130450_j89593017795077_1_alg».proof.Proof.Gen.KernelIdeal
import proofs.«130450_j89593017795077_1_alg».proof.Proof.Gen.ReferenceIdeal
import proofs.«130450_j89593017795077_1_alg».proof.Proof.Gen.Pre_finite_inputs
import proofs.«130450_j89593017795077_1_alg».proof.Proof.K.Run
import proofs.«130450_j89593017795077_1_alg».proof.Proof.KI.Run
import proofs.«130450_j89593017795077_1_alg».proof.Proof.R.RefRun
import proofs.«130450_j89593017795077_1_alg».proof.Proof.Bridge.All
import Idealize.ShloMosaic.Adequacy
import Idealize.ShloMosaic.Init

noncomputable section

namespace Cert.Proof

open Idealize.ShloMosaic Idealize.ShloMosaic.TcCoe Idealize.SL.Sem

theorem frame_Kernel [hKernel : Cert.Kernel.Facts] [hPre : Cert.Pre_finite_inputs.Facts] : Cert.frame_Kernel :=
  fun m ρ _ => (θ_run (Cert.Kernel.defs (F := Bits)) _ _).mono
    (fun _ h c => by and_intros <;> exact (h c).2 _ (by decide)) (Cert.Kernel.Hand.run_kept m ρ)

theorem frame_KernelIdeal [hKernelIdeal : Cert.KernelIdeal.Facts] [hPre : Cert.Pre_finite_inputs.Facts] : Cert.frame_KernelIdeal :=
  fun m ρ _ => (θ_run (Cert.KernelIdeal.defs (F := Ideal)) _ _).mono
    (fun _ h c => by and_intros <;> exact (h c).2 _ (by decide)) (Cert.KernelIdeal.Hand.run_kept m ρ)

theorem frame_ReferenceIdeal [hReferenceIdeal : Cert.ReferenceIdeal.Facts] [hPre : Cert.Pre_finite_inputs.Facts] : Cert.frame_ReferenceIdeal :=
  fun m ρ _ => Cert.ReferenceIdeal.Hand.frame m ρ

theorem algebraic [hKernelIdeal : Cert.KernelIdeal.Facts] [hReferenceIdeal : Cert.ReferenceIdeal.Facts] [hPre : Cert.Pre_finite_inputs.Facts] :
    Cert.algebraic_KernelIdeal_ReferenceIdeal :=
  fun m ρ m' ρ' _ hagree =>
    ⟨fun c => Cert.KernelIdeal.Gen.V21 m (Cert.KernelIdeal.Hand.outs m) c Cert.KernelIdeal.main_v309,
      (θ_run (Cert.KernelIdeal.defs (F := Ideal)) _ _).mono
        (fun _ h c => by and_intros <;> first | exact (h c).1 | exact (h c).2 _ (by decide)) (Cert.KernelIdeal.Hand.run_kept m ρ),
      (θ_run (Cert.ReferenceIdeal.defs (F := Ideal)) _ _).mono
        (fun _ h c => ⟨(h c).1.trans (Cert.Bridge.result_eq m m' c (hagree c)).symm, (h c).2⟩)
        (Cert.ReferenceIdeal.Hand.run_result m' ρ')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
